-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S8192x1024 : Shape := ⟨2, ![8192, 1024]⟩
abbrev S32x128x1024 : Shape := ⟨3, ![32, 128, 1024]⟩
abbrev S32 : Shape := ⟨1, ![32]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S32x128x1024, .f32⟩
  | .local _ .vmem, ⟨1, _⟩ => ⟨S32x128x1024, .f32⟩
  | _, _ => ⟨S8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 192 → Bool
  | ⟨i, _⟩ => dmaSemScopedAt i

abbrev sig : RefSig :=
  (ofTc nBuf bufTy 1 192 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_14 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v24 : BitVec 32 := Scalar.muli v5 c4096_i32
  let v25 : BitVec 32 := Scalar.addi v24 c0_i32_14
  let c0_i32_19 : BitVec 32 := 0#32
  ![v25.toNat, 0]
def k0_dev3 (d0 : Dev nD) : Nat :=
  let c0_i32_158 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_157 : BitVec 32 := 8#32
  let v222 : BitVec 32 := Scalar.muli v9 c8_i32_157
  let v223 : BitVec 32 := Scalar.addi c0_i32_158 v222
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_159 : BitVec 32 := 4#32
  let v224 : BitVec 32 := Scalar.muli v5 c4_i32_159
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v226 : BitVec 32 := Scalar.muli v8 c1_i32_160
  let v227 : BitVec 32 := Scalar.addi v225 v226
  v227.toNat
def k0_dev4 (d0 : Dev nD) : Nat :=
  let c0_i32_175 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_174 : BitVec 32 := 8#32
  let v241 : BitVec 32 := Scalar.muli v9 c8_i32_174
  let v242 : BitVec 32 := Scalar.addi c0_i32_175 v241
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_176 : BitVec 32 := 4#32
  let v243 : BitVec 32 := Scalar.muli v5 c4_i32_176
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_177 : BitVec 32 := 1#32
  let v245 : BitVec 32 := Scalar.muli v8 c1_i32_177
  let v246 : BitVec 32 := Scalar.addi v244 v245
  v246.toNat
def k0_dev5 (d0 : Dev nD) : Nat :=
  let c0_i32_192 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_191 : BitVec 32 := 8#32
  let v260 : BitVec 32 := Scalar.muli v9 c8_i32_191
  let v261 : BitVec 32 := Scalar.addi c0_i32_192 v260
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v262 : BitVec 32 := Scalar.muli v5 c4_i32_193
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v264 : BitVec 32 := Scalar.muli v8 c1_i32_194
  let v265 : BitVec 32 := Scalar.addi v263 v264
  v265.toNat
def k0_dev6 (d0 : Dev nD) : Nat :=
  let c0_i32_209 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_208 : BitVec 32 := 8#32
  let v279 : BitVec 32 := Scalar.muli v9 c8_i32_208
  let v280 : BitVec 32 := Scalar.addi c0_i32_209 v279
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_210 : BitVec 32 := 4#32
  let v281 : BitVec 32 := Scalar.muli v5 c4_i32_210
  let v282 : BitVec 32 := Scalar.addi v280 v281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v283 : BitVec 32 := Scalar.muli v8 c1_i32_211
  let v284 : BitVec 32 := Scalar.addi v282 v283
  v284.toNat
def k0_dev7 (d0 : Dev nD) : Nat :=
  let c0_i32_226 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_225 : BitVec 32 := 8#32
  let v298 : BitVec 32 := Scalar.muli v9 c8_i32_225
  let v299 : BitVec 32 := Scalar.addi c0_i32_226 v298
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v300 : BitVec 32 := Scalar.muli v5 c4_i32_227
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v302 : BitVec 32 := Scalar.muli v8 c1_i32_228
  let v303 : BitVec 32 := Scalar.addi v301 v302
  v303.toNat
def k0_dev8 (d0 : Dev nD) : Nat :=
  let c0_i32_243 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_242 : BitVec 32 := 8#32
  let v317 : BitVec 32 := Scalar.muli v9 c8_i32_242
  let v318 : BitVec 32 := Scalar.addi c0_i32_243 v317
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_244 : BitVec 32 := 4#32
  let v319 : BitVec 32 := Scalar.muli v5 c4_i32_244
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v321 : BitVec 32 := Scalar.muli v8 c1_i32_245
  let v322 : BitVec 32 := Scalar.addi v320 v321
  v322.toNat
def k0_dev9 (d0 : Dev nD) : Nat :=
  let c0_i32_260 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_259 : BitVec 32 := 8#32
  let v336 : BitVec 32 := Scalar.muli v9 c8_i32_259
  let v337 : BitVec 32 := Scalar.addi c0_i32_260 v336
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v338 : BitVec 32 := Scalar.muli v5 c4_i32_261
  let v339 : BitVec 32 := Scalar.addi v337 v338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v340 : BitVec 32 := Scalar.muli v8 c1_i32_262
  let v341 : BitVec 32 := Scalar.addi v339 v340
  v341.toNat
def k0_dev10 (d0 : Dev nD) : Nat :=
  let c0_i32_277 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_276 : BitVec 32 := 8#32
  let v355 : BitVec 32 := Scalar.muli v9 c8_i32_276
  let v356 : BitVec 32 := Scalar.addi c0_i32_277 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_278 : BitVec 32 := 4#32
  let v357 : BitVec 32 := Scalar.muli v5 c4_i32_278
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_279 : BitVec 32 := 1#32
  let v359 : BitVec 32 := Scalar.muli v8 c1_i32_279
  let v360 : BitVec 32 := Scalar.addi v358 v359
  v360.toNat
def k0_dev11 (d0 : Dev nD) : Nat :=
  let c0_i32_294 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_293 : BitVec 32 := 8#32
  let v374 : BitVec 32 := Scalar.muli v9 c8_i32_293
  let v375 : BitVec 32 := Scalar.addi c0_i32_294 v374
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_295 : BitVec 32 := 4#32
  let v376 : BitVec 32 := Scalar.muli v5 c4_i32_295
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296 : BitVec 32 := 1#32
  let v378 : BitVec 32 := Scalar.muli v8 c1_i32_296
  let v379 : BitVec 32 := Scalar.addi v377 v378
  v379.toNat
def k0_dev12 (d0 : Dev nD) : Nat :=
  let c0_i32_311 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_310 : BitVec 32 := 8#32
  let v393 : BitVec 32 := Scalar.muli v9 c8_i32_310
  let v394 : BitVec 32 := Scalar.addi c0_i32_311 v393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_312 : BitVec 32 := 4#32
  let v395 : BitVec 32 := Scalar.muli v5 c4_i32_312
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v397 : BitVec 32 := Scalar.muli v8 c1_i32_313
  let v398 : BitVec 32 := Scalar.addi v396 v397
  v398.toNat
def k0_dev13 (d0 : Dev nD) : Nat :=
  let c0_i32_328 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_327 : BitVec 32 := 8#32
  let v412 : BitVec 32 := Scalar.muli v9 c8_i32_327
  let v413 : BitVec 32 := Scalar.addi c0_i32_328 v412
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_329 : BitVec 32 := 4#32
  let v414 : BitVec 32 := Scalar.muli v5 c4_i32_329
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v416 : BitVec 32 := Scalar.muli v8 c1_i32_330
  let v417 : BitVec 32 := Scalar.addi v415 v416
  v417.toNat
def k0_dev14 (d0 : Dev nD) : Nat :=
  let c0_i32_345 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_344 : BitVec 32 := 8#32
  let v431 : BitVec 32 := Scalar.muli v9 c8_i32_344
  let v432 : BitVec 32 := Scalar.addi c0_i32_345 v431
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_346 : BitVec 32 := 4#32
  let v433 : BitVec 32 := Scalar.muli v5 c4_i32_346
  let v434 : BitVec 32 := Scalar.addi v432 v433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v435 : BitVec 32 := Scalar.muli v8 c1_i32_347
  let v436 : BitVec 32 := Scalar.addi v434 v435
  v436.toNat
def k0_dev15 (d0 : Dev nD) : Nat :=
  let c0_i32_362 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_361 : BitVec 32 := 8#32
  let v450 : BitVec 32 := Scalar.muli v9 c8_i32_361
  let v451 : BitVec 32 := Scalar.addi c0_i32_362 v450
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_363 : BitVec 32 := 4#32
  let v452 : BitVec 32 := Scalar.muli v5 c4_i32_363
  let v453 : BitVec 32 := Scalar.addi v451 v452
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_364 : BitVec 32 := 1#32
  let v454 : BitVec 32 := Scalar.muli v8 c1_i32_364
  let v455 : BitVec 32 := Scalar.addi v453 v454
  v455.toNat
def k0_dev16 (d0 : Dev nD) : Nat :=
  let c0_i32_379 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_378 : BitVec 32 := 8#32
  let v469 : BitVec 32 := Scalar.muli v9 c8_i32_378
  let v470 : BitVec 32 := Scalar.addi c0_i32_379 v469
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_380 : BitVec 32 := 4#32
  let v471 : BitVec 32 := Scalar.muli v5 c4_i32_380
  let v472 : BitVec 32 := Scalar.addi v470 v471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v473 : BitVec 32 := Scalar.muli v8 c1_i32_381
  let v474 : BitVec 32 := Scalar.addi v472 v473
  v474.toNat
def k0_dev17 (d0 : Dev nD) : Nat :=
  let c0_i32_396 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_395 : BitVec 32 := 8#32
  let v488 : BitVec 32 := Scalar.muli v9 c8_i32_395
  let v489 : BitVec 32 := Scalar.addi c0_i32_396 v488
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_397 : BitVec 32 := 4#32
  let v490 : BitVec 32 := Scalar.muli v5 c4_i32_397
  let v491 : BitVec 32 := Scalar.addi v489 v490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_398 : BitVec 32 := 1#32
  let v492 : BitVec 32 := Scalar.muli v8 c1_i32_398
  let v493 : BitVec 32 := Scalar.addi v491 v492
  v493.toNat
def k0_dev18 (d0 : Dev nD) : Nat :=
  let c0_i32_413 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_412 : BitVec 32 := 8#32
  let v507 : BitVec 32 := Scalar.muli v9 c8_i32_412
  let v508 : BitVec 32 := Scalar.addi c0_i32_413 v507
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_414 : BitVec 32 := 4#32
  let v509 : BitVec 32 := Scalar.muli v5 c4_i32_414
  let v510 : BitVec 32 := Scalar.addi v508 v509
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v511 : BitVec 32 := Scalar.muli v8 c1_i32_415
  let v512 : BitVec 32 := Scalar.addi v510 v511
  v512.toNat
def k0_dev19 (d0 : Dev nD) : Nat :=
  let c0_i32_430 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_429 : BitVec 32 := 8#32
  let v526 : BitVec 32 := Scalar.muli v9 c8_i32_429
  let v527 : BitVec 32 := Scalar.addi c0_i32_430 v526
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v528 : BitVec 32 := Scalar.muli v5 c4_i32_431
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_432 : BitVec 32 := 1#32
  let v530 : BitVec 32 := Scalar.muli v8 c1_i32_432
  let v531 : BitVec 32 := Scalar.addi v529 v530
  v531.toNat
def k0_dev20 (d0 : Dev nD) : Nat :=
  let c0_i32_447 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_446 : BitVec 32 := 8#32
  let v545 : BitVec 32 := Scalar.muli v9 c8_i32_446
  let v546 : BitVec 32 := Scalar.addi c0_i32_447 v545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_448 : BitVec 32 := 4#32
  let v547 : BitVec 32 := Scalar.muli v5 c4_i32_448
  let v548 : BitVec 32 := Scalar.addi v546 v547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_449 : BitVec 32 := 1#32
  let v549 : BitVec 32 := Scalar.muli v8 c1_i32_449
  let v550 : BitVec 32 := Scalar.addi v548 v549
  v550.toNat
def k0_dev21 (d0 : Dev nD) : Nat :=
  let c0_i32_464 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_463 : BitVec 32 := 8#32
  let v564 : BitVec 32 := Scalar.muli v9 c8_i32_463
  let v565 : BitVec 32 := Scalar.addi c0_i32_464 v564
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_465 : BitVec 32 := 4#32
  let v566 : BitVec 32 := Scalar.muli v5 c4_i32_465
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_466 : BitVec 32 := 1#32
  let v568 : BitVec 32 := Scalar.muli v8 c1_i32_466
  let v569 : BitVec 32 := Scalar.addi v567 v568
  v569.toNat
def k0_dev22 (d0 : Dev nD) : Nat :=
  let c0_i32_481 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_480 : BitVec 32 := 8#32
  let v583 : BitVec 32 := Scalar.muli v9 c8_i32_480
  let v584 : BitVec 32 := Scalar.addi c0_i32_481 v583
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_482 : BitVec 32 := 4#32
  let v585 : BitVec 32 := Scalar.muli v5 c4_i32_482
  let v586 : BitVec 32 := Scalar.addi v584 v585
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_483 : BitVec 32 := 1#32
  let v587 : BitVec 32 := Scalar.muli v8 c1_i32_483
  let v588 : BitVec 32 := Scalar.addi v586 v587
  v588.toNat
def k0_dev23 (d0 : Dev nD) : Nat :=
  let c0_i32_498 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_497 : BitVec 32 := 8#32
  let v602 : BitVec 32 := Scalar.muli v9 c8_i32_497
  let v603 : BitVec 32 := Scalar.addi c0_i32_498 v602
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_499 : BitVec 32 := 4#32
  let v604 : BitVec 32 := Scalar.muli v5 c4_i32_499
  let v605 : BitVec 32 := Scalar.addi v603 v604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_500 : BitVec 32 := 1#32
  let v606 : BitVec 32 := Scalar.muli v8 c1_i32_500
  let v607 : BitVec 32 := Scalar.addi v605 v606
  v607.toNat
def k0_dev24 (d0 : Dev nD) : Nat :=
  let c0_i32_515 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_514 : BitVec 32 := 8#32
  let v621 : BitVec 32 := Scalar.muli v9 c8_i32_514
  let v622 : BitVec 32 := Scalar.addi c0_i32_515 v621
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_516 : BitVec 32 := 4#32
  let v623 : BitVec 32 := Scalar.muli v5 c4_i32_516
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_517 : BitVec 32 := 1#32
  let v625 : BitVec 32 := Scalar.muli v8 c1_i32_517
  let v626 : BitVec 32 := Scalar.addi v624 v625
  v626.toNat
def k0_dev25 (d0 : Dev nD) : Nat :=
  let c0_i32_532 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_531 : BitVec 32 := 8#32
  let v640 : BitVec 32 := Scalar.muli v9 c8_i32_531
  let v641 : BitVec 32 := Scalar.addi c0_i32_532 v640
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_533 : BitVec 32 := 4#32
  let v642 : BitVec 32 := Scalar.muli v5 c4_i32_533
  let v643 : BitVec 32 := Scalar.addi v641 v642
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_534 : BitVec 32 := 1#32
  let v644 : BitVec 32 := Scalar.muli v8 c1_i32_534
  let v645 : BitVec 32 := Scalar.addi v643 v644
  v645.toNat
def k0_dev26 (d0 : Dev nD) : Nat :=
  let c0_i32_549 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_548 : BitVec 32 := 8#32
  let v659 : BitVec 32 := Scalar.muli v9 c8_i32_548
  let v660 : BitVec 32 := Scalar.addi c0_i32_549 v659
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_550 : BitVec 32 := 4#32
  let v661 : BitVec 32 := Scalar.muli v5 c4_i32_550
  let v662 : BitVec 32 := Scalar.addi v660 v661
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_551 : BitVec 32 := 1#32
  let v663 : BitVec 32 := Scalar.muli v8 c1_i32_551
  let v664 : BitVec 32 := Scalar.addi v662 v663
  v664.toNat
def k0_dev27 (d0 : Dev nD) : Nat :=
  let c0_i32_566 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_565 : BitVec 32 := 8#32
  let v678 : BitVec 32 := Scalar.muli v9 c8_i32_565
  let v679 : BitVec 32 := Scalar.addi c0_i32_566 v678
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_567 : BitVec 32 := 4#32
  let v680 : BitVec 32 := Scalar.muli v5 c4_i32_567
  let v681 : BitVec 32 := Scalar.addi v679 v680
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_568 : BitVec 32 := 1#32
  let v682 : BitVec 32 := Scalar.muli v8 c1_i32_568
  let v683 : BitVec 32 := Scalar.addi v681 v682
  v683.toNat
def k0_dev28 (d0 : Dev nD) : Nat :=
  let c0_i32_583 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_582 : BitVec 32 := 8#32
  let v697 : BitVec 32 := Scalar.muli v9 c8_i32_582
  let v698 : BitVec 32 := Scalar.addi c0_i32_583 v697
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_584 : BitVec 32 := 4#32
  let v699 : BitVec 32 := Scalar.muli v5 c4_i32_584
  let v700 : BitVec 32 := Scalar.addi v698 v699
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_585 : BitVec 32 := 1#32
  let v701 : BitVec 32 := Scalar.muli v8 c1_i32_585
  let v702 : BitVec 32 := Scalar.addi v700 v701
  v702.toNat
def k0_dev29 (d0 : Dev nD) : Nat :=
  let c0_i32_600 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_599 : BitVec 32 := 8#32
  let v716 : BitVec 32 := Scalar.muli v9 c8_i32_599
  let v717 : BitVec 32 := Scalar.addi c0_i32_600 v716
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_601 : BitVec 32 := 4#32
  let v718 : BitVec 32 := Scalar.muli v5 c4_i32_601
  let v719 : BitVec 32 := Scalar.addi v717 v718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_602 : BitVec 32 := 1#32
  let v720 : BitVec 32 := Scalar.muli v8 c1_i32_602
  let v721 : BitVec 32 := Scalar.addi v719 v720
  v721.toNat
def k0_dev30 (d0 : Dev nD) : Nat :=
  let c0_i32_617 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_616 : BitVec 32 := 8#32
  let v735 : BitVec 32 := Scalar.muli v9 c8_i32_616
  let v736 : BitVec 32 := Scalar.addi c0_i32_617 v735
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_618 : BitVec 32 := 4#32
  let v737 : BitVec 32 := Scalar.muli v5 c4_i32_618
  let v738 : BitVec 32 := Scalar.addi v736 v737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_619 : BitVec 32 := 1#32
  let v739 : BitVec 32 := Scalar.muli v8 c1_i32_619
  let v740 : BitVec 32 := Scalar.addi v738 v739
  v740.toNat
def k0_dev31 (d0 : Dev nD) : Nat :=
  let c0_i32_634 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_633 : BitVec 32 := 8#32
  let v754 : BitVec 32 := Scalar.muli v9 c8_i32_633
  let v755 : BitVec 32 := Scalar.addi c0_i32_634 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_635 : BitVec 32 := 4#32
  let v756 : BitVec 32 := Scalar.muli v5 c4_i32_635
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_636 : BitVec 32 := 1#32
  let v758 : BitVec 32 := Scalar.muli v8 c1_i32_636
  let v759 : BitVec 32 := Scalar.addi v757 v758
  v759.toNat
def k0_dev32 (d0 : Dev nD) : Nat :=
  let c0_i32_651 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_650 : BitVec 32 := 8#32
  let v773 : BitVec 32 := Scalar.muli v9 c8_i32_650
  let v774 : BitVec 32 := Scalar.addi c0_i32_651 v773
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_652 : BitVec 32 := 4#32
  let v775 : BitVec 32 := Scalar.muli v5 c4_i32_652
  let v776 : BitVec 32 := Scalar.addi v774 v775
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_653 : BitVec 32 := 1#32
  let v777 : BitVec 32 := Scalar.muli v8 c1_i32_653
  let v778 : BitVec 32 := Scalar.addi v776 v777
  v778.toNat
def k0_dev33 (d0 : Dev nD) : Nat :=
  let c0_i32_668 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_667 : BitVec 32 := 8#32
  let v792 : BitVec 32 := Scalar.muli v9 c8_i32_667
  let v793 : BitVec 32 := Scalar.addi c0_i32_668 v792
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_669 : BitVec 32 := 4#32
  let v794 : BitVec 32 := Scalar.muli v5 c4_i32_669
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_670 : BitVec 32 := 1#32
  let v796 : BitVec 32 := Scalar.muli v8 c1_i32_670
  let v797 : BitVec 32 := Scalar.addi v795 v796
  v797.toNat
def k0_dev34 (d0 : Dev nD) : Nat :=
  let c0_i32_685 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_684 : BitVec 32 := 8#32
  let v811 : BitVec 32 := Scalar.muli v9 c8_i32_684
  let v812 : BitVec 32 := Scalar.addi c0_i32_685 v811
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_686 : BitVec 32 := 4#32
  let v813 : BitVec 32 := Scalar.muli v5 c4_i32_686
  let v814 : BitVec 32 := Scalar.addi v812 v813
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_687 : BitVec 32 := 1#32
  let v815 : BitVec 32 := Scalar.muli v8 c1_i32_687
  let v816 : BitVec 32 := Scalar.addi v814 v815
  v816.toNat
def k0_dev35 (d0 : Dev nD) : Nat :=
  let c0_i32_717 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_716 : BitVec 32 := 8#32
  let v846 : BitVec 32 := Scalar.muli v2 c8_i32_716
  let v847 : BitVec 32 := Scalar.addi c0_i32_717 v846
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_718 : BitVec 32 := 4#32
  let v848 : BitVec 32 := Scalar.muli v10 c4_i32_718
  let v849 : BitVec 32 := Scalar.addi v847 v848
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_719 : BitVec 32 := 1#32
  let v850 : BitVec 32 := Scalar.muli v8 c1_i32_719
  let v851 : BitVec 32 := Scalar.addi v849 v850
  v851.toNat
def k0_dev36 (d0 : Dev nD) : Nat :=
  let c0_i32_754 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_753 : BitVec 32 := 8#32
  let v886 : BitVec 32 := Scalar.muli v2 c8_i32_753
  let v887 : BitVec 32 := Scalar.addi c0_i32_754 v886
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_755 : BitVec 32 := 4#32
  let v888 : BitVec 32 := Scalar.muli v10 c4_i32_755
  let v889 : BitVec 32 := Scalar.addi v887 v888
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_756 : BitVec 32 := 1#32
  let v890 : BitVec 32 := Scalar.muli v8 c1_i32_756
  let v891 : BitVec 32 := Scalar.addi v889 v890
  v891.toNat
def k0_dev37 (d0 : Dev nD) : Nat :=
  let c0_i32_791 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_790 : BitVec 32 := 8#32
  let v926 : BitVec 32 := Scalar.muli v2 c8_i32_790
  let v927 : BitVec 32 := Scalar.addi c0_i32_791 v926
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_792 : BitVec 32 := 4#32
  let v928 : BitVec 32 := Scalar.muli v10 c4_i32_792
  let v929 : BitVec 32 := Scalar.addi v927 v928
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_793 : BitVec 32 := 1#32
  let v930 : BitVec 32 := Scalar.muli v8 c1_i32_793
  let v931 : BitVec 32 := Scalar.addi v929 v930
  v931.toNat
def k0_dev38 (d0 : Dev nD) : Nat :=
  let c0_i32_828 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_827 : BitVec 32 := 8#32
  let v966 : BitVec 32 := Scalar.muli v2 c8_i32_827
  let v967 : BitVec 32 := Scalar.addi c0_i32_828 v966
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_829 : BitVec 32 := 4#32
  let v968 : BitVec 32 := Scalar.muli v10 c4_i32_829
  let v969 : BitVec 32 := Scalar.addi v967 v968
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_830 : BitVec 32 := 1#32
  let v970 : BitVec 32 := Scalar.muli v8 c1_i32_830
  let v971 : BitVec 32 := Scalar.addi v969 v970
  v971.toNat
def k0_dev39 (d0 : Dev nD) : Nat :=
  let c0_i32_865 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_864 : BitVec 32 := 8#32
  let v1006 : BitVec 32 := Scalar.muli v2 c8_i32_864
  let v1007 : BitVec 32 := Scalar.addi c0_i32_865 v1006
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_866 : BitVec 32 := 4#32
  let v1008 : BitVec 32 := Scalar.muli v10 c4_i32_866
  let v1009 : BitVec 32 := Scalar.addi v1007 v1008
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_867 : BitVec 32 := 1#32
  let v1010 : BitVec 32 := Scalar.muli v8 c1_i32_867
  let v1011 : BitVec 32 := Scalar.addi v1009 v1010
  v1011.toNat
def k0_dev40 (d0 : Dev nD) : Nat :=
  let c0_i32_902 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_901 : BitVec 32 := 8#32
  let v1046 : BitVec 32 := Scalar.muli v2 c8_i32_901
  let v1047 : BitVec 32 := Scalar.addi c0_i32_902 v1046
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_903 : BitVec 32 := 4#32
  let v1048 : BitVec 32 := Scalar.muli v10 c4_i32_903
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_904 : BitVec 32 := 1#32
  let v1050 : BitVec 32 := Scalar.muli v8 c1_i32_904
  let v1051 : BitVec 32 := Scalar.addi v1049 v1050
  v1051.toNat
def k0_dev41 (d0 : Dev nD) : Nat :=
  let c0_i32_939 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_938 : BitVec 32 := 8#32
  let v1086 : BitVec 32 := Scalar.muli v2 c8_i32_938
  let v1087 : BitVec 32 := Scalar.addi c0_i32_939 v1086
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_940 : BitVec 32 := 4#32
  let v1088 : BitVec 32 := Scalar.muli v10 c4_i32_940
  let v1089 : BitVec 32 := Scalar.addi v1087 v1088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_941 : BitVec 32 := 1#32
  let v1090 : BitVec 32 := Scalar.muli v8 c1_i32_941
  let v1091 : BitVec 32 := Scalar.addi v1089 v1090
  v1091.toNat
def k0_dev42 (d0 : Dev nD) : Nat :=
  let c0_i32_976 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_975 : BitVec 32 := 8#32
  let v1126 : BitVec 32 := Scalar.muli v2 c8_i32_975
  let v1127 : BitVec 32 := Scalar.addi c0_i32_976 v1126
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_977 : BitVec 32 := 4#32
  let v1128 : BitVec 32 := Scalar.muli v10 c4_i32_977
  let v1129 : BitVec 32 := Scalar.addi v1127 v1128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1130 : BitVec 32 := Scalar.muli v8 c1_i32_978
  let v1131 : BitVec 32 := Scalar.addi v1129 v1130
  v1131.toNat
def k0_dev43 (d0 : Dev nD) : Nat :=
  let c0_i32_1013 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1012 : BitVec 32 := 8#32
  let v1166 : BitVec 32 := Scalar.muli v2 c8_i32_1012
  let v1167 : BitVec 32 := Scalar.addi c0_i32_1013 v1166
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1014 : BitVec 32 := 4#32
  let v1168 : BitVec 32 := Scalar.muli v10 c4_i32_1014
  let v1169 : BitVec 32 := Scalar.addi v1167 v1168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1015 : BitVec 32 := 1#32
  let v1170 : BitVec 32 := Scalar.muli v8 c1_i32_1015
  let v1171 : BitVec 32 := Scalar.addi v1169 v1170
  v1171.toNat
def k0_dev44 (d0 : Dev nD) : Nat :=
  let c0_i32_1050 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1049 : BitVec 32 := 8#32
  let v1206 : BitVec 32 := Scalar.muli v2 c8_i32_1049
  let v1207 : BitVec 32 := Scalar.addi c0_i32_1050 v1206
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1051 : BitVec 32 := 4#32
  let v1208 : BitVec 32 := Scalar.muli v10 c4_i32_1051
  let v1209 : BitVec 32 := Scalar.addi v1207 v1208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1052 : BitVec 32 := 1#32
  let v1210 : BitVec 32 := Scalar.muli v8 c1_i32_1052
  let v1211 : BitVec 32 := Scalar.addi v1209 v1210
  v1211.toNat
def k0_dev45 (d0 : Dev nD) : Nat :=
  let c0_i32_1087 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1086 : BitVec 32 := 8#32
  let v1246 : BitVec 32 := Scalar.muli v2 c8_i32_1086
  let v1247 : BitVec 32 := Scalar.addi c0_i32_1087 v1246
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1088 : BitVec 32 := 4#32
  let v1248 : BitVec 32 := Scalar.muli v10 c4_i32_1088
  let v1249 : BitVec 32 := Scalar.addi v1247 v1248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1089 : BitVec 32 := 1#32
  let v1250 : BitVec 32 := Scalar.muli v8 c1_i32_1089
  let v1251 : BitVec 32 := Scalar.addi v1249 v1250
  v1251.toNat
def k0_dev46 (d0 : Dev nD) : Nat :=
  let c0_i32_1124 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1123 : BitVec 32 := 8#32
  let v1286 : BitVec 32 := Scalar.muli v2 c8_i32_1123
  let v1287 : BitVec 32 := Scalar.addi c0_i32_1124 v1286
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1125 : BitVec 32 := 4#32
  let v1288 : BitVec 32 := Scalar.muli v10 c4_i32_1125
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1126 : BitVec 32 := 1#32
  let v1290 : BitVec 32 := Scalar.muli v8 c1_i32_1126
  let v1291 : BitVec 32 := Scalar.addi v1289 v1290
  v1291.toNat
def k0_dev47 (d0 : Dev nD) : Nat :=
  let c0_i32_1161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1160 : BitVec 32 := 8#32
  let v1326 : BitVec 32 := Scalar.muli v2 c8_i32_1160
  let v1327 : BitVec 32 := Scalar.addi c0_i32_1161 v1326
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1162 : BitVec 32 := 4#32
  let v1328 : BitVec 32 := Scalar.muli v10 c4_i32_1162
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1163 : BitVec 32 := 1#32
  let v1330 : BitVec 32 := Scalar.muli v8 c1_i32_1163
  let v1331 : BitVec 32 := Scalar.addi v1329 v1330
  v1331.toNat
def k0_dev48 (d0 : Dev nD) : Nat :=
  let c0_i32_1198 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1197 : BitVec 32 := 8#32
  let v1366 : BitVec 32 := Scalar.muli v2 c8_i32_1197
  let v1367 : BitVec 32 := Scalar.addi c0_i32_1198 v1366
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1199 : BitVec 32 := 4#32
  let v1368 : BitVec 32 := Scalar.muli v10 c4_i32_1199
  let v1369 : BitVec 32 := Scalar.addi v1367 v1368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1200 : BitVec 32 := 1#32
  let v1370 : BitVec 32 := Scalar.muli v8 c1_i32_1200
  let v1371 : BitVec 32 := Scalar.addi v1369 v1370
  v1371.toNat
def k0_dev49 (d0 : Dev nD) : Nat :=
  let c0_i32_1235 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1234 : BitVec 32 := 8#32
  let v1406 : BitVec 32 := Scalar.muli v2 c8_i32_1234
  let v1407 : BitVec 32 := Scalar.addi c0_i32_1235 v1406
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1236 : BitVec 32 := 4#32
  let v1408 : BitVec 32 := Scalar.muli v10 c4_i32_1236
  let v1409 : BitVec 32 := Scalar.addi v1407 v1408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1237 : BitVec 32 := 1#32
  let v1410 : BitVec 32 := Scalar.muli v8 c1_i32_1237
  let v1411 : BitVec 32 := Scalar.addi v1409 v1410
  v1411.toNat
def k0_dev50 (d0 : Dev nD) : Nat :=
  let c0_i32_1272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1271 : BitVec 32 := 8#32
  let v1446 : BitVec 32 := Scalar.muli v2 c8_i32_1271
  let v1447 : BitVec 32 := Scalar.addi c0_i32_1272 v1446
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1273 : BitVec 32 := 4#32
  let v1448 : BitVec 32 := Scalar.muli v10 c4_i32_1273
  let v1449 : BitVec 32 := Scalar.addi v1447 v1448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1274 : BitVec 32 := 1#32
  let v1450 : BitVec 32 := Scalar.muli v8 c1_i32_1274
  let v1451 : BitVec 32 := Scalar.addi v1449 v1450
  v1451.toNat
def k0_dev51 (d0 : Dev nD) : Nat :=
  let c0_i32_1309 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1308 : BitVec 32 := 8#32
  let v1486 : BitVec 32 := Scalar.muli v2 c8_i32_1308
  let v1487 : BitVec 32 := Scalar.addi c0_i32_1309 v1486
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1310 : BitVec 32 := 4#32
  let v1488 : BitVec 32 := Scalar.muli v10 c4_i32_1310
  let v1489 : BitVec 32 := Scalar.addi v1487 v1488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1311 : BitVec 32 := 1#32
  let v1490 : BitVec 32 := Scalar.muli v8 c1_i32_1311
  let v1491 : BitVec 32 := Scalar.addi v1489 v1490
  v1491.toNat
def k0_dev52 (d0 : Dev nD) : Nat :=
  let c0_i32_1346 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1345 : BitVec 32 := 8#32
  let v1526 : BitVec 32 := Scalar.muli v2 c8_i32_1345
  let v1527 : BitVec 32 := Scalar.addi c0_i32_1346 v1526
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1347 : BitVec 32 := 4#32
  let v1528 : BitVec 32 := Scalar.muli v10 c4_i32_1347
  let v1529 : BitVec 32 := Scalar.addi v1527 v1528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1348 : BitVec 32 := 1#32
  let v1530 : BitVec 32 := Scalar.muli v8 c1_i32_1348
  let v1531 : BitVec 32 := Scalar.addi v1529 v1530
  v1531.toNat
def k0_dev53 (d0 : Dev nD) : Nat :=
  let c0_i32_1383 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1382 : BitVec 32 := 8#32
  let v1566 : BitVec 32 := Scalar.muli v2 c8_i32_1382
  let v1567 : BitVec 32 := Scalar.addi c0_i32_1383 v1566
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1384 : BitVec 32 := 4#32
  let v1568 : BitVec 32 := Scalar.muli v10 c4_i32_1384
  let v1569 : BitVec 32 := Scalar.addi v1567 v1568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1385 : BitVec 32 := 1#32
  let v1570 : BitVec 32 := Scalar.muli v8 c1_i32_1385
  let v1571 : BitVec 32 := Scalar.addi v1569 v1570
  v1571.toNat
def k0_dev54 (d0 : Dev nD) : Nat :=
  let c0_i32_1420 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1419 : BitVec 32 := 8#32
  let v1606 : BitVec 32 := Scalar.muli v2 c8_i32_1419
  let v1607 : BitVec 32 := Scalar.addi c0_i32_1420 v1606
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1421 : BitVec 32 := 4#32
  let v1608 : BitVec 32 := Scalar.muli v10 c4_i32_1421
  let v1609 : BitVec 32 := Scalar.addi v1607 v1608
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1422 : BitVec 32 := 1#32
  let v1610 : BitVec 32 := Scalar.muli v8 c1_i32_1422
  let v1611 : BitVec 32 := Scalar.addi v1609 v1610
  v1611.toNat
def k0_dev55 (d0 : Dev nD) : Nat :=
  let c0_i32_1457 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1456 : BitVec 32 := 8#32
  let v1646 : BitVec 32 := Scalar.muli v2 c8_i32_1456
  let v1647 : BitVec 32 := Scalar.addi c0_i32_1457 v1646
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1458 : BitVec 32 := 4#32
  let v1648 : BitVec 32 := Scalar.muli v10 c4_i32_1458
  let v1649 : BitVec 32 := Scalar.addi v1647 v1648
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1459 : BitVec 32 := 1#32
  let v1650 : BitVec 32 := Scalar.muli v8 c1_i32_1459
  let v1651 : BitVec 32 := Scalar.addi v1649 v1650
  v1651.toNat
def k0_dev56 (d0 : Dev nD) : Nat :=
  let c0_i32_1494 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1493 : BitVec 32 := 8#32
  let v1686 : BitVec 32 := Scalar.muli v2 c8_i32_1493
  let v1687 : BitVec 32 := Scalar.addi c0_i32_1494 v1686
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1495 : BitVec 32 := 4#32
  let v1688 : BitVec 32 := Scalar.muli v10 c4_i32_1495
  let v1689 : BitVec 32 := Scalar.addi v1687 v1688
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1496 : BitVec 32 := 1#32
  let v1690 : BitVec 32 := Scalar.muli v8 c1_i32_1496
  let v1691 : BitVec 32 := Scalar.addi v1689 v1690
  v1691.toNat
def k0_dev57 (d0 : Dev nD) : Nat :=
  let c0_i32_1531 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1530 : BitVec 32 := 8#32
  let v1726 : BitVec 32 := Scalar.muli v2 c8_i32_1530
  let v1727 : BitVec 32 := Scalar.addi c0_i32_1531 v1726
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1532 : BitVec 32 := 4#32
  let v1728 : BitVec 32 := Scalar.muli v10 c4_i32_1532
  let v1729 : BitVec 32 := Scalar.addi v1727 v1728
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1533 : BitVec 32 := 1#32
  let v1730 : BitVec 32 := Scalar.muli v8 c1_i32_1533
  let v1731 : BitVec 32 := Scalar.addi v1729 v1730
  v1731.toNat
def k0_dev58 (d0 : Dev nD) : Nat :=
  let c0_i32_1568 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1567 : BitVec 32 := 8#32
  let v1766 : BitVec 32 := Scalar.muli v2 c8_i32_1567
  let v1767 : BitVec 32 := Scalar.addi c0_i32_1568 v1766
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1569 : BitVec 32 := 4#32
  let v1768 : BitVec 32 := Scalar.muli v10 c4_i32_1569
  let v1769 : BitVec 32 := Scalar.addi v1767 v1768
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1570 : BitVec 32 := 1#32
  let v1770 : BitVec 32 := Scalar.muli v8 c1_i32_1570
  let v1771 : BitVec 32 := Scalar.addi v1769 v1770
  v1771.toNat
def k0_dev59 (d0 : Dev nD) : Nat :=
  let c0_i32_1605 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1604 : BitVec 32 := 8#32
  let v1806 : BitVec 32 := Scalar.muli v2 c8_i32_1604
  let v1807 : BitVec 32 := Scalar.addi c0_i32_1605 v1806
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1606 : BitVec 32 := 4#32
  let v1808 : BitVec 32 := Scalar.muli v10 c4_i32_1606
  let v1809 : BitVec 32 := Scalar.addi v1807 v1808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1607 : BitVec 32 := 1#32
  let v1810 : BitVec 32 := Scalar.muli v8 c1_i32_1607
  let v1811 : BitVec 32 := Scalar.addi v1809 v1810
  v1811.toNat
def k0_dev60 (d0 : Dev nD) : Nat :=
  let c0_i32_1642 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1641 : BitVec 32 := 8#32
  let v1846 : BitVec 32 := Scalar.muli v2 c8_i32_1641
  let v1847 : BitVec 32 := Scalar.addi c0_i32_1642 v1846
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1643 : BitVec 32 := 4#32
  let v1848 : BitVec 32 := Scalar.muli v10 c4_i32_1643
  let v1849 : BitVec 32 := Scalar.addi v1847 v1848
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1644 : BitVec 32 := 1#32
  let v1850 : BitVec 32 := Scalar.muli v8 c1_i32_1644
  let v1851 : BitVec 32 := Scalar.addi v1849 v1850
  v1851.toNat
def k0_dev61 (d0 : Dev nD) : Nat :=
  let c0_i32_1679 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1678 : BitVec 32 := 8#32
  let v1886 : BitVec 32 := Scalar.muli v2 c8_i32_1678
  let v1887 : BitVec 32 := Scalar.addi c0_i32_1679 v1886
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1680 : BitVec 32 := 4#32
  let v1888 : BitVec 32 := Scalar.muli v10 c4_i32_1680
  let v1889 : BitVec 32 := Scalar.addi v1887 v1888
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1681 : BitVec 32 := 1#32
  let v1890 : BitVec 32 := Scalar.muli v8 c1_i32_1681
  let v1891 : BitVec 32 := Scalar.addi v1889 v1890
  v1891.toNat
def k0_dev62 (d0 : Dev nD) : Nat :=
  let c0_i32_1716 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1715 : BitVec 32 := 8#32
  let v1926 : BitVec 32 := Scalar.muli v2 c8_i32_1715
  let v1927 : BitVec 32 := Scalar.addi c0_i32_1716 v1926
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1717 : BitVec 32 := 4#32
  let v1928 : BitVec 32 := Scalar.muli v10 c4_i32_1717
  let v1929 : BitVec 32 := Scalar.addi v1927 v1928
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1718 : BitVec 32 := 1#32
  let v1930 : BitVec 32 := Scalar.muli v8 c1_i32_1718
  let v1931 : BitVec 32 := Scalar.addi v1929 v1930
  v1931.toNat
def k0_dev63 (d0 : Dev nD) : Nat :=
  let c0_i32_1753 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1752 : BitVec 32 := 8#32
  let v1966 : BitVec 32 := Scalar.muli v2 c8_i32_1752
  let v1967 : BitVec 32 := Scalar.addi c0_i32_1753 v1966
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1754 : BitVec 32 := 4#32
  let v1968 : BitVec 32 := Scalar.muli v10 c4_i32_1754
  let v1969 : BitVec 32 := Scalar.addi v1967 v1968
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1755 : BitVec 32 := 1#32
  let v1970 : BitVec 32 := Scalar.muli v8 c1_i32_1755
  let v1971 : BitVec 32 := Scalar.addi v1969 v1970
  v1971.toNat
def k0_dev64 (d0 : Dev nD) : Nat :=
  let c0_i32_1790 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1789 : BitVec 32 := 8#32
  let v2006 : BitVec 32 := Scalar.muli v2 c8_i32_1789
  let v2007 : BitVec 32 := Scalar.addi c0_i32_1790 v2006
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1791 : BitVec 32 := 4#32
  let v2008 : BitVec 32 := Scalar.muli v10 c4_i32_1791
  let v2009 : BitVec 32 := Scalar.addi v2007 v2008
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1792 : BitVec 32 := 1#32
  let v2010 : BitVec 32 := Scalar.muli v8 c1_i32_1792
  let v2011 : BitVec 32 := Scalar.addi v2009 v2010
  v2011.toNat
def k0_dev65 (d0 : Dev nD) : Nat :=
  let c0_i32_1827 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1826 : BitVec 32 := 8#32
  let v2046 : BitVec 32 := Scalar.muli v2 c8_i32_1826
  let v2047 : BitVec 32 := Scalar.addi c0_i32_1827 v2046
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1828 : BitVec 32 := 4#32
  let v2048 : BitVec 32 := Scalar.muli v10 c4_i32_1828
  let v2049 : BitVec 32 := Scalar.addi v2047 v2048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1829 : BitVec 32 := 1#32
  let v2050 : BitVec 32 := Scalar.muli v8 c1_i32_1829
  let v2051 : BitVec 32 := Scalar.addi v2049 v2050
  v2051.toNat
def k0_dev66 (d0 : Dev nD) : Nat :=
  let c0_i32_1864 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1863 : BitVec 32 := 8#32
  let v2086 : BitVec 32 := Scalar.muli v2 c8_i32_1863
  let v2087 : BitVec 32 := Scalar.addi c0_i32_1864 v2086
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1865 : BitVec 32 := 4#32
  let v2088 : BitVec 32 := Scalar.muli v10 c4_i32_1865
  let v2089 : BitVec 32 := Scalar.addi v2087 v2088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1866 : BitVec 32 := 1#32
  let v2090 : BitVec 32 := Scalar.muli v8 c1_i32_1866
  let v2091 : BitVec 32 := Scalar.addi v2089 v2090
  v2091.toNat

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S32x128x1024_S1x128x1024_0_0_0 : ∀ a, (![0, 0, 0] : Fin 3 → Nat) a + S1x128x1024.size a ≤ S32x128x1024.size a
  squeezes_S1x128x1024_S128x1024 : S1x128x1024.Squeezes S128x1024
  inb_S32_S1_1 : ∀ a, (![1] : Fin 1 → Nat) a + S1.size a ≤ S32.size a
  inb_S32x128x1024_S1x128x1024_1_0_0 : ∀ a, (![1, 0, 0] : Fin 3 → Nat) a + S1x128x1024.size a ≤ S32x128x1024.size a
  inb_S32_S1_2 : ∀ a, (![2] : Fin 1 → Nat) a + S1.size a ≤ S32.size a
  inb_S32x128x1024_S1x128x1024_2_0_0 : ∀ a, (![2, 0, 0] : Fin 3 → Nat) a + S1x128x1024.size a ≤ S32x128x1024.size a
  inb_S32_S1_3 : ∀ a, (![3] : Fin 1 → Nat) a + S1.size a ≤ S32.size a
  inb_S32x128x1024_S1x128x1024_3_0_0 : ∀ a, (![3, 0, 0] : Fin 3 → Nat) a + S1x128x1024.size a ≤ S32x128x1024.size a
  inb_S32_S1_4 : ∀ a, (![4] : Fin 1 → Nat) a + S1.size a ≤ S32.size a
  inb_S32x128x1024_S1x128x1024_4_0_0 : ∀ a, (![4, 0, 0] : Fin 3 → Nat) a + S1x128x1024.size a ≤ S32x128x1024.size a
  inb_S32_S1_5 : ∀ a, (![5] : Fin 1 → Nat) a + S1.size a ≤ S32.size a
  inb_S32x128x1024_S1x128x1024_5_0_0 : ∀ a, (![5, 0, 0] : Fin 3 → Nat) a + S1x128x1024.size a ≤ S32x128x1024.size a
  inb_S32_S1_6 : ∀ a, (![6] : Fin 1 → Nat) a + S1.size a ≤ S32.size a
  inb_S32x128x1024_S1x128x1024_6_0_0 : ∀ a, (![6, 0, 0] : Fin 3 → Nat) a + S1x128x1024.size a ≤ S32x128x1024.size a
  inb_S32_S1_7 : ∀ a, (![7] : Fin 1 → Nat) a + S1.size a ≤ S32.size a
  inb_S32x128x1024_S1x128x1024_7_0_0 : ∀ a, (![7, 0, 0] : Fin 3 → Nat) a + S1x128x1024.size a ≤ S32x128x1024.size a
  inb_S32_S1_8 : ∀ a, (![8] : Fin 1 → Nat) a + S1.size a ≤ S32.size a
  inb_S32x128x1024_S1x128x1024_8_0_0 : ∀ a, (![8, 0, 0] : Fin 3 → Nat) a + S1x128x1024.size a ≤ S32x128x1024.size a
  inb_S32_S1_9 : ∀ a, (![9] : Fin 1 → Nat) a + S1.size a ≤ S32.size a
  inb_S32x128x1024_S1x128x1024_9_0_0 : ∀ a, (![9, 0, 0] : Fin 3 → Nat) a + S1x128x1024.size a ≤ S32x128x1024.size a
  inb_S32_S1_10 : ∀ a, (![10] : Fin 1 → Nat) a + S1.size a ≤ S32.size a
  inb_S32x128x1024_S1x128x1024_10_0_0 : ∀ a, (![10, 0, 0] : Fin 3 → Nat) a + S1x128x1024.size a ≤ S32x128x1024.size a
  inb_S32_S1_11 : ∀ a, (![11] : Fin 1 → Nat) a + S1.size a ≤ S32.size a
  inb_S32x128x1024_S1x128x1024_11_0_0 : ∀ a, (![11, 0, 0] : Fin 3 → Nat) a + S1x128x1024.size a ≤ S32x128x1024.size a
  inb_S32_S1_12 : ∀ a, (![12] : Fin 1 → Nat) a + S1.size a ≤ S32.size a
  inb_S32x128x1024_S1x128x1024_12_0_0 : ∀ a, (![12, 0, 0] : Fin 3 → Nat) a + S1x128x1024.size a ≤ S32x128x1024.size a
  inb_S32_S1_13 : ∀ a, (![13] : Fin 1 → Nat) a + S1.size a ≤ S32.size a
  inb_S32x128x1024_S1x128x1024_13_0_0 : ∀ a, (![13, 0, 0] : Fin 3 → Nat) a + S1x128x1024.size a ≤ S32x128x1024.size a
  inb_S32_S1_14 : ∀ a, (![14] : Fin 1 → Nat) a + S1.size a ≤ S32.size a
  inb_S32x128x1024_S1x128x1024_14_0_0 : ∀ a, (![14, 0, 0] : Fin 3 → Nat) a + S1x128x1024.size a ≤ S32x128x1024.size a
  inb_S32_S1_15 : ∀ a, (![15] : Fin 1 → Nat) a + S1.size a ≤ S32.size a
  inb_S32x128x1024_S1x128x1024_15_0_0 : ∀ a, (![15, 0, 0] : Fin 3 → Nat) a + S1x128x1024.size a ≤ S32x128x1024.size a
  inb_S32_S1_16 : ∀ a, (![16] : Fin 1 → Nat) a + S1.size a ≤ S32.size a
  inb_S32x128x1024_S1x128x1024_16_0_0 : ∀ a, (![16, 0, 0] : Fin 3 → Nat) a + S1x128x1024.size a ≤ S32x128x1024.size a
  inb_S32_S1_17 : ∀ a, (![17] : Fin 1 → Nat) a + S1.size a ≤ S32.size a
  inb_S32x128x1024_S1x128x1024_17_0_0 : ∀ a, (![17, 0, 0] : Fin 3 → Nat) a + S1x128x1024.size a ≤ S32x128x1024.size a
  inb_S32_S1_18 : ∀ a, (![18] : Fin 1 → Nat) a + S1.size a ≤ S32.size a
  inb_S32x128x1024_S1x128x1024_18_0_0 : ∀ a, (![18, 0, 0] : Fin 3 → Nat) a + S1x128x1024.size a ≤ S32x128x1024.size a
  inb_S32_S1_19 : ∀ a, (![19] : Fin 1 → Nat) a + S1.size a ≤ S32.size a
  inb_S32x128x1024_S1x128x1024_19_0_0 : ∀ a, (![19, 0, 0] : Fin 3 → Nat) a + S1x128x1024.size a ≤ S32x128x1024.size a
  inb_S32_S1_20 : ∀ a, (![20] : Fin 1 → Nat) a + S1.size a ≤ S32.size a
  inb_S32x128x1024_S1x128x1024_20_0_0 : ∀ a, (![20, 0, 0] : Fin 3 → Nat) a + S1x128x1024.size a ≤ S32x128x1024.size a
  inb_S32_S1_21 : ∀ a, (![21] : Fin 1 → Nat) a + S1.size a ≤ S32.size a
  inb_S32x128x1024_S1x128x1024_21_0_0 : ∀ a, (![21, 0, 0] : Fin 3 → Nat) a + S1x128x1024.size a ≤ S32x128x1024.size a
  inb_S32_S1_22 : ∀ a, (![22] : Fin 1 → Nat) a + S1.size a ≤ S32.size a
  inb_S32x128x1024_S1x128x1024_22_0_0 : ∀ a, (![22, 0, 0] : Fin 3 → Nat) a + S1x128x1024.size a ≤ S32x128x1024.size a
  inb_S32_S1_23 : ∀ a, (![23] : Fin 1 → Nat) a + S1.size a ≤ S32.size a
  inb_S32x128x1024_S1x128x1024_23_0_0 : ∀ a, (![23, 0, 0] : Fin 3 → Nat) a + S1x128x1024.size a ≤ S32x128x1024.size a
  inb_S32_S1_24 : ∀ a, (![24] : Fin 1 → Nat) a + S1.size a ≤ S32.size a
  inb_S32x128x1024_S1x128x1024_24_0_0 : ∀ a, (![24, 0, 0] : Fin 3 → Nat) a + S1x128x1024.size a ≤ S32x128x1024.size a
  inb_S32_S1_25 : ∀ a, (![25] : Fin 1 → Nat) a + S1.size a ≤ S32.size a
  inb_S32x128x1024_S1x128x1024_25_0_0 : ∀ a, (![25, 0, 0] : Fin 3 → Nat) a + S1x128x1024.size a ≤ S32x128x1024.size a
  inb_S32_S1_26 : ∀ a, (![26] : Fin 1 → Nat) a + S1.size a ≤ S32.size a
  inb_S32x128x1024_S1x128x1024_26_0_0 : ∀ a, (![26, 0, 0] : Fin 3 → Nat) a + S1x128x1024.size a ≤ S32x128x1024.size a
  inb_S32_S1_27 : ∀ a, (![27] : Fin 1 → Nat) a + S1.size a ≤ S32.size a
  inb_S32x128x1024_S1x128x1024_27_0_0 : ∀ a, (![27, 0, 0] : Fin 3 → Nat) a + S1x128x1024.size a ≤ S32x128x1024.size a
  inb_S32_S1_28 : ∀ a, (![28] : Fin 1 → Nat) a + S1.size a ≤ S32.size a
  inb_S32x128x1024_S1x128x1024_28_0_0 : ∀ a, (![28, 0, 0] : Fin 3 → Nat) a + S1x128x1024.size a ≤ S32x128x1024.size a
  inb_S32_S1_29 : ∀ a, (![29] : Fin 1 → Nat) a + S1.size a ≤ S32.size a
  inb_S32x128x1024_S1x128x1024_29_0_0 : ∀ a, (![29, 0, 0] : Fin 3 → Nat) a + S1x128x1024.size a ≤ S32x128x1024.size a
  inb_S32_S1_30 : ∀ a, (![30] : Fin 1 → Nat) a + S1.size a ≤ S32.size a
  inb_S32x128x1024_S1x128x1024_30_0_0 : ∀ a, (![30, 0, 0] : Fin 3 → Nat) a + S1x128x1024.size a ≤ S32x128x1024.size a
  inb_S32_S1_31 : ∀ a, (![31] : Fin 1 → Nat) a + S1.size a ≤ S32.size a
  inb_S32x128x1024_S1x128x1024_31_0_0 : ∀ a, (![31, 0, 0] : Fin 3 → Nat) a + S1x128x1024.size a ≤ S32x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  hcc0_scratch2 : 0 + S32.numel ≤ 192
  hcc0_scratch3 : 32 + S32.numel ≤ 192
  hcc0_scratch4 : 64 + S32.numel ≤ 192
  hcc0_scratch5 : 96 + S32.numel ≤ 192
  hcc0_scratch6 : 128 + S32.numel ≤ 192
  hcc0_scratch7 : 160 + S32.numel ≤ 192
  k0_dev1_lt : ∀ d0 : Dev nD, (k0_dev1 d0) < nD
  k0_dev2_lt : ∀ d0 : Dev nD, (k0_dev2 d0) < nD
  k0_off1_inb : ∀ d0 : Dev nD, ∀ (r : Fin 32), ∀ a, (k0_off1 d0 (BitVec.ofNat 32 (128 * r.val))) a + S128x1024.size a ≤ S8192x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD

variable [Facts₀]

abbrev cc0_scratch2 : DmaSems sig S32 := SemArray.consecutive 0 S32 hcc0_scratch2
abbrev cc0_scratch3 : DmaSems sig S32 := SemArray.consecutive 32 S32 hcc0_scratch3
abbrev cc0_scratch4 : DmaSems sig S32 := SemArray.consecutive 64 S32 hcc0_scratch4
abbrev cc0_scratch5 : DmaSems sig S32 := SemArray.consecutive 96 S32 hcc0_scratch5
abbrev cc0_scratch6 : DmaSems sig S32 := SemArray.consecutive 128 S32 hcc0_scratch6
abbrev cc0_scratch7 : DmaSems sig S32 := SemArray.consecutive 160 S32 hcc0_scratch7

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S16384x1024_S2x8192x1024 : S16384x1024.ShapeCasts S2x8192x1024
  reducesTo_S2x8192x1024_S8192x1024_d0 : S2x8192x1024.ReducesTo [0] S8192x1024
  h_S_ : 0 < S_.numel

variable [Facts₀]

class Facts : Prop extends Facts₀ where

variable [Facts]
-- ==== Proof.KI.Base.lean ====
/- The mesh and a device's two neighbours; for each buffer, the one function naming what it holds once written. -/
import proofs.«900708_g7700000000000709_dist_ar_v7x_xyz2x2x4_x_m8192_n1024_f32_1_alg».proof.Proof.Gen.KernelIdeal
import Idealize.ShloMosaic.Lib.ValueIdx

noncomputable section

namespace Cert.KernelIdeal.AR

open Cert.KernelIdeal Cert.KernelIdeal.Gen
open Idealize.ShloMosaic Idealize.ShloMosaic.TcCoe Idealize.ShloMosaic.ValueIdx

variable {F : FTy → Type} [FloatOps F]

def xp (c : Dev nD) : Dev nD := ⟨(4 * ((c.val / 4) % 2) + (c.val % 4) + 8) - 8 * (c.val / 8), by show _ < 16; have h : c.val < 16 := c.isLt; omega⟩

def yp (c : Dev nD) : Dev nD := ⟨(8 * (c.val / 8) + (c.val % 4) + 4) - 4 * ((c.val / 4) % 2), by show _ < 16; have h : c.val < 16 := c.isLt; omega⟩

theorem xp_xp (c : Dev nD) : xp (xp c) = c := by revert c; decide
theorem yp_yp (c : Dev nD) : yp (yp c) = c := by revert c; decide
def half (c : Dev nD) : ℕ := (c.val / 4) % 2
theorem half_lt (c : Dev nD) : half c < 2 := Nat.mod_lt _ (by decide)
theorem half_xp (c : Dev nD) : half (xp c) = half c := by revert c; decide
theorem half_yp (c : Dev nD) : half (yp c) = 1 - half c := by revert c; decide

def blk (c : Dev nD) : ℕ := c.val / 8
theorem blk_lt (c : Dev nD) : blk c < 2 := by have h : c.val < 16 := c.isLt; unfold blk; omega
theorem blk_xp (c : Dev nD) : blk (xp c) = 1 - blk c := by revert c; decide
def row (c : Dev nD) (k : Fin 32) (r : Fin 128) : Fin 8192 :=
  ⟨4096 * half c + 128 * k.val + r.val, by have := half_lt c; have := k.isLt; have := r.isLt; omega⟩

variable (m : (ℓ : Loc nD τ sig) → Buf (Elt F) ℓ)

def X (d : Dev nD) : FVec F S8192x1024 .f32 := m ((d : Thread nD τ).loc main_arg0)

def vxIn (c : Dev nD) : FVec F S32x128x1024 .f32 := fun j => X m c (ix2 (row c (j 0) (j 1)) (j 2))

def vrIn (c : Dev nD) : FVec F S32x128x1024 .f32 := fun j => X m (xp c) (ix2 (row c (j 0) (j 1)) (j 2))

def vrSum (c : Dev nD) : FVec F S32x128x1024 .f32 := addf (vrIn m c) (vxIn m c)

def maker (c : Dev nD) (r : Fin 8192) : Dev nD := if r.val / 4096 = half c then c else yp c

def outVal (c : Dev nD) : FVec F S8192x1024 .f32 :=
  fun i => FloatOps.addf (X m (xp (maker c (i 0))) i) (X m (maker c (i 0)) i)

end Cert.KernelIdeal.AR

end
-- ==== Proof.KI.Cells.lean ====
/- A chunk's pieces of the four buffers and its six semaphore cells, at a symbolic chunk. -/
import proofs.«900708_g7700000000000709_dist_ar_v7x_xyz2x2x4_x_m8192_n1024_f32_1_alg».proof.Proof.KI.Base
import proofs.«900708_g7700000000000709_dist_ar_v7x_xyz2x2x4_x_m8192_n1024_f32_1_alg».proof.Proof.Gen.KernelIdeal.Skeleton
import proofs.«900708_g7700000000000709_dist_ar_v7x_xyz2x2x4_x_m8192_n1024_f32_1_alg».proof.Proof.Gen.KernelIdeal.Launch
import Idealize.ShloMosaic.Lib.Pipeline.Launch
import Idealize.ShloMosaic.Lib.Pipeline.Kit

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

abbrev EP : Emb (UR sig nD τ) (MT nD τ sig Unit (Elt F) ℕ UU ℕ) := embL
abbrev ER : Emb UB (MT nD τ sig Unit (Elt F) ℕ UU ℕ) := embR

theorem inb1 (k : Fin 32) : ∀ a, (![k.val] : Fin 1 → Nat) a + S1.size a ≤ S32.size a := by
  intro a; have hk := k.isLt
  match a with | ⟨0, _⟩ => show k.val + 1 ≤ 32; omega
theorem inb3 (k : Fin 32) : ∀ a, (![k.val, 0, 0] : Fin 3 → Nat) a + S1x128x1024.size a ≤ S32x128x1024.size a := by
  intro a; have hk := k.isLt
  match a with
  | ⟨0, _⟩ => show k.val + 1 ≤ 32; omega
  | ⟨1, _⟩ => show 0 + 128 ≤ 128; omega
  | ⟨2, _⟩ => show 0 + 1024 ≤ 1024; omega

abbrev vrSl (k : Fin 32) : Memref sig .tc .vmem S128x1024 .f32 :=
  ((Memref.whole cc0_scratch0).slice (Rect.unit (s := S32x128x1024) ![k.val, 0, 0] S1x128x1024.size (inb3 k)) (fun _ => rfl)).squeeze S128x1024 squeezes_S1x128x1024_S128x1024

abbrev vxSl (k : Fin 32) : Memref sig .tc .vmem S128x1024 .f32 :=
  ((Memref.whole cc0_scratch1).slice (Rect.unit (s := S32x128x1024) ![k.val, 0, 0] S1x128x1024.size (inb3 k)) (fun _ => rfl)).squeeze S128x1024 squeezes_S1x128x1024_S128x1024

abbrev xSl (c : Dev nD) (k : Fin 32) : Memref sig .tc .hbm S128x1024 .f32 :=
  (Memref.whole main_arg0).slice (Rect.unit (s := S8192x1024) (k0_off1 c (BitVec.ofNat 32 (128 * k.val))) S128x1024.size (k0_off1_inb c k)) (fun _ => rfl)

abbrev oSl (c : Dev nD) (k : Fin 32) : Memref sig .tc .hbm S128x1024 .f32 :=
  (Memref.whole main_v1).slice (Rect.unit (s := S8192x1024) (k0_off1 c (BitVec.ofNat 32 (128 * k.val))) S128x1024.size (k0_off1_inb c k)) (fun _ => rfl)

abbrev semOf (a : DmaSems sig S32) (k : Fin 32) : DmaSem sig :=
  ((a.slice (Rect.unit (s := S32) ![k.val] S1.size (inb1 k))).squeeze S_ squeezes_S1_S_).sem

abbrev xsSem (k : Fin 32) : DmaSem sig := semOf cc0_scratch2 k

abbrev xrSem (k : Fin 32) : DmaSem sig := semOf cc0_scratch3 k

abbrev ysSem (k : Fin 32) : DmaSem sig := semOf cc0_scratch4 k

abbrev yrSem (k : Fin 32) : DmaSem sig := semOf cc0_scratch5 k

abbrev ldSem (k : Fin 32) : DmaSem sig := semOf cc0_scratch6 k

abbrev stSem (k : Fin 32) : DmaSem sig := semOf cc0_scratch7 k

abbrev barS : Sem sig := (SemArray.scalar (sig.barrier 0 rfl) : Sems sig S_).sem

abbrev barCell (c : Dev nD) : GSem nD τ sig := ((c : Thread nD τ), .reg barS)
abbrev xsCell (c : Dev nD) (k : Fin 32) : GSem nD τ sig := ((c : Thread nD τ), .dma (xsSem k))
abbrev xrCell (c : Dev nD) (k : Fin 32) : GSem nD τ sig := ((c : Thread nD τ), .dma (xrSem k))
abbrev ysCell (c : Dev nD) (k : Fin 32) : GSem nD τ sig := ((c : Thread nD τ), .dma (ysSem k))
abbrev yrCell (c : Dev nD) (k : Fin 32) : GSem nD τ sig := ((c : Thread nD τ), .dma (yrSem k))
abbrev ldCell (c : Dev nD) (k : Fin 32) : GSem nD τ sig := ((c : Thread nD τ), .dma (ldSem k))
abbrev stCell (c : Dev nD) (k : Fin 32) : GSem nD τ sig := ((c : Thread nD τ), .dma (stSem k))

abbrev N : ℕ := (vrSl 0).view.dmaCredit
theorem N_pos : 0 < N := View.dmaCredit_pos _ (by decide)

end Cert.KernelIdeal.AR

end
-- ==== Proof.KI.Sched.lean ====
/- The protocol as a schedule: every cell has one round, every transfer pays one duty, and the duty's payload says what has landed. -/
import proofs.«900708_g7700000000000709_dist_ar_v7x_xyz2x2x4_x_m8192_n1024_f32_1_alg».proof.Proof.KI.Cells

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def fam (s : DmaSem sig) : ℕ := s.val / 32
def chunk (s : DmaSem sig) : Fin 32 := ⟨s.val % 32, Nat.mod_lt _ (by decide)⟩

theorem xs_val : ∀ k : Fin 32, (xsSem k).val = k.val := by decide
theorem xr_val : ∀ k : Fin 32, (xrSem k).val = 32 + k.val := by decide
theorem ys_val : ∀ k : Fin 32, (ysSem k).val = 64 + k.val := by decide
theorem yr_val : ∀ k : Fin 32, (yrSem k).val = 96 + k.val := by decide
theorem ld_val : ∀ k : Fin 32, (ldSem k).val = 128 + k.val := by decide
theorem st_val : ∀ k : Fin 32, (stSem k).val = 160 + k.val := by decide

theorem fam_xs (k : Fin 32) : fam (xsSem k) = 0 := by unfold fam; rw [xs_val]; have := k.isLt; omega
theorem fam_xr (k : Fin 32) : fam (xrSem k) = 1 := by unfold fam; rw [xr_val]; have := k.isLt; omega
theorem fam_ys (k : Fin 32) : fam (ysSem k) = 2 := by unfold fam; rw [ys_val]; have := k.isLt; omega
theorem fam_yr (k : Fin 32) : fam (yrSem k) = 3 := by unfold fam; rw [yr_val]; have := k.isLt; omega
theorem fam_ld (k : Fin 32) : fam (ldSem k) = 4 := by unfold fam; rw [ld_val]; have := k.isLt; omega
theorem fam_st (k : Fin 32) : fam (stSem k) = 5 := by unfold fam; rw [st_val]; have := k.isLt; omega
theorem chunk_xs (k : Fin 32) : chunk (xsSem k) = k := Fin.ext (by show (xsSem k).val % 32 = k.val; rw [xs_val]; have := k.isLt; omega)
theorem chunk_xr (k : Fin 32) : chunk (xrSem k) = k := Fin.ext (by show (xrSem k).val % 32 = k.val; rw [xr_val]; have := k.isLt; omega)
theorem chunk_ys (k : Fin 32) : chunk (ysSem k) = k := Fin.ext (by show (ysSem k).val % 32 = k.val; rw [ys_val]; have := k.isLt; omega)
theorem chunk_yr (k : Fin 32) : chunk (yrSem k) = k := Fin.ext (by show (yrSem k).val % 32 = k.val; rw [yr_val]; have := k.isLt; omega)
theorem chunk_ld (k : Fin 32) : chunk (ldSem k) = k := Fin.ext (by show (ldSem k).val % 32 = k.val; rw [ld_val]; have := k.isLt; omega)
theorem chunk_st (k : Fin 32) : chunk (stSem k) = k := Fin.ext (by show (stSem k).val % 32 = k.val; rw [st_val]; have := k.isLt; omega)

def vxC (c : Dev nD) (k : Fin 32) : Buf (Elt F) ((vxSl k).view.loc (c : Thread nD τ)) := vxIn m c
def vrC (c : Dev nD) (k : Fin 32) : Buf (Elt F) ((vrSl k).view.loc (c : Thread nD τ)) := vrIn m c
def vsC (c : Dev nD) (k : Fin 32) : Buf (Elt F) ((vrSl k).view.loc (c : Thread nD τ)) := vrSum m c

def oC (c s : Dev nD) (k : Fin 32) : Buf (Elt F) ((oSl s k).view.loc (c : Thread nD τ)) := outVal m c
def xC (c : Dev nD) (k : Fin 32) : Buf (Elt F) ((xSl c k).view.loc (c : Thread nD τ)) := X m c

def dmaPay (c : Dev nD) (s : DmaSem sig) : sProp 𝕄 :=
  if fam s = 0 then ((vxSl (chunk s)).view.loc (c : Thread nD τ) ↦[(vxSl (chunk s)).view.set]{fullShare.left} vxC m c (chunk s))
  else if fam s = 1 then ((vrSl (chunk s)).view.loc (c : Thread nD τ) ↦[(vrSl (chunk s)).view.set]{fullShare} vrC m c (chunk s))
  else if fam s = 2 then ((vrSl (chunk s)).view.loc (c : Thread nD τ) ↦[(vrSl (chunk s)).view.set]{fullShare.left} vsC m c (chunk s))
  else if fam s = 3 then ((oSl (yp c) (chunk s)).view.loc (c : Thread nD τ) ↦[(oSl (yp c) (chunk s)).view.set]{fullShare} oC m c (yp c) (chunk s))
  else if fam s = 4 then iprop(((vxSl (chunk s)).view.loc (c : Thread nD τ) ↦[(vxSl (chunk s)).view.set]{fullShare} vxC m c (chunk s))
      ∗ ((xSl c (chunk s)).view.loc (c : Thread nD τ) ↦[(xSl c (chunk s)).view.set]{fullShare} xC m c (chunk s)))
  else iprop(((oSl c (chunk s)).view.loc (c : Thread nD τ) ↦[(oSl c (chunk s)).view.set]{fullShare} oC m c c (chunk s))
      ∗ ((vrSl (chunk s)).view.loc (c : Thread nD τ) ↦[(vrSl (chunk s)).view.set]{fullShare.right} vsC m c (chunk s)))

def barPayX (o : Dev nD) : sProp 𝕄 :=
  bigSep Finset.univ fun k : Fin 32 =>
    iprop((∃ f, ((vrSl k).view.loc (xp o : Thread nD τ) ↦[(vrSl k).view.set]{fullShare} f)) ∗ reached ER (xrCell (xp o) k) 0)

def barPayY (o : Dev nD) : sProp 𝕄 :=
  bigSep Finset.univ fun k : Fin 32 =>
    iprop((∃ f, ((oSl o k).view.loc (yp o : Thread nD τ) ↦[(oSl o k).view.set]{fullShare} f)) ∗ reached ER (yrCell (yp o) k) 0)

def Rd : Rounds.Schedule (GSem nD τ sig) Bool 𝕄 where
  duties g r := if r = 0 ∧ g.1.2 = .tc then (match g.2 with | .reg _ => Finset.univ | .dma _ => {false}) else ∅
  amount g _ _ := match g.2 with | .reg _ => 1 | .dma _ => N
  payload g _ d := match g.2 with
    | .reg _ => if d then barPayY g.1.1 else barPayX g.1.1
    | .dma s => dmaPay m g.1.1 s
  amount_pos g _ _ _ := by
    cases g.2 with
    | reg _ => exact Nat.one_pos
    | dma _ => exact N_pos

section Tables
variable (c : Dev nD) (s : DmaSem sig) (k : Fin 32)

theorem duties_bar : (Rd (F := F) m).duties (barCell c) 0 = Finset.univ := by dsimp only [Rd]; exact if_pos ⟨rfl, rfl⟩
theorem duties_dma : (Rd (F := F) m).duties ((c : Thread nD τ), .dma s) 0 = {false} := by dsimp only [Rd]; exact if_pos ⟨rfl, rfl⟩
theorem duties_later (g : GSem nD τ sig) : ∀ r, 1 ≤ r → (Rd (F := F) m).duties g r = ∅ :=
  fun r hr => by dsimp only [Rd]; exact if_neg fun h => by omega

theorem amount_bar (d : Bool) : (Rd (F := F) m).amount (barCell c) 0 d = 1 := rfl
theorem amount_dma (d : Bool) : (Rd (F := F) m).amount ((c : Thread nD τ), .dma s) 0 d = N := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (Rd (F := F) m).expect ((c : Thread nD τ), .dma s) 0 = N := by
  unfold Schedule.expect Schedule.amountOf; rw [duties_dma, Finset.sum_singleton, amount_dma]

theorem payload_bar_false : (Rd (F := F) m).payload (barCell c) 0 false = barPayX c := rfl
theorem payload_bar_true : (Rd (F := F) m).payload (barCell c) 0 true = barPayY c := rfl
theorem payload_dma (d : Bool) : (Rd (F := F) m).payload ((c : Thread nD τ), .dma s) 0 d = dmaPay m c s := rfl

theorem dmaPay_xs : dmaPay m c (xsSem k) = ((vxSl k).view.loc (c : Thread nD τ) ↦[(vxSl k).view.set]{fullShare.left} vxC m c k : sProp 𝕄) := by
  unfold dmaPay; rw [if_pos (fam_xs k), chunk_xs]
theorem dmaPay_xr : dmaPay m c (xrSem k) = ((vrSl k).view.loc (c : Thread nD τ) ↦[(vrSl k).view.set]{fullShare} vrC m c k : sProp 𝕄) := by
  unfold dmaPay; rw [if_neg (by rw [fam_xr]; decide), if_pos (fam_xr k), chunk_xr]
theorem dmaPay_ys : dmaPay m c (ysSem k) = ((vrSl k).view.loc (c : Thread nD τ) ↦[(vrSl k).view.set]{fullShare.left} vsC m c k : sProp 𝕄) := by
  unfold dmaPay; rw [if_neg (by rw [fam_ys]; decide), if_neg (by rw [fam_ys]; decide), if_pos (fam_ys k), chunk_ys]
theorem dmaPay_yr : dmaPay m c (yrSem k) = ((oSl (yp c) k).view.loc (c : Thread nD τ) ↦[(oSl (yp c) k).view.set]{fullShare} oC m c (yp c) k : sProp 𝕄) := by
  unfold dmaPay; rw [if_neg (by rw [fam_yr]; decide), if_neg (by rw [fam_yr]; decide), if_neg (by rw [fam_yr]; decide), if_pos (fam_yr k), chunk_yr]
theorem dmaPay_ld : dmaPay m c (ldSem k) = (iprop(((vxSl k).view.loc (c : Thread nD τ) ↦[(vxSl k).view.set]{fullShare} vxC m c k)
      ∗ ((xSl c k).view.loc (c : Thread nD τ) ↦[(xSl c k).view.set]{fullShare} xC m c k)) : sProp 𝕄) := by
  unfold dmaPay; rw [if_neg (by rw [fam_ld]; decide), if_neg (by rw [fam_ld]; decide), if_neg (by rw [fam_ld]; decide), if_neg (by rw [fam_ld]; decide), if_pos (fam_ld k), chunk_ld]
theorem dmaPay_st : dmaPay m c (stSem k) = (iprop(((oSl c k).view.loc (c : Thread nD τ) ↦[(oSl c k).view.set]{fullShare} oC m c c k)
      ∗ ((vrSl k).view.loc (c : Thread nD τ) ↦[(vrSl k).view.set]{fullShare.right} vsC m c k)) : sProp 𝕄) := by
  unfold dmaPay; rw [if_neg (by rw [fam_st]; decide), if_neg (by rw [fam_st]; decide), if_neg (by rw [fam_st]; decide), if_neg (by rw [fam_st]; decide), if_neg (by rw [fam_st]; decide), chunk_st]

theorem rest_dma : bigSep ((Rd (F := F) m).duties ((c : Thread nD τ), .dma s) 0 \ ∅) (fun d => (Rd (F := F) m).payload ((c : Thread nD τ), .dma s) 0 d) = dmaPay m c s := by
  rw [Finset.sdiff_empty, duties_dma, bigSep_singleton, payload_dma]

theorem rest_bar : bigSep ((Rd (F := F) m).duties (barCell c) 0 \ ∅) (fun d => (Rd (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl

end Tables

instance Rd_payload_storable (g : GSem nD τ sig) (r : ℕ) (d : Bool) :
    BI.Storable (upEmb : UEmb _ 𝕄) ((Rd (F := F) m).payload g r d) := by
  obtain ⟨t, sm⟩ := g
  cases sm with
  | reg _ =>
    show BI.Storable upEmb (if d then barPayY t.1 else barPayX t.1)
    unfold barPayY barPayX
    split <;> infer_instance
  | dma s =>
    show BI.Storable upEmb (dmaPay m t.1 s)
    unfold dmaPay
    (repeat' split) <;> infer_instance

end Cert.KernelIdeal.AR

end
-- ==== Proof.KI.Owes.lean ====
/- What a device still owes after each of its sends, and the levels that put every wait below what is owed. -/
import proofs.«900708_g7700000000000709_dist_ar_v7x_xyz2x2x4_x_m8192_n1024_f32_1_alg».proof.Proof.KI.Sched

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (add_pos_cases sum_pos_exists mayWait_of_levAts)

variable {F : FTy → Type} [FloatOps F]

local notation "𝕄" => MT nD τ sig Unit (Elt F) ℕ UU ℕ

def rem (j : ℕ) : Finset (Fin 32) := Finset.univ.filter fun k => j ≤ k.val

theorem rem_zero : rem 0 = Finset.univ := by unfold rem; exact Finset.filter_true_of_mem fun _ _ => Nat.zero_le _
theorem rem_32 : rem 32 = ∅ := by
  unfold rem; exact Finset.filter_false_of_mem fun k _ => by have := k.isLt; omega
theorem not_mem_rem_succ (k : Fin 32) : k ∉ rem (k.val + 1) := by
  unfold rem; rw [Finset.mem_filter]; exact fun h => by omega
theorem rem_step (k : Fin 32) : rem k.val = insert k (rem (k.val + 1)) := by
  unfold rem; ext a
  rw [Finset.mem_filter, Finset.mem_insert, Finset.mem_filter]
  constructor
  · rintro ⟨_, h⟩
    by_cases e : a = k
    · exact Or.inl e
    · exact Or.inr ⟨Finset.mem_univ _, by have : a.val ≠ k.val := fun h' => e (Fin.ext h'); omega⟩
  · rintro (rfl | ⟨_, h⟩)
    · exact ⟨Finset.mem_univ _, le_refl _⟩
    · exact ⟨Finset.mem_univ _, by omega⟩

def OX (c : Dev nD) (j : ℕ) : CellTallies nD τ sig Unit := ∑ k ∈ rem j, tallyAt (xrCell (xp c) k) () N

def OY (c : Dev nD) (j : ℕ) : CellTallies nD τ sig Unit := ∑ k ∈ rem j, tallyAt (yrCell (yp c) k) () N

theorem OX_step (c : Dev nD) (k : Fin 32) : OX c k.val = OX c (k.val + 1) + tallyAt (xrCell (xp c) k) () N := by
  unfold OX; rw [rem_step k, Finset.sum_insert (not_mem_rem_succ k), add_comm]
theorem OY_step (c : Dev nD) (k : Fin 32) : OY c k.val = OY c (k.val + 1) + tallyAt (yrCell (yp c) k) () N := by
  unfold OY; rw [rem_step k, Finset.sum_insert (not_mem_rem_succ k), add_comm]
theorem OX_32 (c : Dev nD) : OX c 32 = 0 := by unfold OX; rw [rem_32, Finset.sum_empty]
theorem OY_32 (c : Dev nD) : OY c 32 = 0 := by unfold OY; rw [rem_32, Finset.sum_empty]

def O₀ (c : Dev nD) : CellTallies nD τ sig Unit :=
  OY c 0 + OX c 0 + tallyAt (barCell (yp c)) () 1 + tallyAt (barCell (xp c)) () 1

theorem tally_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

theorem OX_pos {c : Dev nD} {j : ℕ} {g : GSem nD τ sig} {u : Unit} (h : 0 < OX c j g u) : ∃ k : Fin 32, g = xrCell (xp c) k := by
  obtain ⟨k, _, hk⟩ := sum_pos_exists h
  exact ⟨k, tally_pos hk⟩
theorem OY_pos {c : Dev nD} {j : ℕ} {g : GSem nD τ sig} {u : Unit} (h : 0 < OY c j g u) : ∃ k : Fin 32, g = yrCell (yp c) k := by
  obtain ⟨k, _, hk⟩ := sum_pos_exists h
  exact ⟨k, tally_pos hk⟩

def L (g : GSem nD τ sig) : Finset Unit := if g.1.2 = .tc then {()} else ∅
def lv (g : GSem nD τ sig) (_ : Unit) : ℕ :=
  match g.2 with
  | .reg _ => 1
  | .dma s => if fam s = 1 then 2 else if fam s = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) (u : Unit) : u ∈ L ((c : Thread nD τ), sm) := by rw [L_tc]; exact Finset.mem_singleton_self _

theorem lv_xr (c : Dev nD) (k : Fin 32) (u : Unit) : lv (xrCell c k) u = 2 := by
  show (if fam (xrSem k) = 1 then 2 else if fam (xrSem k) = 3 then 3 else 0) = 2; rw [if_pos (fam_xr k)]
theorem lv_yr (c : Dev nD) (k : Fin 32) (u : Unit) : lv (yrCell c k) u = 3 := by
  show (if fam (yrSem k) = 1 then 2 else if fam (yrSem k) = 3 then 3 else 0) = 3; rw [if_neg (by rw [fam_yr]; decide), if_pos (fam_yr k)]
theorem lv_own (c : Dev nD) (s : DmaSem sig) (h1 : fam s ≠ 1) (h3 : fam s ≠ 3) (u : Unit) : lv ((c : Thread nD τ), .dma s) u = 0 := by
  show (if fam s = 1 then 2 else if fam s = 3 then 3 else 0) = 0; rw [if_neg h1, if_neg h3]

theorem mayWait_own (c : Dev nD) (s : DmaSem sig) (h1 : fam s ≠ 1) (h3 : fam s ≠ 3) (jy jx : ℕ) :
    (levAts L lv : sProp 𝕄) ⊢ MayWait (c : Thread nD τ) (.dma s) () (OY c jy + OX c jx) :=
  mayWait_of_levAts (mem_L_tc c _ ()) fun g u hg => by
    rw [lv_own c s h1 h3]
    rcases add_pos_cases hg with h | h
    · obtain ⟨k, rfl⟩ := OY_pos h; exact ⟨mem_L_tc _ _ u, by rw [lv_yr]; decide⟩
    · obtain ⟨k, rfl⟩ := OX_pos h; exact ⟨mem_L_tc _ _ u, by rw [lv_xr]; decide⟩

theorem mayWait_bar (c : Dev nD) : (levAts L lv : sProp 𝕄) ⊢ MayWait (c : Thread nD τ) (.reg barS) () (OY c 0 + OX c 0) :=
  mayWait_of_levAts (mem_L_tc c _ ()) fun g u hg => by
    rw [show lv ((c : Thread nD τ), .reg barS) () = 1 from rfl]
    rcases add_pos_cases hg with h | h
    · obtain ⟨k, rfl⟩ := OY_pos h; exact ⟨mem_L_tc _ _ u, by rw [lv_yr]; decide⟩
    · obtain ⟨k, rfl⟩ := OX_pos h; exact ⟨mem_L_tc _ _ u, by rw [lv_xr]; decide⟩

theorem mayWait_xr (c : Dev nD) (k : Fin 32) (jy : ℕ) :
    (levAts L lv : sProp 𝕄) ⊢ MayWait (c : Thread nD τ) (.dma (xrSem k)) () (OY c jy) :=
  mayWait_of_levAts (mem_L_tc c _ ()) fun g u hg => by
    rw [show lv ((c : Thread nD τ), .dma (xrSem k)) () = 2 from lv_xr c k ()]
    obtain ⟨k', rfl⟩ := OY_pos hg; exact ⟨mem_L_tc _ _ u, by rw [lv_yr]; decide⟩

end Cert.KernelIdeal.AR

end
-- ==== Proof.KI.Inv.lean ====
/- The two assertions the launch and a device's body meet at. -/
import proofs.«900708_g7700000000000709_dist_ar_v7x_xyz2x2x4_x_m8192_n1024_f32_1_alg».proof.Proof.KI.Owes

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev kcell (ck : Dev nD × SemLoc sig) : GSem nD τ sig := ((ck.1 : Thread nD τ), ck.2)

def invs (K : Dev nD × SemLoc sig → ℕ) (c : Dev nD) : sProp 𝕄 :=
  iprop((bigSep Finset.univ fun sm : SemLoc sig => cellInv ER (Rd m) (K (c, sm)) (kcell (c, sm)))
    ∗ cellInv ER (Rd m) (K (xp c, .reg barS)) (barCell (xp c)) ∗ cellInv ER (Rd m) (K (yp c, .reg barS)) (barCell (yp c))
    ∗ (bigSep Finset.univ fun k : Fin 32 => cellInv ER (Rd m) (K (xp c, .dma (xrSem k))) (xrCell (xp c) k))
    ∗ (bigSep Finset.univ fun k : Fin 32 => cellInv ER (Rd m) (K (yp c, .dma (yrSem k))) (yrCell (yp c) k)))

instance invs_persistent (K : Dev nD × SemLoc sig → ℕ) (c : Dev nD) : BI.Persistent (invs m K c) := by unfold invs; infer_instance

def reaches (c : Dev nD) : sProp 𝕄 :=
  iprop((bigSep Finset.univ fun sm : SemLoc sig => reached ER (kcell (c, sm)) 0)
    ∗ reached ER (barCell (xp c)) 0 ∗ reached ER (barCell (yp c)) 0
    ∗ (bigSep Finset.univ fun k : Fin 32 => reached ER (xrCell (xp c) k) 0)
    ∗ (bigSep Finset.univ fun k : Fin 32 => reached ER (yrCell (yp c) k) 0))

instance reaches_persistent (c : Dev nD) : BI.Persistent (reaches (F := F) c) := by unfold reaches; infer_instance

def payToks (c : Dev nD) : sProp 𝕄 :=
  iprop(dutyTok ER (barCell (xp c)) 0 false ∗ dutyTok ER (barCell (yp c)) 0 true
    ∗ (bigSep Finset.univ fun k : Fin 32 => dutyTok ER (xrCell (xp c) k) 0 false)
    ∗ (bigSep Finset.univ fun k : Fin 32 => dutyTok ER (yrCell (yp c) k) 0 false)
    ∗ (bigSep Finset.univ fun k : Fin 32 => iprop(dutyTok ER (xsCell c k) 0 false ∗ dutyTok ER (ysCell c k) 0 false
        ∗ dutyTok ER (ldCell c k) 0 false ∗ dutyTok ER (stCell c k) 0 false)))

def ghost (K : Dev nD × SemLoc sig → ℕ) (c : Dev nD) : sProp 𝕄 :=
  iprop(invs m K c ∗ reaches c ∗ (bigSep Finset.univ fun sm : SemLoc sig => atPos ER (kcell (c, sm)) 0 ∅ 0) ∗ payToks c)

def creds (c : Dev nD) : sProp 𝕄 :=
  iprop(cred (tallyAt (barCell c) () 2)
    ∗ (bigSep Finset.univ fun k : Fin 32 => cred (tallyAt (xrCell c k) () N))
    ∗ (bigSep Finset.univ fun k : Fin 32 => cred (tallyAt (yrCell c k) () N)))

def start (c : Dev nD) : sProp 𝕄 := iprop((∃ K, ghost m K c) ∗ creds c ∗ levAts L lv)

def argC (c : Dev nD) : Buf (Elt F) ((c : Thread nD τ).loc main_arg0) := X m c

def outC (c : Dev nD) : Buf (Elt F) ((c : Thread nD τ).loc main_v1) := outVal m c

def Φ₀ (c : Dev nD) : sProp 𝕄 :=
  iprop(start m c
    ∗ (((c : Thread nD τ).loc main_arg0) ↦{fullShare} argC m c)
    ∗ (∃ f, ((c : Thread nD τ).loc main_v1) ↦{fullShare} f)
    ∗ (∃ f, ((c : Thread nD τ).loc cc0_scratch0) ↦{fullShare} f)
    ∗ (∃ f, ((c : Thread nD τ).loc cc0_scratch1) ↦{fullShare} f))

def Φ₁ (c : Dev nD) : sProp 𝕄 :=
  iprop((((c : Thread nD τ).loc main_arg0) ↦{fullShare} argC m c)
    ∗ (((c : Thread nD τ).loc main_v1) ↦{fullShare} outC m c)
    ∗ (∃ f, ((c : Thread nD τ).loc cc0_scratch0) ↦{fullShare} f)
    ∗ (∃ f, ((c : Thread nD τ).loc cc0_scratch1) ↦{fullShare} f)
    ∗ (bigSep Finset.univ fun s : DmaSem sig => semVal ((c : Thread nD τ), .dma s) 0))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.AR

end
-- ==== Proof.KI.Bundle.lean ====
/- One chunk's resources on one device as one assertion per stage, 0 to 11. -/
import proofs.«900708_g7700000000000709_dist_ar_v7x_xyz2x2x4_x_m8192_n1024_f32_1_alg».proof.Proof.KI.Inv

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def chunkInv (K : Dev nD × SemLoc sig → ℕ) (c : Dev nD) (k : Fin 32) : sProp 𝕄 :=
  iprop(cellInv ER (Rd m) (K (c, .dma (xsSem k))) (xsCell c k) ∗ cellInv ER (Rd m) (K (c, .dma (xrSem k))) (xrCell c k)
    ∗ cellInv ER (Rd m) (K (c, .dma (ysSem k))) (ysCell c k) ∗ cellInv ER (Rd m) (K (c, .dma (yrSem k))) (yrCell c k)
    ∗ cellInv ER (Rd m) (K (c, .dma (ldSem k))) (ldCell c k) ∗ cellInv ER (Rd m) (K (c, .dma (stSem k))) (stCell c k)
    ∗ cellInv ER (Rd m) (K (xp c, .dma (xrSem k))) (xrCell (xp c) k) ∗ cellInv ER (Rd m) (K (yp c, .dma (yrSem k))) (yrCell (yp c) k)
    ∗ reached ER (xsCell c k) 0 ∗ reached ER (xrCell c k) 0 ∗ reached ER (ysCell c k) 0 ∗ reached ER (yrCell c k) 0
    ∗ reached ER (ldCell c k) 0 ∗ reached ER (stCell c k) 0 ∗ reached ER (xrCell (xp c) k) 0 ∗ reached ER (yrCell (yp c) k) 0)

instance chunkInv_persistent (K : Dev nD × SemLoc sig → ℕ) (c : Dev nD) (k : Fin 32) : BI.Persistent (chunkInv m K c k) := by
  unfold chunkInv; infer_instance

section Atoms
variable (c : Dev nD) (k : Fin 32)

def aArg : sProp 𝕄 := ((xSl c k).view.loc (c : Thread nD τ) ↦[(xSl c k).view.set]{fullShare} xC m c k)

def aVxAny : sProp 𝕄 := iprop(∃ f, ((vxSl k).view.loc (c : Thread nD τ) ↦[(vxSl k).view.set]{fullShare} f))
def aVx : sProp 𝕄 := ((vxSl k).view.loc (c : Thread nD τ) ↦[(vxSl k).view.set]{fullShare} vxC m c k)
def aVxR : sProp 𝕄 := ((vxSl k).view.loc (c : Thread nD τ) ↦[(vxSl k).view.set]{fullShare.right} vxC m c k)

def aVrPeer : sProp 𝕄 := iprop(∃ f, ((vrSl k).view.loc (xp c : Thread nD τ) ↦[(vrSl k).view.set]{fullShare} f))

def aVrIn : sProp 𝕄 := ((vrSl k).view.loc (c : Thread nD τ) ↦[(vrSl k).view.set]{fullShare} vrC m c k)
def aVrSum : sProp 𝕄 := ((vrSl k).view.loc (c : Thread nD τ) ↦[(vrSl k).view.set]{fullShare} vsC m c k)
def aVrSumL : sProp 𝕄 := ((vrSl k).view.loc (c : Thread nD τ) ↦[(vrSl k).view.set]{fullShare.left} vsC m c k)
def aVrSumR : sProp 𝕄 := ((vrSl k).view.loc (c : Thread nD τ) ↦[(vrSl k).view.set]{fullShare.right} vsC m c k)

def aOPeer : sProp 𝕄 := iprop(∃ f, ((oSl c k).view.loc (yp c : Thread nD τ) ↦[(oSl c k).view.set]{fullShare} f))

def aOOwnAny : sProp 𝕄 := iprop(∃ f, ((oSl c k).view.loc (c : Thread nD τ) ↦[(oSl c k).view.set]{fullShare} f))
def aOOwn : sProp 𝕄 := ((oSl c k).view.loc (c : Thread nD τ) ↦[(oSl c k).view.set]{fullShare} oC m c c k)

def aOOther : sProp 𝕄 := ((oSl (yp c) k).view.loc (c : Thread nD τ) ↦[(oSl (yp c) k).view.set]{fullShare} oC m c (yp c) k)

def aPos (rl rxs rxr rys ryr rst : ℕ) : sProp 𝕄 :=
  iprop(atPos ER (ldCell c k) rl ∅ 0 ∗ atPos ER (xsCell c k) rxs ∅ 0 ∗ atPos ER (xrCell c k) rxr ∅ 0
    ∗ atPos ER (ysCell c k) rys ∅ 0 ∗ atPos ER (yrCell c k) ryr ∅ 0 ∗ atPos ER (stCell c k) rst ∅ 0)

def tLd : sProp 𝕄 := dutyTok ER (ldCell c k) 0 false
def tXs : sProp 𝕄 := dutyTok ER (xsCell c k) 0 false
def tXr : sProp 𝕄 := dutyTok ER (xrCell (xp c) k) 0 false
def tYs : sProp 𝕄 := dutyTok ER (ysCell c k) 0 false
def tYr : sProp 𝕄 := dutyTok ER (yrCell (yp c) k) 0 false
def tSt : sProp 𝕄 := dutyTok ER (stCell c k) 0 false

def crLd : sProp 𝕄 := cred (tallyAt (ldCell c k) () N)
def crXs : sProp 𝕄 := cred (tallyAt (xsCell c k) () N)
def crXr : sProp 𝕄 := cred (tallyAt (xrCell c k) () N)
def crYs : sProp 𝕄 := cred (tallyAt (ysCell c k) () N)
def crYr : sProp 𝕄 := cred (tallyAt (yrCell c k) () N)
def crSt : sProp 𝕄 := cred (tallyAt (stCell c k) () N)

end Atoms

def chunkSt (c : Dev nD) (k : Fin 32) : ℕ → sProp 𝕄
  | 0 => iprop(aArg m c k ∗ aVxAny c k ∗ aVrPeer c k ∗ aOPeer c k ∗ aOOwnAny c k
      ∗ tLd c k ∗ tXs c k ∗ tXr c k ∗ tYs c k ∗ tYr c k ∗ tSt c k ∗ aPos c k 0 0 0 0 0 0 ∗ crXr c k ∗ crYr c k)
  | 1 => iprop(aVrPeer c k ∗ aOPeer c k ∗ aOOwnAny c k
      ∗ tXs c k ∗ tXr c k ∗ tYs c k ∗ tYr c k ∗ tSt c k ∗ aPos c k 0 0 0 0 0 0 ∗ crXr c k ∗ crYr c k ∗ crLd c k)
  | 2 => iprop(aArg m c k ∗ aVx m c k ∗ aVrPeer c k ∗ aOPeer c k ∗ aOOwnAny c k
      ∗ tXs c k ∗ tXr c k ∗ tYs c k ∗ tYr c k ∗ tSt c k ∗ aPos c k 1 0 0 0 0 0 ∗ crXr c k ∗ crYr c k)
  | 3 => iprop(aArg m c k ∗ aVxR m c k ∗ aOPeer c k ∗ aOOwnAny c k
      ∗ tYs c k ∗ tYr c k ∗ tSt c k ∗ aPos c k 1 0 0 0 0 0 ∗ crXr c k ∗ crYr c k ∗ crXs c k)
  | 4 => iprop(aArg m c k ∗ aVxR m c k ∗ aVrIn m c k ∗ aOPeer c k ∗ aOOwnAny c k
      ∗ tYs c k ∗ tYr c k ∗ tSt c k ∗ aPos c k 1 0 1 0 0 0 ∗ crYr c k ∗ crXs c k)
  | 5 => iprop(aArg m c k ∗ aVxR m c k ∗ aVrSum m c k ∗ aOPeer c k ∗ aOOwnAny c k
      ∗ tYs c k ∗ tYr c k ∗ tSt c k ∗ aPos c k 1 0 1 0 0 0 ∗ crYr c k ∗ crXs c k)
  | 6 => iprop(aArg m c k ∗ aVxR m c k ∗ aVrSumR m c k ∗ aOOwnAny c k
      ∗ tSt c k ∗ aPos c k 1 0 1 0 0 0 ∗ crYr c k ∗ crXs c k ∗ crYs c k)
  | 7 => iprop(aArg m c k ∗ aVxR m c k ∗ aPos c k 1 0 1 0 0 0 ∗ crYr c k ∗ crXs c k ∗ crYs c k ∗ crSt c k)
  | 8 => iprop(aArg m c k ∗ aVx m c k ∗ aPos c k 1 1 1 0 0 0 ∗ crYr c k ∗ crYs c k ∗ crSt c k)
  | 9 => iprop(aArg m c k ∗ aVx m c k ∗ aVrSumL m c k ∗ aPos c k 1 1 1 1 0 0 ∗ crYr c k ∗ crSt c k)
  | 10 => iprop(aArg m c k ∗ aVx m c k ∗ aVrSumL m c k ∗ aOOther m c k ∗ aPos c k 1 1 1 1 1 0 ∗ crSt c k)
  | _ => iprop(aArg m c k ∗ aVx m c k ∗ aVrSum m c k ∗ aOOther m c k ∗ aOOwn m c k ∗ aPos c k 1 1 1 1 1 1)

end Cert.KernelIdeal.AR

end
-- ==== Proof.KI.Contents.lean ====
/- What each copy of a chunk leaves under its destination piece: index by index, the function of Base. -/
import proofs.«900708_g7700000000000709_dist_ar_v7x_xyz2x2x4_x_m8192_n1024_f32_1_alg».proof.Proof.KI.Cells
import Idealize.ShloMosaic.Lib.Pipeline.Value
import Idealize.ShloMosaic.Lib.ValueIdx

noncomputable section

namespace Cert.KernelIdeal.AR

open Cert.KernelIdeal Cert.KernelIdeal.Gen
open Idealize.ShloMosaic Idealize.ShloMosaic.TcCoe Idealize.ShloMosaic.ValueIdx

variable {F : FTy → Type} [FloatOps F]

abbrev planeR (k : Fin 32) : Rect S32x128x1024 :=
  Rect.unit (s := S32x128x1024) ![k.val, 0, 0] S1x128x1024.size (inb3 k)

abbrev rowsR (c : Dev nD) (k : Fin 32) : Rect S8192x1024 :=
  Rect.unit (s := S8192x1024) (k0_off1 c (BitVec.ofNat 32 (128 * k.val))) S128x1024.size (k0_off1_inb c k)

theorem mem_planeR (k : Fin 32) (i : S32x128x1024.Idx) : i ∈ (planeR k).set ↔ (i 0).val = k.val := by
  rw [Rect.mem_set_unit]
  constructor
  · intro h
    have h0 : k.val ≤ (i 0).val ∧ (i 0).val < k.val + 1 := h 0
    omega
  · intro h a
    match a with
    | ⟨0, _⟩ => show k.val ≤ (i 0).val ∧ (i 0).val < k.val + 1; omega
    | ⟨1, _⟩ => show 0 ≤ (i 1).val ∧ (i 1).val < 0 + 128; have h1 : (i 1).val < 128 := (i 1).isLt; omega
    | ⟨2, _⟩ => show 0 ≤ (i 2).val ∧ (i 2).val < 0 + 1024; have h2 : (i 2).val < 1024 := (i 2).isLt; omega

theorem mem_rowsR (c : Dev nD) (k : Fin 32) (i : S8192x1024.Idx) :
    i ∈ (rowsR c k).set ↔ ∃ r : Fin 128, i 0 = row c k r := by
  rw [Rect.mem_set_unit, k0_off1_eq]
  have hc := half_lt c
  have hk := k.isLt
  constructor
  · intro h
    have h0 : 4096 * half c + 128 * k.val ≤ (i 0).val ∧ (i 0).val < 4096 * half c + 128 * k.val + 128 := h 0
    exact ⟨⟨(i 0).val - (4096 * half c + 128 * k.val), by omega⟩, Fin.ext (by show (i 0).val = 4096 * half c + 128 * k.val + ((i 0).val - (4096 * half c + 128 * k.val)); omega)⟩
  · rintro ⟨r, hr⟩ a
    have hr' : (i 0).val = 4096 * half c + 128 * k.val + r.val := congrArg Fin.val hr
    have hrl := r.isLt
    match a with
    | ⟨0, _⟩ => show 4096 * half c + 128 * k.val ≤ (i 0).val ∧ (i 0).val < 4096 * half c + 128 * k.val + 128; omega
    | ⟨1, _⟩ => show 0 ≤ (i 1).val ∧ (i 1).val < 0 + 1024; have h1 : (i 1).val < 1024 := (i 1).isLt; omega

theorem vrSl_set (k : Fin 32) : (vrSl k).view.set = (planeR k).set :=
  (View.set_reshape _ _).trans (View.set_slice_whole cc0_scratch0 (planeR k))

theorem vxSl_set (k : Fin 32) : (vxSl k).view.set = (planeR k).set :=
  (View.set_reshape _ _).trans (View.set_slice_whole cc0_scratch1 (planeR k))

theorem xSl_set (c : Dev nD) (k : Fin 32) : (xSl c k).view.set = (rowsR c k).set :=
  View.set_slice_whole main_arg0 (rowsR c k)

theorem oSl_set (c : Dev nD) (k : Fin 32) : (oSl c k).view.set = (rowsR c k).set :=
  View.set_slice_whole main_v1 (rowsR c k)

theorem mem_vrSl (k : Fin 32) (i : S32x128x1024.Idx) : i ∈ (vrSl k).view.set ↔ (i 0).val = k.val := by
  rw [vrSl_set]; exact mem_planeR k i

theorem mem_vxSl (k : Fin 32) (i : S32x128x1024.Idx) : i ∈ (vxSl k).view.set ↔ (i 0).val = k.val := by
  rw [vxSl_set]; exact mem_planeR k i

theorem mem_oSl (c : Dev nD) (k : Fin 32) (i : S8192x1024.Idx) :
    i ∈ (oSl c k).view.set ↔ ∃ r : Fin 128, i 0 = row c k r := by
  rw [oSl_set]; exact mem_rowsR c k i

theorem vrSl_emb (k : Fin 32) (r : Fin 128) (l : Fin 1024) : (vrSl k).view.emb (ix2 r l) = ix3 k r l := by
  show (planeR k).emb (Shape.reshapeEquiv _ (ix2 r l)) = ix3 k r l
  rw [Shape.reshapeEquiv_cons_one]
  funext a; apply Fin.ext
  match a with
  | ⟨0, _⟩ => show k.val + 1 * 0 = k.val; omega
  | ⟨1, _⟩ => show 0 + 1 * r.val = r.val; omega
  | ⟨2, _⟩ => show 0 + 1 * l.val = l.val; omega

theorem vxSl_emb (k : Fin 32) (r : Fin 128) (l : Fin 1024) : (vxSl k).view.emb (ix2 r l) = ix3 k r l := by
  show (planeR k).emb (Shape.reshapeEquiv _ (ix2 r l)) = ix3 k r l
  rw [Shape.reshapeEquiv_cons_one]
  funext a; apply Fin.ext
  match a with
  | ⟨0, _⟩ => show k.val + 1 * 0 = k.val; omega
  | ⟨1, _⟩ => show 0 + 1 * r.val = r.val; omega
  | ⟨2, _⟩ => show 0 + 1 * l.val = l.val; omega

theorem rowsR_emb (c : Dev nD) (k : Fin 32) (r : Fin 128) (l : Fin 1024) :
    (rowsR c k).emb (ix2 r l) = ix2 (row c k r) l := by
  have ho : (rowsR c k).off = ![4096 * half c + 128 * k.val, 0] := k0_off1_eq c k
  funext a; apply Fin.ext
  rw [Rect.emb_apply, ho]
  match a with
  | ⟨0, _⟩ => show 4096 * half c + 128 * k.val + 1 * r.val = 4096 * half c + 128 * k.val + r.val; omega
  | ⟨1, _⟩ => show 0 + 1 * l.val = l.val; omega

theorem xSl_emb (c : Dev nD) (k : Fin 32) (r : Fin 128) (l : Fin 1024) :
    (xSl c k).view.emb (ix2 r l) = ix2 (row c k r) l := rowsR_emb c k r l

theorem oSl_emb (c : Dev nD) (k : Fin 32) (r : Fin 128) (l : Fin 1024) :
    (oSl c k).view.emb (ix2 r l) = ix2 (row c k r) l := rowsR_emb c k r l

theorem row_xp (c : Dev nD) (k : Fin 32) (r : Fin 128) : row (xp c) k r = row c k r := by
  apply Fin.ext
  show 4096 * half (xp c) + 128 * k.val + r.val = 4096 * half c + 128 * k.val + r.val
  rw [half_xp]

theorem row_div (c : Dev nD) (k : Fin 32) (r : Fin 128) : (row c k r).val / 4096 = half c := by
  have hc := half_lt c
  have hk := k.isLt
  have hr := r.isLt
  show (4096 * half c + 128 * k.val + r.val) / 4096 = half c
  omega

theorem maker_row (c : Dev nD) (k : Fin 32) (r : Fin 128) : maker c (row c k r) = c :=
  if_pos (row_div c k r)

theorem maker_yp_row (c : Dev nD) (k : Fin 32) (r : Fin 128) : maker (yp c) (row c k r) = c := by
  have hc := half_lt c
  unfold maker
  rw [if_neg (by rw [row_div, half_yp]; omega), yp_yp]

variable (m : (ℓ : Loc nD τ sig) → Buf (Elt F) ℓ)

theorem fetch_agrees (c : Dev nD) (k : Fin 32) (fd) :
    ∀ i ∈ (vxSl k).view.set,
      (vxSl k).view.write (Elt F) fd ((xSl c k).view.read (Elt F) (X m c)) Finset.univ i = vxIn m c i := by
  intro i hi
  have h0 : (i 0).val = k.val := (mem_vxSl k i).mp hi
  clear hi
  obtain ⟨a, r, l, rfl⟩ : ∃ (a : Fin 32) (r : Fin 128) (l : Fin 1024), i = ix3 a r l := ⟨i 0, i 1, i 2, eq_ix3 i⟩
  obtain rfl : a = k := Fin.ext h0
  have e := View.write_emb_of_mem (v := (vxSl a).view) (Val := Elt F) fd ((xSl c a).view.read (Elt F) (X m c))
    (M := Finset.univ) (x := ix2 r l) (Finset.mem_univ _)
  rw [vxSl_emb] at e
  rw [e, View.read_apply, xSl_emb]
  simp only [cast_eq]
  rfl

theorem xsend_agrees (c : Dev nD) (k : Fin 32) (fd) :
    ∀ i ∈ (vrSl k).view.set,
      (vrSl k).view.write (Elt F) fd ((vxSl k).view.read (Elt F) (vxIn m c)) Finset.univ i = vrIn m (xp c) i := by
  intro i hi
  have h0 : (i 0).val = k.val := (mem_vrSl k i).mp hi
  clear hi
  obtain ⟨a, r, l, rfl⟩ : ∃ (a : Fin 32) (r : Fin 128) (l : Fin 1024), i = ix3 a r l := ⟨i 0, i 1, i 2, eq_ix3 i⟩
  obtain rfl : a = k := Fin.ext h0
  have e := View.write_emb_of_mem (v := (vrSl a).view) (Val := Elt F) fd ((vxSl a).view.read (Elt F) (vxIn m c))
    (M := Finset.univ) (x := ix2 r l) (Finset.mem_univ _)
  rw [vrSl_emb] at e
  rw [e, View.read_apply, vxSl_emb]
  simp only [cast_eq]
  show X m c (ix2 (row c a r) l) = X m (xp (xp c)) (ix2 (row (xp c) a r) l)
  rw [xp_xp, row_xp]

theorem vrSum_apply (c : Dev nD) (k : Fin 32) (r : Fin 128) (l : Fin 1024) :
    vrSum m c (ix3 k r l) = FloatOps.addf (X m (xp c) (ix2 (row c k r) l)) (X m c (ix2 (row c k r) l)) := rfl

theorem ysend_agrees (c : Dev nD) (k : Fin 32) (fd) :
    ∀ i ∈ (oSl c k).view.set,
      (oSl c k).view.write (Elt F) fd ((vrSl k).view.read (Elt F) (vrSum m c)) Finset.univ i = outVal m (yp c) i := by
  intro i hi
  obtain ⟨r, hr⟩ := (mem_oSl c k i).mp hi
  clear hi
  obtain ⟨a, l, rfl⟩ : ∃ (a : Fin 8192) (l : Fin 1024), i = ix2 a l := ⟨i 0, i 1, eq_ix2 i⟩
  obtain rfl : a = row c k r := hr
  have e := View.write_emb_of_mem (v := (oSl c k).view) (Val := Elt F) fd ((vrSl k).view.read (Elt F) (vrSum m c))
    (M := Finset.univ) (x := ix2 r l) (Finset.mem_univ _)
  rw [oSl_emb] at e
  rw [e, View.read_apply, vrSl_emb]
  simp only [cast_eq]
  rw [vrSum_apply]
  show _ = FloatOps.addf (X m (xp (maker (yp c) (row c k r))) (ix2 (row c k r) l))
      (X m (maker (yp c) (row c k r)) (ix2 (row c k r) l))
  rw [maker_yp_row]

theorem store_agrees (c : Dev nD) (k : Fin 32) (fd) :
    ∀ i ∈ (oSl c k).view.set,
      (oSl c k).view.write (Elt F) fd ((vrSl k).view.read (Elt F) (vrSum m c)) Finset.univ i = outVal m c i := by
  intro i hi
  obtain ⟨r, hr⟩ := (mem_oSl c k i).mp hi
  clear hi
  obtain ⟨a, l, rfl⟩ : ∃ (a : Fin 8192) (l : Fin 1024), i = ix2 a l := ⟨i 0, i 1, eq_ix2 i⟩
  obtain rfl : a = row c k r := hr
  have e := View.write_emb_of_mem (v := (oSl c k).view) (Val := Elt F) fd ((vrSl k).view.read (Elt F) (vrSum m c))
    (M := Finset.univ) (x := ix2 r l) (Finset.mem_univ _)
  rw [oSl_emb] at e
  rw [e, View.read_apply, vrSl_emb]
  simp only [cast_eq]
  rw [vrSum_apply]
  show _ = FloatOps.addf (X m (xp (maker c (row c k r))) (ix2 (row c k r) l))
      (X m (maker c (row c k r)) (ix2 (row c k r) l))
  rw [maker_row]

theorem vr_access_set (k : Fin 32) :
    ((Memref.whole cc0_scratch0 : Memref sig .tc .vmem S32x128x1024 .f32).access
      (Rect.unit (s := S32x128x1024) ![k.val, 0, 0] S1x128x1024.size (inb3 k))).set = (vrSl k).view.set :=
  (View.set_slice_whole cc0_scratch0 (planeR k)).trans (vrSl_set k).symm

theorem planeR_emb (k : Fin 32) (r : Fin 128) (l : Fin 1024) : (planeR k).emb (ix3 (0 : Fin 1) r l) = ix3 k r l := by
  funext a; apply Fin.ext
  match a with
  | ⟨0, _⟩ => show k.val + 1 * 0 = k.val; omega
  | ⟨1, _⟩ => show 0 + 1 * r.val = r.val; omega
  | ⟨2, _⟩ => show 0 + 1 * l.val = l.val; omega

theorem rowMajor_plane (r : Fin 128) (l : Fin 1024) :
    (S128x1024.rowMajor (ix2 r l)).val = (S1x128x1024.rowMajor (ix3 (0 : Fin 1) r l)).val := by
  rw [Shape.rowMajor_val_two, Shape.rowMajor_val_three]
  show r.val * 1024 + l.val = (0 * 128 + r.val) * 1024 + l.val
  omega

theorem load_vr_apply (k : Fin 32) (f : (Memref.whole cc0_scratch0 : Memref sig .tc .vmem S32x128x1024 .f32).view.ty.Contents (Elt F))
    (r : Fin 128) (l : Fin 1024) :
    shapeCast S128x1024 ((Memref.whole cc0_scratch0 : Memref sig .tc .vmem S32x128x1024 .f32).view.readAt (Elt F)
      (Rect.unit (s := S32x128x1024) ![k.val, 0, 0] S1x128x1024.size (inb3 k)).toLoadRect f)
      shapeCasts_S1x128x1024_S128x1024 (ix2 r l) = f (ix3 k r l) := by
  rw [shapeCast_apply _ _ (ix2 r l) (ix3 (0 : Fin 1) r l) (rowMajor_plane r l).symm, View.readAt_apply, View.read_apply]
  show f ((planeR k).emb (ix3 (0 : Fin 1) r l)) = f (ix3 k r l)
  rw [planeR_emb]

theorem load_vx_apply (k : Fin 32) (g : (Memref.whole cc0_scratch1 : Memref sig .tc .vmem S32x128x1024 .f32).view.ty.Contents (Elt F))
    (r : Fin 128) (l : Fin 1024) :
    shapeCast S128x1024 ((Memref.whole cc0_scratch1 : Memref sig .tc .vmem S32x128x1024 .f32).view.readAt (Elt F)
      (Rect.unit (s := S32x128x1024) ![k.val, 0, 0] S1x128x1024.size (inb3 k)).toLoadRect g)
      shapeCasts_S1x128x1024_S128x1024 (ix2 r l) = g (ix3 k r l) := by
  rw [shapeCast_apply _ _ (ix2 r l) (ix3 (0 : Fin 1) r l) (rowMajor_plane r l).symm, View.readAt_apply, View.read_apply]
  show g ((planeR k).emb (ix3 (0 : Fin 1) r l)) = g (ix3 k r l)
  rw [planeR_emb]

theorem add_agrees (c : Dev nD) (k : Fin 32)
    (f : Buf (Elt F) ((c : Thread nD τ).loc cc0_scratch0)) (g : Buf (Elt F) ((c : Thread nD τ).loc cc0_scratch1))
    (hf : ∀ i ∈ (vrSl k).view.set, f i = vrIn m c i) (hg : ∀ i ∈ (vxSl k).view.set, g i = vxIn m c i) :
    ∀ i ∈ (vrSl k).view.set,
      ((Memref.whole cc0_scratch0 : Memref sig .tc .vmem S32x128x1024 .f32).access
        (Rect.unit (s := S32x128x1024) ![k.val, 0, 0] S1x128x1024.size (inb3 k))).write (Elt F) f
        (shapeCast S1x128x1024
          (addf
            (shapeCast S128x1024 ((Memref.whole cc0_scratch0 : Memref sig .tc .vmem S32x128x1024 .f32).view.readAt (Elt F)
              (Rect.unit (s := S32x128x1024) ![k.val, 0, 0] S1x128x1024.size (inb3 k)).toLoadRect f) shapeCasts_S1x128x1024_S128x1024)
            (shapeCast S128x1024 ((Memref.whole cc0_scratch1 : Memref sig .tc .vmem S32x128x1024 .f32).view.readAt (Elt F)
              (Rect.unit (s := S32x128x1024) ![k.val, 0, 0] S1x128x1024.size (inb3 k)).toLoadRect g) shapeCasts_S1x128x1024_S128x1024))
          shapeCasts_S128x1024_S1x128x1024) Finset.univ i = vrSum m c i := by
  intro i hi
  have h0 : (i 0).val = k.val := (mem_vrSl k i).mp hi
  clear hi
  obtain ⟨a, r, l, rfl⟩ : ∃ (a : Fin 32) (r : Fin 128) (l : Fin 1024), i = ix3 a r l := ⟨i 0, i 1, i 2, eq_ix3 i⟩
  obtain rfl : a = k := Fin.ext h0
  have hfk : f (ix3 a r l) = vrIn m c (ix3 a r l) := hf _ ((mem_vrSl a _).mpr rfl)
  have hgk : g (ix3 a r l) = vxIn m c (ix3 a r l) := hg _ ((mem_vxSl a _).mpr rfl)
  have e := View.write_emb_of_mem
    (v := (Memref.whole cc0_scratch0 : Memref sig .tc .vmem S32x128x1024 .f32).access
      (Rect.unit (s := S32x128x1024) ![a.val, 0, 0] S1x128x1024.size (inb3 a))) (Val := Elt F) f
    (shapeCast S1x128x1024
          (addf
            (shapeCast S128x1024 ((Memref.whole cc0_scratch0 : Memref sig .tc .vmem S32x128x1024 .f32).view.readAt (Elt F)
              (Rect.unit (s := S32x128x1024) ![a.val, 0, 0] S1x128x1024.size (inb3 a)).toLoadRect f) shapeCasts_S1x128x1024_S128x1024)
            (shapeCast S128x1024 ((Memref.whole cc0_scratch1 : Memref sig .tc .vmem S32x128x1024 .f32).view.readAt (Elt F)
              (Rect.unit (s := S32x128x1024) ![a.val, 0, 0] S1x128x1024.size (inb3 a)).toLoadRect g) shapeCasts_S1x128x1024_S128x1024))
          shapeCasts_S128x1024_S1x128x1024)
    (M := Finset.univ) (x := ix3 (0 : Fin 1) r l) (Finset.mem_univ _)
  rw [show ((Memref.whole cc0_scratch0 : Memref sig .tc .vmem S32x128x1024 .f32).access
      (Rect.unit (s := S32x128x1024) ![a.val, 0, 0] S1x128x1024.size (inb3 a))).emb (ix3 (0 : Fin 1) r l) = ix3 a r l
    from planeR_emb a r l] at e
  rw [e, shapeCast_apply _ _ (ix3 (0 : Fin 1) r l) (ix2 r l) (rowMajor_plane r l)]
  simp only [cast_eq]
  show FloatOps.addf _ _ = FloatOps.addf (vrIn m c (ix3 a r l)) (vxIn m c (ix3 a r l))
  rw [load_vr_apply, load_vx_apply, hfk, hgk]

end Cert.KernelIdeal.AR

end
-- ==== Proof.KI.Pays.lean ====
/- Each copy of a chunk makes the payload of the cell it credits. -/
import proofs.«900708_g7700000000000709_dist_ar_v7x_xyz2x2x4_x_m8192_n1024_f32_1_alg».proof.Proof.KI.Sched
import proofs.«900708_g7700000000000709_dist_ar_v7x_xyz2x2x4_x_m8192_n1024_f32_1_alg».proof.Proof.KI.Contents

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem pay_fetch (c : Dev nD) (k : Fin 32) (fd) :
    (iprop(((vxSl k).view.loc (c : Thread nD τ) ↦[(vxSl k).view.set]{fullShare}
          ((vxSl k).view.write (Elt F) fd ((xSl c k).view.read (Elt F) (xC m c k)) Finset.univ))
        ∗ ((xSl c k).view.loc (c : Thread nD τ) ↦[(xSl c k).view.set]{fullShare} xC m c k)) : sProp 𝕄)
      ⊢ (Rd m).payload (ldCell c k) 0 false := by
  have h : ∀ i ∈ (vxSl k).view.set,
      (vxSl k).view.write (Elt F) fd ((xSl c k).view.read (Elt F) (xC m c k)) Finset.univ i = vxC m c k i :=
    fetch_agrees m c k fd
  rw [payload_dma, dmaPay_ld, pointsTo_congr h]

theorem pay_xsend_src (c : Dev nD) (k : Fin 32) :
    (((vxSl k).view.loc (c : Thread nD τ) ↦[(vxSl k).view.set]{fullShare.left} vxC m c k) : sProp 𝕄)
      ⊢ (Rd m).payload (xsCell c k) 0 false := by
  rw [payload_dma, dmaPay_xs]

theorem pay_xsend_dst (c : Dev nD) (k : Fin 32) (fd) :
    (((vrSl k).view.loc (xp c : Thread nD τ) ↦[(vrSl k).view.set]{fullShare}
        ((vrSl k).view.write (Elt F) fd ((vxSl k).view.read (Elt F) (vxC m c k)) Finset.univ)) : sProp 𝕄)
      ⊢ (Rd m).payload (xrCell (xp c) k) 0 false := by
  have h : ∀ i ∈ (vrSl k).view.set,
      (vrSl k).view.write (Elt F) fd ((vxSl k).view.read (Elt F) (vxC m c k)) Finset.univ i = vrC m (xp c) k i :=
    xsend_agrees m c k fd
  rw [payload_dma, dmaPay_xr, pointsTo_congr h]

theorem pay_ysend_src (c : Dev nD) (k : Fin 32) :
    (((vrSl k).view.loc (c : Thread nD τ) ↦[(vrSl k).view.set]{fullShare.left} vsC m c k) : sProp 𝕄)
      ⊢ (Rd m).payload (ysCell c k) 0 false := by
  rw [payload_dma, dmaPay_ys]

theorem dmaPay_yr_of_eq (c d : Dev nD) (hd : yp c = d) (k : Fin 32) :
    dmaPay m c (yrSem k)
      = ((oSl d k).view.loc (c : Thread nD τ) ↦[(oSl d k).view.set]{fullShare} oC m c d k : sProp 𝕄) := by
  subst hd; exact dmaPay_yr m c k

theorem pay_ysend_dst (c : Dev nD) (k : Fin 32) (fd) :
    (((oSl c k).view.loc (yp c : Thread nD τ) ↦[(oSl c k).view.set]{fullShare}
        ((oSl c k).view.write (Elt F) fd ((vrSl k).view.read (Elt F) (vsC m c k)) Finset.univ)) : sProp 𝕄)
      ⊢ (Rd m).payload (yrCell (yp c) k) 0 false := by
  have h : ∀ i ∈ (oSl c k).view.set,
      (oSl c k).view.write (Elt F) fd ((vrSl k).view.read (Elt F) (vsC m c k)) Finset.univ i = oC m (yp c) c k i :=
    ysend_agrees m c k fd
  rw [payload_dma, dmaPay_yr_of_eq m (yp c) c (yp_yp c) k, pointsTo_congr h]

theorem pay_store (c : Dev nD) (k : Fin 32) (fd) :
    (iprop(((oSl c k).view.loc (c : Thread nD τ) ↦[(oSl c k).view.set]{fullShare}
          ((oSl c k).view.write (Elt F) fd ((vrSl k).view.read (Elt F) (vsC m c k)) Finset.univ))
        ∗ ((vrSl k).view.loc (c : Thread nD τ) ↦[(vrSl k).view.set]{fullShare.right} vsC m c k)) : sProp 𝕄)
      ⊢ (Rd m).payload (stCell c k) 0 false := by
  have h : ∀ i ∈ (oSl c k).view.set,
      (oSl c k).view.write (Elt F) fd ((vrSl k).view.read (Elt F) (vsC m c k)) Finset.univ i = oC m c c k i :=
    store_agrees m c k fd
  rw [payload_dma, dmaPay_st, pointsTo_congr h]

theorem after_add (c : Dev nD) (k : Fin 32)
    (f : Buf (Elt F) ((c : Thread nD τ).loc cc0_scratch0)) (g : Buf (Elt F) ((c : Thread nD τ).loc cc0_scratch1))
    (hf : ∀ i ∈ (vrSl k).view.set, f i = vrIn m c i) (hg : ∀ i ∈ (vxSl k).view.set, g i = vxIn m c i) :
    (((vrSl k).view.loc (c : Thread nD τ) ↦[(vrSl k).view.set]{fullShare}
        (((Memref.whole cc0_scratch0 : Memref sig .tc .vmem S32x128x1024 .f32).access
          (Rect.unit (s := S32x128x1024) ![k.val, 0, 0] S1x128x1024.size (inb3 k))).write (Elt F) f
          (shapeCast S1x128x1024
            (addf
              (shapeCast S128x1024 ((Memref.whole cc0_scratch0 : Memref sig .tc .vmem S32x128x1024 .f32).view.readAt (Elt F)
                (Rect.unit (s := S32x128x1024) ![k.val, 0, 0] S1x128x1024.size (inb3 k)).toLoadRect f) shapeCasts_S1x128x1024_S128x1024)
              (shapeCast S128x1024 ((Memref.whole cc0_scratch1 : Memref sig .tc .vmem S32x128x1024 .f32).view.readAt (Elt F)
                (Rect.unit (s := S32x128x1024) ![k.val, 0, 0] S1x128x1024.size (inb3 k)).toLoadRect g) shapeCasts_S1x128x1024_S128x1024))
            shapeCasts_S128x1024_S1x128x1024) Finset.univ)) : sProp 𝕄)
      = ((vrSl k).view.loc (c : Thread nD τ) ↦[(vrSl k).view.set]{fullShare} vsC m c k) :=
  pointsTo_congr (add_agrees m c k f g hf hg)

end Cert.KernelIdeal.AR

end
-- ==== Proof.KI.StepsA.lean ====
/- The operations of a chunk that issue a copy or compute, each taking the chunk from one stage to the next. -/
import proofs.«900708_g7700000000000709_dist_ar_v7x_xyz2x2x4_x_m8192_n1024_f32_1_alg».proof.Proof.KI.Bundle
import proofs.«900708_g7700000000000709_dist_ar_v7x_xyz2x2x4_x_m8192_n1024_f32_1_alg».proof.Proof.KI.Pays
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

theorem amt_vx (k : Fin 32) (s : DmaSem sig) : (vxSl k).view.amount (.dma s) = N := rfl
theorem amt_vr (k : Fin 32) (s : DmaSem sig) : (vrSl k).view.amount (.dma s) = N := rfl
theorem amt_o (c : Dev nD) (k : Fin 32) (s : DmaSem sig) : (oSl c k).view.amount (.dma s) = N := rfl

theorem step_fetch {K : Dev nD × SemLoc sig → ℕ} {c : Dev nD} {k : Fin 32}
    {hsrc : (xSl c k).view.WordExact} {hdst : (vxSl k).view.WordExact}
    {hsem : DmaTarget.Typed (nD := nD) .hbm (.dma (ldSem k)) (DmaTarget.here (p := (.tc : Proc τ)) (vxSl k))}
    {α : Type} {Q : α → sProp 𝕄} {kont : PUnit → Prog (TpuEff nD τ sig (Elt F) Λ₀ .tc) α} :
    chunkInv m K c k
      ⊢ iprop(chunkSt m c k 0 -∗ (chunkSt m c k 1 -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSl c k) (.here (vxSl k)) (.dma (ldSem k)) hsrc hdst hsem) kont) Q) := by
  unfold chunkInv
  simp only [chunkSt]
  unfold aArg aVxAny
  iintro ⟨-, -, -, -, #Ild, -, -, -, -, -, -, -, #Rld, -, -, -⟩ ⟨Harg, ⟨%fvx, Hvx⟩, Hvrp, Hop, Hoo, Tld, Txs, Txr, Tys, Tyr, Tst, Hpos, Cxr, Cyr⟩ Hk
  unfold tLd
  iapply (Rounds.wp_copy_pointsTo 𝒱₀ ER (Rd m) (c : Thread nD τ) none (κ := K (c, .dma (ldSem k))) (r := 0) (d := false)
      (q := fullShare) (fs := xC m c k) (fd := fvx)
      (by rw [duties_dma]; exact Finset.mem_singleton_self _) () N (amt_vx k _) (amount_dma m c (ldSem k) false)
      (pay_fetch m c k fvx)) $$ [Harg Hvx Tld]
  · isplitr; · iexact Ild
    isplitl [Harg]; · iexact Harg
    isplitl [Hvx]; · iexact Hvx
    isplitl [Tld]; · iexact Tld
    iexact Rld
  iintro Hc
  iapply Hk
  unfold crLd
  iframe

theorem step_stcopy {K : Dev nD × SemLoc sig → ℕ} {c : Dev nD} {k : Fin 32}
    {hsrc : (vrSl k).view.WordExact} {hdst : (oSl c k).view.WordExact}
    {hsem : DmaTarget.Typed (nD := nD) .vmem (.dma (stSem k)) (DmaTarget.here (p := (.tc : Proc τ)) (oSl c k))}
    {α : Type} {Q : α → sProp 𝕄} {kont : PUnit → Prog (TpuEff nD τ sig (Elt F) Λ₀ .tc) α} :
    chunkInv m K c k
      ⊢ iprop(chunkSt m c k 6 -∗ (chunkSt m c k 7 -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (vrSl k) (.here (oSl c k)) (.dma (stSem k)) hsrc hdst hsem) kont) Q) := by
  unfold chunkInv
  simp only [chunkSt]
  unfold aVrSumR aOOwnAny tSt
  iintro ⟨-, -, -, -, -, #Ist, -, -, -, -, -, -, -, #Rst, -, -⟩ ⟨Harg, HvxR, HsumR, ⟨%fo, Hoo⟩, Tst, Hpos, Cyr, Cxs, Cys⟩ Hk
  iapply (Rounds.wp_copy_pointsTo 𝒱₀ ER (Rd m) (c : Thread nD τ) none (κ := K (c, .dma (stSem k))) (r := 0) (d := false)
      (q := fullShare.right) (fs := vsC m c k) (fd := fo)
      (by rw [duties_dma]; exact Finset.mem_singleton_self _) () N (amt_o c k _) (amount_dma m c (stSem k) false)
      (pay_store m c k fo)) $$ [HsumR Hoo Tst]
  · isplitr; · iexact Ist
    isplitl [HsumR]; · iexact HsumR
    isplitl [Hoo]; · iexact Hoo
    isplitl [Tst]; · iexact Tst
    iexact Rst
  iintro Hc
  iapply Hk
  unfold crSt
  iframe

theorem load_sub_vr (k : Fin 32) :
    (Memref.whole cc0_scratch0 : Memref sig .tc .vmem S32x128x1024 .f32).view.setOn (Rect.unit (s := S32x128x1024) ![k.val, 0, 0] S1x128x1024.size (inb3 k)).toLoadRect.set ⊆ (vrSl k).view.set := by
  rw [vrSl_set]
  intro i hi
  obtain ⟨j, hj, rfl⟩ := Finset.mem_map.mp hi
  exact hj

theorem load_sub_vx (k : Fin 32) :
    (Memref.whole cc0_scratch1 : Memref sig .tc .vmem S32x128x1024 .f32).view.setOn (Rect.unit (s := S32x128x1024) ![k.val, 0, 0] S1x128x1024.size (inb3 k)).toLoadRect.set ⊆ (vxSl k).view.set := by
  rw [vxSl_set]
  intro i hi
  obtain ⟨j, hj, rfl⟩ := Finset.mem_map.mp hi
  exact hj

theorem store_sub_vr (k : Fin 32) :
    ((Memref.whole cc0_scratch0 : Memref sig .tc .vmem S32x128x1024 .f32).access (Rect.unit (s := S32x128x1024) ![k.val, 0, 0] S1x128x1024.size (inb3 k))).setOn Finset.univ ⊆ (vrSl k).view.set := by
  rw [View.setOn_univ, vr_access_set]

theorem step_load_vr {K : Dev nD × SemLoc sig → ℕ} {c : Dev nD} {k : Fin 32}
    {hl : (Memref.whole cc0_scratch0 : Memref sig .tc .vmem S32x128x1024 .f32).view.LoadsAt (Rect.unit (s := S32x128x1024) ![k.val, 0, 0] S1x128x1024.size (inb3 k)).toLoadRect}
    {α : Type} {Q : α → sProp 𝕄}
    {kont : ((Rect.unit (s := S32x128x1024) ![k.val, 0, 0] S1x128x1024.size (inb3 k)).toLoadRect.shape.Idx → Elt F .f32) → Prog (TpuEff nD τ sig (Elt F) Λ₀ .tc) α} :
    chunkInv m K c k
      ⊢ iprop(chunkSt m c k 4 -∗ (chunkSt m c k 4 -∗ wp frame (wpE (defs₀ (F := F)) 𝒱₀ (c : Thread nD τ) none) Set.univ
              (kont ((Memref.whole cc0_scratch0 : Memref sig .tc .vmem S32x128x1024 .f32).view.readAt (Elt F) (Rect.unit (s := S32x128x1024) ![k.val, 0, 0] S1x128x1024.size (inb3 k)).toLoadRect (vrC m c k))) Q)
          -∗ wp frame (wpE (defs₀ (F := F)) 𝒱₀ (c : Thread nD τ) none) Set.univ
              (.op (.load (Memref.whole cc0_scratch0 : Memref sig .tc .vmem S32x128x1024 .f32) (Rect.unit (s := S32x128x1024) ![k.val, 0, 0] S1x128x1024.size (inb3 k)).toLoadRect hl) kont) Q) := by
  simp only [chunkSt]
  unfold aVrIn
  iintro #HI ⟨Harg, HvxR, Hvr, Hrest⟩ Hk
  iapply (wp_load 𝒱₀ (c : Thread nD τ) none Set.univ (m := (Memref.whole cc0_scratch0 : Memref sig .tc .vmem S32x128x1024 .f32)) (r := (Rect.unit (s := S32x128x1024) ![k.val, 0, 0] S1x128x1024.size (inb3 k)).toLoadRect) (hl := hl) (k := kont)
      (S := (vrSl k).view.set) (q := fullShare) (f := vrC m c k) (load_sub_vr k)) $$ Hvr
  iintro Hvr
  iapply Hk
  iframe

theorem step_load_vx {K : Dev nD × SemLoc sig → ℕ} {c : Dev nD} {k : Fin 32}
    {hl : (Memref.whole cc0_scratch1 : Memref sig .tc .vmem S32x128x1024 .f32).view.LoadsAt (Rect.unit (s := S32x128x1024) ![k.val, 0, 0] S1x128x1024.size (inb3 k)).toLoadRect}
    {α : Type} {Q : α → sProp 𝕄}
    {kont : ((Rect.unit (s := S32x128x1024) ![k.val, 0, 0] S1x128x1024.size (inb3 k)).toLoadRect.shape.Idx → Elt F .f32) → Prog (TpuEff nD τ sig (Elt F) Λ₀ .tc) α} :
    chunkInv m K c k
      ⊢ iprop(chunkSt m c k 4 -∗ (chunkSt m c k 4 -∗ wp frame (wpE (defs₀ (F := F)) 𝒱₀ (c : Thread nD τ) none) Set.univ
              (kont ((Memref.whole cc0_scratch1 : Memref sig .tc .vmem S32x128x1024 .f32).view.readAt (Elt F) (Rect.unit (s := S32x128x1024) ![k.val, 0, 0] S1x128x1024.size (inb3 k)).toLoadRect (vxC m c k))) Q)
          -∗ wp frame (wpE (defs₀ (F := F)) 𝒱₀ (c : Thread nD τ) none) Set.univ
              (.op (.load (Memref.whole cc0_scratch1 : Memref sig .tc .vmem S32x128x1024 .f32) (Rect.unit (s := S32x128x1024) ![k.val, 0, 0] S1x128x1024.size (inb3 k)).toLoadRect hl) kont) Q) := by
  simp only [chunkSt]
  unfold aVxR
  iintro #HI ⟨Harg, HvxR, Hrest⟩ Hk
  iapply (wp_load 𝒱₀ (c : Thread nD τ) none Set.univ (m := (Memref.whole cc0_scratch1 : Memref sig .tc .vmem S32x128x1024 .f32)) (r := (Rect.unit (s := S32x128x1024) ![k.val, 0, 0] S1x128x1024.size (inb3 k)).toLoadRect) (hl := hl) (k := kont)
      (S := (vxSl k).view.set) (q := fullShare.right) (f := vxC m c k) (load_sub_vx k)) $$ HvxR
  iintro HvxR
  iapply Hk
  iframe

theorem step_store {K : Dev nD × SemLoc sig → ℕ} {c : Dev nD} {k : Fin 32}
    (w : (Rect.unit (s := S32x128x1024) ![k.val, 0, 0] S1x128x1024.size (inb3 k)).shape.Idx → Elt F .f32)
    (hw : w = shapeCast S1x128x1024
      (addf
        (shapeCast S128x1024 ((Memref.whole cc0_scratch0 : Memref sig .tc .vmem S32x128x1024 .f32).view.readAt (Elt F) (Rect.unit (s := S32x128x1024) ![k.val, 0, 0] S1x128x1024.size (inb3 k)).toLoadRect (vrC m c k)) shapeCasts_S1x128x1024_S128x1024)
        (shapeCast S128x1024 ((Memref.whole cc0_scratch1 : Memref sig .tc .vmem S32x128x1024 .f32).view.readAt (Elt F) (Rect.unit (s := S32x128x1024) ![k.val, 0, 0] S1x128x1024.size (inb3 k)).toLoadRect (vxC m c k)) shapeCasts_S1x128x1024_S128x1024))
      shapeCasts_S128x1024_S1x128x1024)
    {hx : ((Memref.whole cc0_scratch0 : Memref sig .tc .vmem S32x128x1024 .f32).access (Rect.unit (s := S32x128x1024) ![k.val, 0, 0] S1x128x1024.size (inb3 k))).Stores Finset.univ}
    {hm : (Finset.univ : Finset (Rect.unit (s := S32x128x1024) ![k.val, 0, 0] S1x128x1024.size (inb3 k)).shape.Idx) = Finset.univ ∨ ∀ a, (Rect.unit (s := S32x128x1024) ![k.val, 0, 0] S1x128x1024.size (inb3 k)).stride a = 1}
    {α : Type} {Q : α → sProp 𝕄} {kont : PUnit → Prog (TpuEff nD τ sig (Elt F) Λ₀ .tc) α} :
    chunkInv m K c k
      ⊢ iprop(chunkSt m c k 4 -∗ (chunkSt m c k 5 -∗ wp frame (wpE (defs₀ (F := F)) 𝒱₀ (c : Thread nD τ) none) Set.univ (kont ⟨⟩) Q)
          -∗ wp frame (wpE (defs₀ (F := F)) 𝒱₀ (c : Thread nD τ) none) Set.univ
              (.op (.store (Memref.whole cc0_scratch0 : Memref sig .tc .vmem S32x128x1024 .f32) (Rect.unit (s := S32x128x1024) ![k.val, 0, 0] S1x128x1024.size (inb3 k)) w Finset.univ hx hm) kont) Q) := by
  simp only [chunkSt]
  unfold aVrIn aVrSum
  iintro #HI ⟨Harg, HvxR, Hvr, Hrest⟩ Hk
  iapply (wp_store 𝒱₀ (c : Thread nD τ) none Set.univ (m := (Memref.whole cc0_scratch0 : Memref sig .tc .vmem S32x128x1024 .f32)) (r := (Rect.unit (s := S32x128x1024) ![k.val, 0, 0] S1x128x1024.size (inb3 k))) (w := w) (Mk := Finset.univ) (hx := hx) (hm := hm) (k := kont)
      (S := (vrSl k).view.set) (f := vrC m c k) (store_sub_vr k)) $$ Hvr
  iintro Hvr
  iapply Hk
  subst hw
  ihave Hs := (Entails.of_eq (after_add m c k (vrC m c k) (vxC m c k) (fun _ _ => rfl) (fun _ _ => rfl))) $$ Hvr
  iframe

theorem step_xsend {K : Dev nD × SemLoc sig → ℕ} {c : Dev nD} {k : Fin 32} {W : Waits sig Unit} {n : Dev nD} (hn : n = xp c)
    {hsc : (vrSl k : Memref sig (Dev.tc n : Thread nD τ).2.kind .vmem S128x1024 .f32).view.ref.isScScratch = false}
    {hsrc : (vxSl k).view.WordExact} {hdst : (vrSl k).view.WordExact}
    {hsem : DmaTarget.Typed (nD := nD) .vmem (.dma (xrSem k))
      (DmaTarget.remote (p := (.tc : Proc τ)) (Dev.tc n : Thread nD τ) (vrSl k) (.dma (xsSem k)) hsc)}
    {α : Type} {Q : α → sProp 𝕄} {kont : PUnit → Prog (TpuEff nD τ sig (Elt F) Λ₀ .tc) α} :
    chunkInv m K c k
      ⊢ iprop(chunkSt m c k 2 -∗ owes (c : Thread nD τ) (OY c 0 + OX c k.val) W -∗ ((chunkSt m c k 3 ∗ owes (c : Thread nD τ) (OY c 0 + OX c (k.val + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (vxSl k) (.remote (Dev.tc n : Thread nD τ) (vrSl k) (.dma (xsSem k)) hsc) (.dma (xrSem k))
                hsrc hdst hsem) kont) Q) := by
  subst hn
  unfold chunkInv
  simp only [chunkSt]
  unfold aVx aVxR aVrPeer tXs tXr
  iintro ⟨#Ixs, -, -, -, -, -, #Ixrp, -, #Rxs, -, -, -, -, -, #Rxrp, -⟩ ⟨Harg, Hvx, ⟨%fp, Hvrp⟩, Hop, Hoo, Txs, Txr, Tys, Tyr, Tst, Hpos, Cxr, Cyr⟩ HO Hk
  icases (pointsTo_share (PosShare.mem_left_op_right fullShare)).1 $$ Hvx with ⟨HvxL, HvxR⟩
  iapply (Rounds.wp_send_pointsTo 𝒱₀ ER (Rd m) (c : Thread nD τ) none (c' := (xp c : Thread nD τ))
      (κ₁ := K (c, .dma (xsSem k))) (κ₂ := K (xp c, .dma (xrSem k)))
      (r₁ := 0) (r₂ := 0) (d₁ := false) (d₂ := false) (q := fullShare.left) (fs := vxC m c k) (fd := fp)
      (by rw [duties_dma]; exact Finset.mem_singleton_self _) (by rw [duties_dma]; exact Finset.mem_singleton_self _)
      () () N (amt_vr k _) (amount_dma m c (xsSem k) false) (amount_dma m (xp c) (xrSem k) false)
      (O₀ := OY c 0 + OX c k.val) (OY c 0 + OX c (k.val + 1)) (by rw [OX_step c k, add_assoc]) (W := W)
      (pay_xsend_src m c k) (pay_xsend_dst m c k fp)) $$ [HvxL Hvrp HO Txs Txr]
  · isplitr; · iexact Ixs
    isplitr; · iexact Ixrp
    isplitl [HvxL]; · iexact HvxL
    isplitl [Hvrp]; · iexact Hvrp
    isplitl [HO]; · iexact HO
    isplitl [Txs]; · iexact Txs
    isplitr; · iexact Rxs
    isplitl [Txr]; · iexact Txr
    iexact Rxrp
  iintro ⟨Hc, HO⟩
  iapply Hk
  unfold crXs
  iframe

theorem step_ysend {K : Dev nD × SemLoc sig → ℕ} {c : Dev nD} {k : Fin 32} {W : Waits sig Unit} {n : Dev nD} (hn : n = yp c)
    {hsc : (oSl c k : Memref sig (Dev.tc n : Thread nD τ).2.kind .hbm S128x1024 .f32).view.ref.isScScratch = false}
    {hsrc : (vrSl k).view.WordExact} {hdst : (oSl c k).view.WordExact}
    {hsem : DmaTarget.Typed (nD := nD) .vmem (.dma (yrSem k))
      (DmaTarget.remote (p := (.tc : Proc τ)) (Dev.tc n : Thread nD τ) (oSl c k) (.dma (ysSem k)) hsc)}
    {α : Type} {Q : α → sProp 𝕄} {kont : PUnit → Prog (TpuEff nD τ sig (Elt F) Λ₀ .tc) α} :
    chunkInv m K c k
      ⊢ iprop(chunkSt m c k 5 -∗ owes (c : Thread nD τ) (OY c k.val) W -∗ ((chunkSt m c k 6 ∗ owes (c : Thread nD τ) (OY c (k.val + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (vrSl k) (.remote (Dev.tc n : Thread nD τ) (oSl c k) (.dma (ysSem k)) hsc) (.dma (yrSem k))
                hsrc hdst hsem) kont) Q) := by
  subst hn
  unfold chunkInv
  simp only [chunkSt]
  unfold aVrSum aVrSumR aOPeer tYs tYr
  iintro ⟨-, -, #Iys, -, -, -, -, #Iyrp, -, -, #Rys, -, -, -, -, #Ryrp⟩ ⟨Harg, HvxR, Hsum, ⟨%fp, Hop⟩, Hoo, Tys, Tyr, Tst, Hpos, Cyr, Cxs⟩ HO Hk
  icases (pointsTo_share (PosShare.mem_left_op_right fullShare)).1 $$ Hsum with ⟨HsumL, HsumR⟩
  iapply (Rounds.wp_send_pointsTo 𝒱₀ ER (Rd m) (c : Thread nD τ) none (c' := (yp c : Thread nD τ))
      (κ₁ := K (c, .dma (ysSem k))) (κ₂ := K (yp c, .dma (yrSem k)))
      (r₁ := 0) (r₂ := 0) (d₁ := false) (d₂ := false) (q := fullShare.left) (fs := vsC m c k) (fd := fp)
      (by rw [duties_dma]; exact Finset.mem_singleton_self _) (by rw [duties_dma]; exact Finset.mem_singleton_self _)
      () () N (amt_o c k _) (amount_dma m c (ysSem k) false) (amount_dma m (yp c) (yrSem k) false)
      (O₀ := OY c k.val) (OY c (k.val + 1)) (OY_step c k) (W := W)
      (pay_ysend_src m c k) (pay_ysend_dst m c k fp)) $$ [HsumL Hop HO Tys Tyr]
  · isplitr; · iexact Iys
    isplitr; · iexact Iyrp
    isplitl [HsumL]; · iexact HsumL
    isplitl [Hop]; · iexact Hop
    isplitl [HO]; · iexact HO
    isplitl [Tys]; · iexact Tys
    isplitr; · iexact Rys
    isplitl [Tyr]; · iexact Tyr
    iexact Ryrp
  iintro ⟨Hc, HO⟩
  iapply Hk
  unfold crYs
  iframe

end Cert.KernelIdeal.AR

end
-- ==== Proof.KI.StepsB.lean ====
/- The six waits of a chunk, and the closing of its cells once all six are behind it. -/
import proofs.«900708_g7700000000000709_dist_ar_v7x_xyz2x2x4_x_m8192_n1024_f32_1_alg».proof.Proof.KI.Bundle
import proofs.«900708_g7700000000000709_dist_ar_v7x_xyz2x2x4_x_m8192_n1024_f32_1_alg».proof.Proof.KI.Pays
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "𝒱₀" => Variants.none

theorem credit_vx (k : Fin 32) : (vxSl k).view.dmaCredit = N := rfl
theorem credit_vr (k : Fin 32) : (vrSl k).view.dmaCredit = N := rfl
theorem credit_o (c : Dev nD) (k : Fin 32) : (oSl c k).view.dmaCredit = N := rfl

section Waits
variable {K : Dev nD × SemLoc sig → ℕ} {c : Dev nD} {k : Fin 32} {W : Waits sig Unit}

theorem wait_own {s : DmaSem sig} {O : CellTallies nD τ sig Unit} {sp sp' : Space} {src : Memref sig .tc sp' S128x1024 .f32} {dst : Memref sig .tc sp S128x1024 .f32}
    (hN : dst.view.dmaCredit = N) {hs : src.view.WordExact} {hd : dst.view.WordExact} {α : Type} {Q : α → sProp 𝕄} {kont : PUnit → Prog (TpuEff nD τ sig (Elt F) Λ₀ .tc) α} :
    cellInv ER (Rd m) (K (c, .dma s)) ((c : Thread nD τ), .dma s)
      ⊢ iprop(cred (tallyAt ((c : Thread nD τ), .dma s) () N) -∗ owes (c : Thread nD τ) O W -∗ MayWait (c : Thread nD τ) (.dma s) () O -∗ atPos ER ((c : Thread nD τ), .dma s) 0 ∅ 0
          -∗ ((owes (c : Thread nD τ) O (insert (SemLoc.dma s, ()) W) ∗ atPos ER ((c : Thread nD τ), .dma s) 1 ∅ 0 ∗ dmaPay m c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 s src dst hs hd) kont) Q) := by
  iintro #I C HO HM P Hk
  iapply (Rounds.wp_wait_rest_token 𝒱₀ ER (Rd m) (c : Thread nD τ) none (κ := K (c, .dma s))
      (wpE_waitDma2_eq 𝒱₀ (c : Thread nD τ) none Set.univ) (Set.mem_univ _) () (O := O) (W := W)
      (R := 0) (m := 0) (T := ∅) (by rw [expect_dma, zero_add, hN])) $$ [C HO HM P]
  · isplitr; · iexact I
    isplitl [C]; · iexact C
    isplitl [HO]; · iexact HO
    isplitl [HM]; · iexact HM
    iexact P
  iintro ⟨HO, P, -, Hpay⟩
  ihave Hp := (Entails.of_eq (rest_dma m c s)) $$ Hpay
  iapply Hk
  iframe

theorem step_fetch_wait {hs : (xSl c k).view.WordExact} {hd : (vxSl k).view.WordExact} {α : Type} {Q : α → sProp 𝕄} {kont : PUnit → Prog (TpuEff nD τ sig (Elt F) Λ₀ .tc) α} :
    chunkInv m K c k
      ⊢ iprop(levAts L lv -∗ chunkSt m c k 1 -∗ owes (c : Thread nD τ) (OY c 0 + OX c k.val) W -∗ ((chunkSt m c k 2 ∗ owes (c : Thread nD τ) (OY c 0 + OX c k.val) (insert (SemLoc.dma (ldSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (ldSem k) (xSl c k) (vxSl k) hs hd) kont) Q) := by
  unfold chunkInv
  simp only [chunkSt]
  unfold aPos crLd aArg aVx
  iintro ⟨#Ixs, #Ixr, #Iys, #Iyr, #Ild, #Ist, #IxrP, #IyrP, #Rxs, #Rxr, #Rys, #Ryr, #Rld, #Rst, #RxrP, #RyrP⟩ #Hlev ⟨HvrP, HoP, HoO, TXs, TXr, TYs, TYr, TSt, ⟨Pld, Pxs, Pxr, Pys, Pyr, Pst⟩, CXr, CYr, CLd⟩ HO Hk
  iapply (wait_own m (credit_vx k)) $$ Ild CLd HO [] Pld
  · iapply (mayWait_own c (ldSem k) (by rw [fam_ld]; decide) (by rw [fam_ld]; decide) 0 k.val); iexact Hlev
  iintro ⟨HO, Pld, Hpay⟩
  ihave Hp := (Entails.of_eq (dmaPay_ld m c k)) $$ Hpay
  icases Hp with ⟨Hvx, Harg⟩
  iapply Hk
  iframe

theorem step_xr_wait {hs : (vxSl k).view.WordExact} {hd : (vrSl k).view.WordExact} {α : Type} {Q : α → sProp 𝕄} {kont : PUnit → Prog (TpuEff nD τ sig (Elt F) Λ₀ .tc) α} :
    chunkInv m K c k
      ⊢ iprop(levAts L lv -∗ chunkSt m c k 3 -∗ owes (c : Thread nD τ) (OY c k.val) W -∗ ((chunkSt m c k 4 ∗ owes (c : Thread nD τ) (OY c k.val) (insert (SemLoc.dma (xrSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (xrSem k) (vxSl k) (vrSl k) hs hd) kont) Q) := by
  unfold chunkInv
  simp only [chunkSt]
  unfold aPos crXr aVrIn
  iintro ⟨#Ixs, #Ixr, #Iys, #Iyr, #Ild, #Ist, #IxrP, #IyrP, #Rxs, #Rxr, #Rys, #Ryr, #Rld, #Rst, #RxrP, #RyrP⟩ #Hlev ⟨Harg, HvxR, HoP, HoO, TYs, TYr, TSt, ⟨Pld, Pxs, Pxr, Pys, Pyr, Pst⟩, CXr, CYr, CXs⟩ HO Hk
  iapply (wait_own m (credit_vr k)) $$ Ixr CXr HO [] Pxr
  · iapply (mayWait_xr c k k.val); iexact Hlev
  iintro ⟨HO, Pxr, Hpay⟩
  ihave Hvr := (Entails.of_eq (dmaPay_xr m c k)) $$ Hpay
  iapply Hk
  iframe

theorem step_xs_wait {hs : (vrSl k).view.WordExact} {hd : (vxSl k).view.WordExact} {α : Type} {Q : α → sProp 𝕄} {kont : PUnit → Prog (TpuEff nD τ sig (Elt F) Λ₀ .tc) α} :
    chunkInv m K c k
      ⊢ iprop(chunkSt m c k 7 -∗ owes (c : Thread nD τ) 0 W -∗ ((chunkSt m c k 8 ∗ owes (c : Thread nD τ) 0 (insert (SemLoc.dma (xsSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (xsSem k) (vrSl k) (vxSl k) hs hd) kont) Q) := by
  unfold chunkInv
  simp only [chunkSt]
  unfold aPos crXs aVxR aVx
  iintro ⟨#Ixs, #Ixr, #Iys, #Iyr, #Ild, #Ist, #IxrP, #IyrP, #Rxs, #Rxr, #Rys, #Ryr, #Rld, #Rst, #RxrP, #RyrP⟩ ⟨Harg, HvxR, ⟨Pld, Pxs, Pxr, Pys, Pyr, Pst⟩, CYr, CXs, CYs, CSt⟩ HO Hk
  iapply (wait_own m (credit_vx k)) $$ Ixs CXs HO [] Pxs
  · rw [MayWait_zero]; iempintro
  iintro ⟨HO, Pxs, Hpay⟩
  ihave HvxL := (Entails.of_eq (dmaPay_xs m c k)) $$ Hpay
  ihave Hvx := (pointsTo_share (PosShare.mem_left_op_right fullShare)).2 $$ [HvxL HvxR]
  · isplitl [HvxL]; · iexact HvxL
    iexact HvxR
  iapply Hk
  iframe

theorem step_ys_wait {hs : (oSl c k).view.WordExact} {hd : (vrSl k).view.WordExact} {α : Type} {Q : α → sProp 𝕄} {kont : PUnit → Prog (TpuEff nD τ sig (Elt F) Λ₀ .tc) α} :
    chunkInv m K c k
      ⊢ iprop(chunkSt m c k 8 -∗ owes (c : Thread nD τ) 0 W -∗ ((chunkSt m c k 9 ∗ owes (c : Thread nD τ) 0 (insert (SemLoc.dma (ysSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (ysSem k) (oSl c k) (vrSl k) hs hd) kont) Q) := by
  unfold chunkInv
  simp only [chunkSt]
  unfold aPos crYs aVrSumL
  iintro ⟨#Ixs, #Ixr, #Iys, #Iyr, #Ild, #Ist, #IxrP, #IyrP, #Rxs, #Rxr, #Rys, #Ryr, #Rld, #Rst, #RxrP, #RyrP⟩ ⟨Harg, Hvx, ⟨Pld, Pxs, Pxr, Pys, Pyr, Pst⟩, CYr, CYs, CSt⟩ HO Hk
  iapply (wait_own m (credit_vr k)) $$ Iys CYs HO [] Pys
  · rw [MayWait_zero]; iempintro
  iintro ⟨HO, Pys, Hpay⟩
  ihave HvsL := (Entails.of_eq (dmaPay_ys m c k)) $$ Hpay
  iapply Hk
  iframe

theorem step_yr_wait {hs : (vrSl k).view.WordExact} {hd : (oSl c k).view.WordExact} {α : Type} {Q : α → sProp 𝕄} {kont : PUnit → Prog (TpuEff nD τ sig (Elt F) Λ₀ .tc) α} :
    chunkInv m K c k
      ⊢ iprop(chunkSt m c k 9 -∗ owes (c : Thread nD τ) 0 W -∗ ((chunkSt m c k 10 ∗ owes (c : Thread nD τ) 0 (insert (SemLoc.dma (yrSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (yrSem k) (vrSl k) (oSl c k) hs hd) kont) Q) := by
  unfold chunkInv
  simp only [chunkSt]
  unfold aPos crYr aOOther
  iintro ⟨#Ixs, #Ixr, #Iys, #Iyr, #Ild, #Ist, #IxrP, #IyrP, #Rxs, #Rxr, #Rys, #Ryr, #Rld, #Rst, #RxrP, #RyrP⟩ ⟨Harg, Hvx, HvsL, ⟨Pld, Pxs, Pxr, Pys, Pyr, Pst⟩, CYr, CSt⟩ HO Hk
  iapply (wait_own m (credit_o c k)) $$ Iyr CYr HO [] Pyr
  · rw [MayWait_zero]; iempintro
  iintro ⟨HO, Pyr, Hpay⟩
  ihave HoOth := (Entails.of_eq (dmaPay_yr m c k)) $$ Hpay
  iapply Hk
  iframe

theorem step_st_wait {hs : (vrSl k).view.WordExact} {hd : (oSl c k).view.WordExact} {α : Type} {Q : α → sProp 𝕄} {kont : PUnit → Prog (TpuEff nD τ sig (Elt F) Λ₀ .tc) α} :
    chunkInv m K c k
      ⊢ iprop(chunkSt m c k 10 -∗ owes (c : Thread nD τ) 0 W -∗ ((chunkSt m c k 11 ∗ owes (c : Thread nD τ) 0 (insert (SemLoc.dma (stSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (stSem k) (vrSl k) (oSl c k) hs hd) kont) Q) := by
  unfold chunkInv
  simp only [chunkSt]
  unfold aPos crSt aVrSumL aVrSum aOOwn
  iintro ⟨#Ixs, #Ixr, #Iys, #Iyr, #Ild, #Ist, #IxrP, #IyrP, #Rxs, #Rxr, #Rys, #Ryr, #Rld, #Rst, #RxrP, #RyrP⟩ ⟨Harg, Hvx, HvsL, HoOth, ⟨Pld, Pxs, Pxr, Pys, Pyr, Pst⟩, CSt⟩ HO Hk
  iapply (wait_own m (credit_o c k)) $$ Ist CSt HO [] Pst
  · rw [MayWait_zero]; iempintro
  iintro ⟨HO, Pst, Hpay⟩
  ihave Hp := (Entails.of_eq (dmaPay_st m c k)) $$ Hpay
  icases Hp with ⟨HoOwn, HvsR⟩
  ihave Hvs := (pointsTo_share (PosShare.mem_left_op_right fullShare)).2 $$ [HvsL HvsR]
  · isplitl [HvsL]; · iexact HvsL
    iexact HvsR
  iapply Hk
  iframe

end Waits

theorem close_own {K : Dev nD × SemLoc sig → ℕ} {c : Dev nD} {s : DmaSem sig} :
    cellInv ER (Rd m) (K (c, .dma s)) ((c : Thread nD τ), .dma s)
      ⊢ iprop(atPos ER ((c : Thread nD τ), .dma s) 1 ∅ 0 -∗ |={Set.univ}=> semVal ((c : Thread nD τ), .dma s) 0) := by
  iintro #I P
  iapply (Rounds.cell_close ER (Rd m) (κ := K (c, .dma s)) (Set.mem_univ _) (fun h => h) (R := 1) (duties_later m ((c : Thread nD τ), .dma s)))
  isplitr; · iexact I
  iexact P

theorem chunk_close (K : Dev nD × SemLoc sig → ℕ) (c : Dev nD) (k : Fin 32) :
    iprop(chunkInv m K c k ∗ chunkSt m c k 11)
      ⊢ iprop(|={Set.univ}=> (aArg m c k ∗ aVx m c k ∗ aVrSum m c k ∗ aOOther m c k ∗ aOOwn m c k
          ∗ semVal (xsCell c k) 0 ∗ semVal (xrCell c k) 0 ∗ semVal (ysCell c k) 0 ∗ semVal (yrCell c k) 0
          ∗ semVal (ldCell c k) 0 ∗ semVal (stCell c k) 0)) := by
  unfold chunkInv
  simp only [chunkSt]
  unfold aPos
  iintro ⟨⟨#Ixs, #Ixr, #Iys, #Iyr, #Ild, #Ist, #IxrP, #IyrP, #Rxs, #Rxr, #Rys, #Ryr, #Rld, #Rst, #RxrP, #RyrP⟩,
    Harg, Hvx, Hvs, HoOth, HoOwn, Pld, Pxs, Pxr, Pys, Pyr, Pst⟩
  imod (close_own m) $$ Ixs Pxs with Sxs
  imod (close_own m) $$ Ixr Pxr with Sxr
  imod (close_own m) $$ Iys Pys with Sys
  imod (close_own m) $$ Iyr Pyr with Syr
  imod (close_own m) $$ Ild Pld with Sld
  imod (close_own m) $$ Ist Pst with Sst
  imodintro
  iframe

end Cert.KernelIdeal.AR

end
-- ==== Proof.KI.Fold.lean ====
/- What a device hands each neighbour at the entry handshake, spelt as that neighbour's barrier payload. -/
import proofs.«900708_g7700000000000709_dist_ar_v7x_xyz2x2x4_x_m8192_n1024_f32_1_alg».proof.Proof.KI.Bundle

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem barPayX_of_eq (o d : Dev nD) (h : xp o = d) : (barPayX (F := F) o : sProp 𝕄)
    = bigSep Finset.univ fun k : Fin 32 => iprop((∃ f, ((vrSl k).view.loc (d : Thread nD τ) ↦[(vrSl k).view.set]{fullShare} f)) ∗ reached ER (xrCell d k) 0) := by
  subst h; rfl
theorem barPayY_of_eq (o d : Dev nD) (h : yp o = d) : (barPayY (F := F) o : sProp 𝕄)
    = bigSep Finset.univ fun k : Fin 32 => iprop((∃ f, ((oSl o k).view.loc (d : Thread nD τ) ↦[(oSl o k).view.set]{fullShare} f)) ∗ reached ER (yrCell d k) 0) := by
  subst h; rfl

theorem reach_elim (c : Dev nD) (sm : SemLoc sig) :
    (bigSep Finset.univ fun sm : SemLoc sig => (reached ER (kcell (c, sm)) 0 : sProp 𝕄)) ⊢ reached ER (kcell (c, sm)) 0 :=
  bigSep_elim (Finset.mem_univ sm)
theorem reach_own (c : Dev nD) (sm : SemLoc sig) : (reaches (F := F) c : sProp 𝕄) ⊢ reached ER (kcell (c, sm)) 0 := by
  unfold reaches
  iintro ⟨H, -⟩
  iapply (reach_elim c sm)
  iexact H

theorem fold_payX (c : Dev nD) (f0 : Buf (Elt F) ((c : Thread nD τ).loc cc0_scratch0)) :
    iprop(reaches c ∗ bigSep Finset.univ fun k : Fin 32 => ((vrSl k).view.loc (c : Thread nD τ) ↦[(vrSl k).view.set]{fullShare} f0))
      ⊢ (barPayX (xp c) : sProp 𝕄) := by
  rw [barPayX_of_eq (xp c) c (xp_xp c)]
  exact bigSep_with fun k _ => by
    iintro ⟨#Hr, H⟩
    isplitl [H]
    · iexists f0; iexact H
    · iapply (reach_own c (.dma (xrSem k))); iexact Hr

theorem fold_payY (c : Dev nD) (fo : Buf (Elt F) ((c : Thread nD τ).loc main_v1)) :
    iprop(reaches c ∗ bigSep Finset.univ fun k : Fin 32 => ((oSl (yp c) k).view.loc (c : Thread nD τ) ↦[(oSl (yp c) k).view.set]{fullShare} fo))
      ⊢ (barPayY (yp c) : sProp 𝕄) := by
  rw [barPayY_of_eq (yp c) c (yp_yp c)]
  exact bigSep_with fun k _ => by
    iintro ⟨#Hr, H⟩
    isplitl [H]
    · iexists fo; iexact H
    · iapply (reach_own c (.dma (yrSem k))); iexact Hr

end Cert.KernelIdeal.AR

end
-- ==== Proof.KI.Pieces.lean ====
/- A buffer held whole is the separating product of its chunk pieces, and back. -/
import proofs.«900708_g7700000000000709_dist_ar_v7x_xyz2x2x4_x_m8192_n1024_f32_1_alg».proof.Proof.KI.Cells
import Idealize.ShloMosaic.Rules.PointsTo

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

private theorem mem_plane (k : Fin 32) (i : S32x128x1024.Idx) :
    i ∈ (Rect.unit (s := S32x128x1024) ![k.val, 0, 0] S1x128x1024.size (inb3 k)).set ↔ (i 0).val = k.val := by
  rw [Rect.mem_set_unit]
  constructor
  · intro h
    have h0 := h 0
    have e1 : (![k.val, 0, 0] : Fin 3 → Nat) 0 = k.val := rfl
    have e2 : S1x128x1024.size 0 = 1 := rfl
    rw [e1, e2] at h0
    omega
  · intro h a
    match a with
    | ⟨0, _⟩ => show k.val ≤ (i 0).val ∧ (i 0).val < k.val + 1; omega
    | ⟨1, _⟩ => have := (i 1).isLt; show 0 ≤ (i 1).val ∧ (i 1).val < 0 + 128; exact ⟨Nat.zero_le _, by simpa using this⟩
    | ⟨2, _⟩ => have := (i 2).isLt; show 0 ≤ (i 2).val ∧ (i 2).val < 0 + 1024; exact ⟨Nat.zero_le _, by simpa using this⟩

private theorem mem_rows (d : Dev nD) (k : Fin 32) (i : S8192x1024.Idx) :
    i ∈ (Rect.unit (s := S8192x1024) (k0_off1 d (BitVec.ofNat 32 (128 * k.val))) S128x1024.size (k0_off1_inb d k)).set
      ↔ 4096 * half d + 128 * k.val ≤ (i 0).val ∧ (i 0).val < 4096 * half d + 128 * k.val + 128 := by
  rw [Rect.mem_set_unit, k0_off1_eq]
  constructor
  · intro h
    have h0 := h 0
    have e1 : (![4096 * ((d.val / 4) % 2) + 128 * k.val, 0] : Fin 2 → Nat) 0 = 4096 * half d + 128 * k.val := rfl
    have e2 : S128x1024.size 0 = 128 := rfl
    rw [e1, e2] at h0
    exact h0
  · intro h a
    match a with
    | ⟨0, _⟩ => show 4096 * half d + 128 * k.val ≤ (i 0).val ∧ (i 0).val < 4096 * half d + 128 * k.val + 128; exact h
    | ⟨1, _⟩ => have := (i 1).isLt; show 0 ≤ (i 1).val ∧ (i 1).val < 0 + 1024; exact ⟨Nat.zero_le _, by simpa using this⟩

private theorem vrSl_set (k : Fin 32) :
    (vrSl k).view.set = (Rect.unit (s := S32x128x1024) ![k.val, 0, 0] S1x128x1024.size (inb3 k)).set := by
  simp only [Memref.view_squeeze, Memref.view_slice, Memref.view_whole, View.set_reshape, View.set_slice_whole]
private theorem vxSl_set (k : Fin 32) :
    (vxSl k).view.set = (Rect.unit (s := S32x128x1024) ![k.val, 0, 0] S1x128x1024.size (inb3 k)).set := by
  simp only [Memref.view_squeeze, Memref.view_slice, Memref.view_whole, View.set_reshape, View.set_slice_whole]
private theorem xSl_set (d : Dev nD) (k : Fin 32) :
    (xSl d k).view.set = (Rect.unit (s := S8192x1024) (k0_off1 d (BitVec.ofNat 32 (128 * k.val))) S128x1024.size (k0_off1_inb d k)).set := by
  simp only [Memref.view_slice, Memref.view_whole, View.set_slice_whole]
private theorem oSl_set (d : Dev nD) (k : Fin 32) :
    (oSl d k).view.set = (Rect.unit (s := S8192x1024) (k0_off1 d (BitVec.ofNat 32 (128 * k.val))) S128x1024.size (k0_off1_inb d k)).set := by
  simp only [Memref.view_slice, Memref.view_whole, View.set_slice_whole]

private theorem plane_disjoint (k k' : Fin 32) (h : k ≠ k') :
    Disjoint (Rect.unit (s := S32x128x1024) ![k.val, 0, 0] S1x128x1024.size (inb3 k)).set
      (Rect.unit (s := S32x128x1024) ![k'.val, 0, 0] S1x128x1024.size (inb3 k')).set := by
  rw [Finset.disjoint_left]
  intro i hi hi'
  rw [mem_plane] at hi hi'
  exact h (Fin.ext (hi.symm.trans hi'))

private theorem plane_cover :
    (Finset.univ.biUnion fun k : Fin 32 => (Rect.unit (s := S32x128x1024) ![k.val, 0, 0] S1x128x1024.size (inb3 k)).set)
      = Finset.univ := by
  ext i
  simp only [Finset.mem_biUnion, Finset.mem_univ, true_and, iff_true]
  have h0 : (i 0).val < 32 := (i 0).isLt
  exact ⟨⟨(i 0).val, h0⟩, (mem_plane _ i).mpr rfl⟩

private theorem rows_disjoint (d : Dev nD) (k k' : Fin 32) (h : k ≠ k') :
    Disjoint (Rect.unit (s := S8192x1024) (k0_off1 d (BitVec.ofNat 32 (128 * k.val))) S128x1024.size (k0_off1_inb d k)).set
      (Rect.unit (s := S8192x1024) (k0_off1 d (BitVec.ofNat 32 (128 * k'.val))) S128x1024.size (k0_off1_inb d k')).set := by
  rw [Finset.disjoint_left]
  intro i hi hi'
  rw [mem_rows] at hi hi'
  exact h (Fin.ext (by omega))

private theorem mem_rows_biUnion (d : Dev nD) (i : S8192x1024.Idx) :
    (i ∈ Finset.univ.biUnion fun k : Fin 32 => (Rect.unit (s := S8192x1024) (k0_off1 d (BitVec.ofNat 32 (128 * k.val))) S128x1024.size (k0_off1_inb d k)).set)
      ↔ (i 0).val / 4096 = half d := by
  have hd := half_lt d
  have h0 : (i 0).val < 8192 := (i 0).isLt
  rw [Finset.mem_biUnion]
  constructor
  · rintro ⟨k, -, hk⟩
    have hk' := (mem_rows d k i).mp hk
    have := k.isLt
    omega
  · intro h
    have hlt : ((i 0).val - 4096 * half d) / 128 < 32 := by omega
    refine ⟨⟨((i 0).val - 4096 * half d) / 128, hlt⟩, Finset.mem_univ _, (mem_rows d _ i).mpr ?_⟩
    show 4096 * half d + 128 * (((i 0).val - 4096 * half d) / 128) ≤ (i 0).val
      ∧ (i 0).val < 4096 * half d + 128 * (((i 0).val - 4096 * half d) / 128) + 128
    omega

private abbrev planeSet (k : Fin 32) : Finset S32x128x1024.Idx :=
  (Rect.unit (s := S32x128x1024) ![k.val, 0, 0] S1x128x1024.size (inb3 k)).set

private abbrev rowsSet (d : Dev nD) (k : Fin 32) : Finset S8192x1024.Idx :=
  (Rect.unit (s := S8192x1024) (k0_off1 d (BitVec.ofNat 32 (128 * k.val))) S128x1024.size (k0_off1_inb d k)).set

theorem scratch0_pieces (c : Dev nD) (f : Buf (Elt F) ((c : Thread nD τ).loc cc0_scratch0)) :
    (((c : Thread nD τ).loc cc0_scratch0) ↦{fullShare} f : sProp 𝕄)
      ⊣⊢ bigSep Finset.univ fun k : Fin 32 => ((vrSl k).view.loc (c : Thread nD τ) ↦[(vrSl k).view.set]{fullShare} f) := by
  have e : ∀ k : Fin 32, ((vrSl k).view.loc (c : Thread nD τ) ↦[(vrSl k).view.set]{fullShare} f : sProp 𝕄)
      = (((c : Thread nD τ).loc cc0_scratch0) ↦[planeSet k]{fullShare} f) :=
    fun k => congrArg (fun S => (((c : Thread nD τ).loc cc0_scratch0) ↦[S]{fullShare} f : sProp 𝕄)) (vrSl_set k)
  have h := pointsTo_biUnion (Ix := Unit) (Val := Elt F) (Name := ℕ) (U := UU) (Lvl := ℕ) (q := fullShare)
    (ℓ := (c : Thread nD τ).loc cc0_scratch0) (f := f) Finset.univ planeSet (fun k _ k' _ h => plane_disjoint k k' h)
  rw [plane_cover] at h
  rw [funext e]
  exact BiEntails.of_eq h

theorem scratch1_pieces (c : Dev nD) (f : Buf (Elt F) ((c : Thread nD τ).loc cc0_scratch1)) :
    (((c : Thread nD τ).loc cc0_scratch1) ↦{fullShare} f : sProp 𝕄)
      ⊣⊢ bigSep Finset.univ fun k : Fin 32 => ((vxSl k).view.loc (c : Thread nD τ) ↦[(vxSl k).view.set]{fullShare} f) := by
  have e : ∀ k : Fin 32, ((vxSl k).view.loc (c : Thread nD τ) ↦[(vxSl k).view.set]{fullShare} f : sProp 𝕄)
      = (((c : Thread nD τ).loc cc0_scratch1) ↦[planeSet k]{fullShare} f) :=
    fun k => congrArg (fun S => (((c : Thread nD τ).loc cc0_scratch1) ↦[S]{fullShare} f : sProp 𝕄)) (vxSl_set k)
  have h := pointsTo_biUnion (Ix := Unit) (Val := Elt F) (Name := ℕ) (U := UU) (Lvl := ℕ) (q := fullShare)
    (ℓ := (c : Thread nD τ).loc cc0_scratch1) (f := f) Finset.univ planeSet (fun k _ k' _ h => plane_disjoint k k' h)
  rw [plane_cover] at h
  rw [funext e]
  exact BiEntails.of_eq h

private theorem halves_disjoint (c : Dev nD) :
    Disjoint (Finset.univ.biUnion (rowsSet c)) (Finset.univ.biUnion (rowsSet (yp c))) := by
  rw [Finset.disjoint_left]
  intro i hi hi'
  rw [mem_rows_biUnion] at hi hi'
  rw [half_yp] at hi'
  have := half_lt c
  omega

private theorem halves_cover (c : Dev nD) :
    Finset.univ.biUnion (rowsSet c) ∪ Finset.univ.biUnion (rowsSet (yp c)) = Finset.univ := by
  ext i
  rw [Finset.mem_union, mem_rows_biUnion, mem_rows_biUnion, half_yp]
  have := half_lt c
  have h0 : (i 0).val < 8192 := (i 0).isLt
  simp only [Finset.mem_univ, iff_true]
  omega

theorem result_pieces (c : Dev nD) (f : Buf (Elt F) ((c : Thread nD τ).loc main_v1)) :
    (((c : Thread nD τ).loc main_v1) ↦{fullShare} f : sProp 𝕄)
      ⊣⊢ iprop((bigSep Finset.univ fun k : Fin 32 => ((oSl c k).view.loc (c : Thread nD τ) ↦[(oSl c k).view.set]{fullShare} f))
          ∗ (bigSep Finset.univ fun k : Fin 32 => ((oSl (yp c) k).view.loc (c : Thread nD τ) ↦[(oSl (yp c) k).view.set]{fullShare} f))) := by
  have e : ∀ (d : Dev nD) (k : Fin 32), ((oSl d k).view.loc (c : Thread nD τ) ↦[(oSl d k).view.set]{fullShare} f : sProp 𝕄)
      = (((c : Thread nD τ).loc main_v1) ↦[rowsSet d k]{fullShare} f) :=
    fun d k => congrArg (fun S => (((c : Thread nD τ).loc main_v1) ↦[S]{fullShare} f : sProp 𝕄)) (oSl_set d k)
  have h := fun d : Dev nD => pointsTo_biUnion (Ix := Unit) (Val := Elt F) (Name := ℕ) (U := UU) (Lvl := ℕ) (q := fullShare)
    (ℓ := (c : Thread nD τ).loc main_v1) (f := f) Finset.univ (rowsSet d) (fun k _ k' _ h => rows_disjoint d k k' h)
  have hU := pointsTo_union (Ix := Unit) (Val := Elt F) (Name := ℕ) (U := UU) (Lvl := ℕ) (q := fullShare)
    (ℓ := (c : Thread nD τ).loc main_v1) (f := f) (halves_disjoint c)
  rw [halves_cover, h c, h (yp c)] at hU
  rw [funext (e c), funext (e (yp c))]
  exact hU

theorem arg_pieces (c : Dev nD) (q : PosShare TreeShare) (f : Buf (Elt F) ((c : Thread nD τ).loc main_arg0)) :
    (((c : Thread nD τ).loc main_arg0) ↦{q} f : sProp 𝕄)
      ⊣⊢ iprop((bigSep Finset.univ fun k : Fin 32 => ((xSl c k).view.loc (c : Thread nD τ) ↦[(xSl c k).view.set]{q} f))
          ∗ (((c : Thread nD τ).loc main_arg0) ↦[Finset.univ \ (Finset.univ.biUnion fun k : Fin 32 => (xSl c k).view.set)]{q} f)) := by
  have e : ∀ k : Fin 32, ((xSl c k).view.loc (c : Thread nD τ) ↦[(xSl c k).view.set]{q} f : sProp 𝕄)
      = (((c : Thread nD τ).loc main_arg0) ↦[rowsSet c k]{q} f) :=
    fun k => congrArg (fun S => (((c : Thread nD τ).loc main_arg0) ↦[S]{q} f : sProp 𝕄)) (xSl_set c k)
  have h := pointsTo_biUnion (Ix := Unit) (Val := Elt F) (Name := ℕ) (U := UU) (Lvl := ℕ) (q := q)
    (ℓ := (c : Thread nD τ).loc main_arg0) (f := f) Finset.univ (rowsSet c) (fun k _ k' _ h => rows_disjoint c k k' h)
  have hS := pointsTo_split_subset (Ix := Unit) (Val := Elt F) (Name := ℕ) (U := UU) (Lvl := ℕ) (q := q)
    (ℓ := (c : Thread nD τ).loc main_arg0) (f := f) (Finset.subset_univ (Finset.univ.biUnion (rowsSet c)))
  rw [h] at hS
  rw [funext e, funext (xSl_set c)]
  exact hS

end Cert.KernelIdeal.AR

end
-- ==== Proof.KI.DevEqs.lean ====
/- The device a chain of the program names: the neighbour across the first axis (chains 1 and 3) or across the second (2 and 35). The chains of the later chunks unfold to the same terms as chains 3 and 35. -/
import proofs.«900708_g7700000000000709_dist_ar_v7x_xyz2x2x4_x_m8192_n1024_f32_1_alg».proof.Proof.KI.Base

namespace Cert.KernelIdeal.AR

open Cert.KernelIdeal Cert.KernelIdeal.Gen Idealize.ShloMosaic

theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem dev3_eq (c : Dev nD) : (⟨k0_dev3 c, k0_dev3_lt c⟩ : Dev nD) = xp c := Fin.ext (k0_dev3_eq c)
theorem dev35_eq (c : Dev nD) : (⟨k0_dev35 c, k0_dev35_lt c⟩ : Dev nD) = yp c := Fin.ext (k0_dev35_eq c)

end Cert.KernelIdeal.AR
-- ==== Proof.KI.Frame.lean ====
/- Regrouping: the launch's products over semaphores and pieces become one bundle per chunk, and the closed bundles become whole buffers again. -/
import proofs.«900708_g7700000000000709_dist_ar_v7x_xyz2x2x4_x_m8192_n1024_f32_1_alg».proof.Proof.KI.Bundle
import proofs.«900708_g7700000000000709_dist_ar_v7x_xyz2x2x4_x_m8192_n1024_f32_1_alg».proof.Proof.KI.Pieces

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def semEquiv : Fin 32 × Fin 6 ≃ DmaSem sig where
  toFun p := ⟨32 * p.2.val + p.1.val, by have h1 := p.1.isLt; have h2 := p.2.isLt; show 32 * p.2.val + p.1.val < 192; omega⟩
  invFun s := (⟨s.val % 32, Nat.mod_lt _ (by decide)⟩, ⟨s.val / 32, by have h : s.val < 192 := s.isLt; omega⟩)
  left_inv p := by
    obtain ⟨⟨k, hk⟩, ⟨a, ha⟩⟩ := p
    exact Prod.ext (Fin.ext (by show (32 * a + k) % 32 = k; omega)) (Fin.ext (by show (32 * a + k) / 32 = a; omega))
  right_inv s := Fin.ext (by show 32 * (s.val / 32) + s.val % 32 = s.val; omega)

theorem semEquiv_xs (k : Fin 32) : semEquiv (k, 0) = xsSem k := Fin.ext (by rw [xs_val]; show 32 * 0 + k.val = k.val; omega)
theorem semEquiv_xr (k : Fin 32) : semEquiv (k, 1) = xrSem k := Fin.ext (by rw [xr_val]; show 32 * 1 + k.val = 32 + k.val; omega)
theorem semEquiv_ys (k : Fin 32) : semEquiv (k, 2) = ysSem k := Fin.ext (by rw [ys_val]; show 32 * 2 + k.val = 64 + k.val; omega)
theorem semEquiv_yr (k : Fin 32) : semEquiv (k, 3) = yrSem k := Fin.ext (by rw [yr_val]; show 32 * 3 + k.val = 96 + k.val; omega)
theorem semEquiv_ld (k : Fin 32) : semEquiv (k, 4) = ldSem k := Fin.ext (by rw [ld_val]; show 32 * 4 + k.val = 128 + k.val; omega)
theorem semEquiv_st (k : Fin 32) : semEquiv (k, 5) = stSem k := Fin.ext (by rw [st_val]; show 32 * 5 + k.val = 160 + k.val; omega)

theorem dma_by_chunk_eq (Φ : DmaSem sig → sProp 𝕄) :
    bigSep (Finset.univ : Finset (DmaSem sig)) Φ = bigSep Finset.univ fun k : Fin 32 =>
      iprop(Φ (xsSem k) ∗ Φ (xrSem k) ∗ Φ (ysSem k) ∗ Φ (yrSem k) ∗ Φ (ldSem k) ∗ Φ (stSem k)) := by
  rw [bigSep_univ_equiv semEquiv Φ, bigSep_univ_prod]
  refine bigSep_congr fun k _ => ?_
  rw [bigSep_univ_eq_bigSepL [0, 1, 2, 3, 4, 5] (by decide) (by decide)]
  simp only [bigSepL_cons_cons, bigSepL_singleton]
  rw [semEquiv_xs, semEquiv_xr, semEquiv_ys, semEquiv_yr, semEquiv_ld, semEquiv_st]
  rfl

theorem semloc_split_eq (Ψ : SemLoc sig → sProp 𝕄) :
    bigSep (Finset.univ : Finset (SemLoc sig)) Ψ
      = iprop(Ψ (.reg barS) ∗ bigSep (Finset.univ : Finset (DmaSem sig)) fun s => Ψ (.dma s)) := by
  haveI : Subsingleton (Sem sig) := inferInstanceAs (Subsingleton (Fin 1))
  rw [bigSep_univ_equiv (SemLoc.equivSum sig).symm Ψ, bigSep_univ_sum, bigSep_univ_of_subsingleton barS]
  rfl

theorem chunkInv_of (K : Dev nD × SemLoc sig → ℕ) (c : Dev nD) (k : Fin 32) :
    iprop(invs m K c ∗ reaches c) ⊢ chunkInv m K c k := by
  have eI : ∀ sm : SemLoc sig, bigSep Finset.univ (fun sm : SemLoc sig => cellInv ER (Rd m) (K (c, sm)) (kcell (c, sm)))
      ⊢ (cellInv ER (Rd m) (K (c, sm)) (kcell (c, sm)) : sProp 𝕄) := fun sm => bigSep_elim (Finset.mem_univ sm)
  have eIX : bigSep Finset.univ (fun k : Fin 32 => cellInv ER (Rd m) (K (xp c, .dma (xrSem k))) (xrCell (xp c) k))
      ⊢ (cellInv ER (Rd m) (K (xp c, .dma (xrSem k))) (xrCell (xp c) k) : sProp 𝕄) := bigSep_elim (Finset.mem_univ k)
  have eIY : bigSep Finset.univ (fun k : Fin 32 => cellInv ER (Rd m) (K (yp c, .dma (yrSem k))) (yrCell (yp c) k))
      ⊢ (cellInv ER (Rd m) (K (yp c, .dma (yrSem k))) (yrCell (yp c) k) : sProp 𝕄) := bigSep_elim (Finset.mem_univ k)
  have eR : ∀ sm : SemLoc sig, bigSep Finset.univ (fun sm : SemLoc sig => reached ER (kcell (c, sm)) 0)
      ⊢ (reached ER (kcell (c, sm)) 0 : sProp 𝕄) := fun sm => bigSep_elim (Finset.mem_univ sm)
  have eRX : bigSep Finset.univ (fun k : Fin 32 => reached ER (xrCell (xp c) k) 0)
      ⊢ (reached ER (xrCell (xp c) k) 0 : sProp 𝕄) := bigSep_elim (Finset.mem_univ k)
  have eRY : bigSep Finset.univ (fun k : Fin 32 => reached ER (yrCell (yp c) k) 0)
      ⊢ (reached ER (yrCell (yp c) k) 0 : sProp 𝕄) := bigSep_elim (Finset.mem_univ k)
  unfold invs reaches chunkInv
  iintro ⟨⟨#I, -, -, #IX, #IY⟩, ⟨#R, -, -, #RX, #RY⟩⟩
  isplitr; · iapply (eI (.dma (xsSem k))); iexact I
  isplitr; · iapply (eI (.dma (xrSem k))); iexact I
  isplitr; · iapply (eI (.dma (ysSem k))); iexact I
  isplitr; · iapply (eI (.dma (yrSem k))); iexact I
  isplitr; · iapply (eI (.dma (ldSem k))); iexact I
  isplitr; · iapply (eI (.dma (stSem k))); iexact I
  isplitr; · iapply eIX; iexact IX
  isplitr; · iapply eIY; iexact IY
  isplitr; · iapply (eR (.dma (xsSem k))); iexact R
  isplitr; · iapply (eR (.dma (xrSem k))); iexact R
  isplitr; · iapply (eR (.dma (ysSem k))); iexact R
  isplitr; · iapply (eR (.dma (yrSem k))); iexact R
  isplitr; · iapply (eR (.dma (ldSem k))); iexact R
  isplitr; · iapply (eR (.dma (stSem k))); iexact R
  isplitr; · iapply eRX; iexact RX
  iapply eRY; iexact RY

theorem chunk_start (c : Dev nD) (k : Fin 32) (f1 : Buf (Elt F) ((c : Thread nD τ).loc cc0_scratch1))
    (f2 : Buf (Elt F) ((c : Thread nD τ).loc main_v1)) :
    iprop((atPos ER (xsCell c k) 0 ∅ 0 ∗ atPos ER (xrCell c k) 0 ∅ 0 ∗ atPos ER (ysCell c k) 0 ∅ 0
          ∗ atPos ER (yrCell c k) 0 ∅ 0 ∗ atPos ER (ldCell c k) 0 ∅ 0 ∗ atPos ER (stCell c k) 0 ∅ 0)
      ∗ dutyTok ER (xrCell (xp c) k) 0 false
      ∗ dutyTok ER (yrCell (yp c) k) 0 false
      ∗ (dutyTok ER (xsCell c k) 0 false ∗ dutyTok ER (ysCell c k) 0 false ∗ dutyTok ER (ldCell c k) 0 false ∗ dutyTok ER (stCell c k) 0 false)
      ∗ cred (tallyAt (xrCell c k) () N)
      ∗ cred (tallyAt (yrCell c k) () N)
      ∗ ((xSl c k).view.loc (c : Thread nD τ) ↦[(xSl c k).view.set]{fullShare} argC m c)
      ∗ ((vxSl k).view.loc (c : Thread nD τ) ↦[(vxSl k).view.set]{fullShare} f1)
      ∗ ((oSl c k).view.loc (c : Thread nD τ) ↦[(oSl c k).view.set]{fullShare} f2)
      ∗ ((∃ f, ((vrSl k).view.loc (xp c : Thread nD τ) ↦[(vrSl k).view.set]{fullShare} f)) ∗ reached ER (xrCell (xp c) k) 0)
      ∗ ((∃ f, ((oSl c k).view.loc (yp c : Thread nD τ) ↦[(oSl c k).view.set]{fullShare} f)) ∗ reached ER (yrCell (yp c) k) 0))
    ⊢ (chunkSt m c k 0 : sProp 𝕄) := by
  show _ ⊢ iprop(aArg m c k ∗ aVxAny c k ∗ aVrPeer c k ∗ aOPeer c k ∗ aOOwnAny c k
      ∗ tLd c k ∗ tXs c k ∗ tXr c k ∗ tYs c k ∗ tYr c k ∗ tSt c k ∗ aPos c k 0 0 0 0 0 0 ∗ crXr c k ∗ crYr c k)
  unfold aArg aVxAny aVrPeer aOPeer aOOwnAny tLd tXs tXr tYs tYr tSt aPos crXr crYr
  iintro ⟨⟨Pxs, Pxr, Pys, Pyr, Pld, Pst⟩, TXr, TYr, ⟨TXs, TYs, TLd, TSt⟩, CXr, CYr, A, Vx, O, ⟨Vr, -⟩, ⟨Op, -⟩⟩
  isplitl [A]; · iexact A
  isplitl [Vx]; · iexists f1; iexact Vx
  isplitl [Vr]; · iexact Vr
  isplitl [Op]; · iexact Op
  isplitl [O]; · iexists f2; iexact O
  isplitl [TLd]; · iexact TLd
  isplitl [TXs]; · iexact TXs
  isplitl [TXr]; · iexact TXr
  isplitl [TYs]; · iexact TYs
  isplitl [TYr]; · iexact TYr
  isplitl [TSt]; · iexact TSt
  isplitl [Pxs Pxr Pys Pyr Pld Pst]
  · isplitl [Pld]; · iexact Pld
    isplitl [Pxs]; · iexact Pxs
    isplitl [Pxr]; · iexact Pxr
    isplitl [Pys]; · iexact Pys
    isplitl [Pyr]; · iexact Pyr
    iexact Pst
  isplitl [CXr]; · iexact CXr
  iexact CYr

theorem bundles_intro (K : Dev nD × SemLoc sig → ℕ) (c : Dev nD) (f1 : Buf (Elt F) ((c : Thread nD τ).loc cc0_scratch1))
    (f2 : Buf (Elt F) ((c : Thread nD τ).loc main_v1)) :
    iprop(invs m K c ∗ reaches c
      ∗ (bigSep Finset.univ fun s : DmaSem sig => atPos ER (kcell (c, .dma s)) 0 ∅ 0)
      ∗ (bigSep Finset.univ fun k : Fin 32 => dutyTok ER (xrCell (xp c) k) 0 false)
      ∗ (bigSep Finset.univ fun k : Fin 32 => dutyTok ER (yrCell (yp c) k) 0 false)
      ∗ (bigSep Finset.univ fun k : Fin 32 => iprop(dutyTok ER (xsCell c k) 0 false ∗ dutyTok ER (ysCell c k) 0 false ∗ dutyTok ER (ldCell c k) 0 false ∗ dutyTok ER (stCell c k) 0 false))
      ∗ (bigSep Finset.univ fun k : Fin 32 => cred (tallyAt (xrCell c k) () N))
      ∗ (bigSep Finset.univ fun k : Fin 32 => cred (tallyAt (yrCell c k) () N))
      ∗ (bigSep Finset.univ fun k : Fin 32 => ((xSl c k).view.loc (c : Thread nD τ) ↦[(xSl c k).view.set]{fullShare} argC m c))
      ∗ (bigSep Finset.univ fun k : Fin 32 => ((vxSl k).view.loc (c : Thread nD τ) ↦[(vxSl k).view.set]{fullShare} f1))
      ∗ (bigSep Finset.univ fun k : Fin 32 => ((oSl c k).view.loc (c : Thread nD τ) ↦[(oSl c k).view.set]{fullShare} f2))
      ∗ barPayX c ∗ barPayY c)
    ⊢ (bigSep Finset.univ fun k : Fin 32 => iprop(chunkInv m K c k ∗ chunkSt m c k 0) : sProp 𝕄) := by

  have hI : iprop(invs m K c ∗ reaches c) ⊢ (bigSep Finset.univ fun k : Fin 32 => chunkInv m K c k : sProp 𝕄) :=
    bigSep_intro_persistent fun k _ => chunkInv_of m K c k

  have hS : iprop((bigSep Finset.univ fun s : DmaSem sig => atPos ER (kcell (c, .dma s)) 0 ∅ 0)
      ∗ (bigSep Finset.univ fun k : Fin 32 => dutyTok ER (xrCell (xp c) k) 0 false)
      ∗ (bigSep Finset.univ fun k : Fin 32 => dutyTok ER (yrCell (yp c) k) 0 false)
      ∗ (bigSep Finset.univ fun k : Fin 32 => iprop(dutyTok ER (xsCell c k) 0 false ∗ dutyTok ER (ysCell c k) 0 false ∗ dutyTok ER (ldCell c k) 0 false ∗ dutyTok ER (stCell c k) 0 false))
      ∗ (bigSep Finset.univ fun k : Fin 32 => cred (tallyAt (xrCell c k) () N))
      ∗ (bigSep Finset.univ fun k : Fin 32 => cred (tallyAt (yrCell c k) () N))
      ∗ (bigSep Finset.univ fun k : Fin 32 => ((xSl c k).view.loc (c : Thread nD τ) ↦[(xSl c k).view.set]{fullShare} argC m c))
      ∗ (bigSep Finset.univ fun k : Fin 32 => ((vxSl k).view.loc (c : Thread nD τ) ↦[(vxSl k).view.set]{fullShare} f1))
      ∗ (bigSep Finset.univ fun k : Fin 32 => ((oSl c k).view.loc (c : Thread nD τ) ↦[(oSl c k).view.set]{fullShare} f2))
      ∗ barPayX c ∗ barPayY c)
      ⊢ (bigSep Finset.univ fun k : Fin 32 => chunkSt m c k 0 : sProp 𝕄) := by
    rw [dma_by_chunk_eq]
    unfold barPayX barPayY
    simp only [← bigSep_sep']
    exact bigSep_mono fun k _ => chunk_start m c k f1 f2
  rw [bigSep_sep' Finset.univ (fun k : Fin 32 => chunkInv m K c k) (fun k : Fin 32 => chunkSt m c k 0)]
  iintro ⟨HI, HR, HS⟩
  isplitl [HI HR]
  · iapply hI; isplitl [HI]; · iexact HI
    iexact HR
  · iapply hS; iexact HS

def closedChunk (c : Dev nD) (k : Fin 32) : sProp 𝕄 :=
  iprop(aArg m c k ∗ aVx m c k ∗ aVrSum m c k ∗ aOOther m c k ∗ aOOwn m c k
    ∗ semVal (xsCell c k) 0 ∗ semVal (xrCell c k) 0 ∗ semVal (ysCell c k) 0 ∗ semVal (yrCell c k) 0
    ∗ semVal (ldCell c k) 0 ∗ semVal (stCell c k) 0)

theorem chunk_closed (c : Dev nD) (k : Fin 32) :
    closedChunk m c k ⊢ iprop(((xSl c k).view.loc (c : Thread nD τ) ↦[(xSl c k).view.set]{fullShare} argC m c)
      ∗ ((vxSl k).view.loc (c : Thread nD τ) ↦[(vxSl k).view.set]{fullShare} (vxIn m c : Buf (Elt F) _))
      ∗ ((vrSl k).view.loc (c : Thread nD τ) ↦[(vrSl k).view.set]{fullShare} (vrSum m c : Buf (Elt F) _))
      ∗ (((oSl c k).view.loc (c : Thread nD τ) ↦[(oSl c k).view.set]{fullShare} outC m c)
        ∗ ((oSl (yp c) k).view.loc (c : Thread nD τ) ↦[(oSl (yp c) k).view.set]{fullShare} outC m c))
      ∗ (semVal (xsCell c k) 0 ∗ semVal (xrCell c k) 0 ∗ semVal (ysCell c k) 0 ∗ semVal (yrCell c k) 0
        ∗ semVal (ldCell c k) 0 ∗ semVal (stCell c k) 0)) := by
  unfold closedChunk aArg aVx aVrSum aOOther aOOwn
  iintro ⟨A, Vx, Vr, Oo, Ow, Sxs, Sxr, Sys, Syr, Sld, Sst⟩
  isplitl [A]; · iexact A
  isplitl [Vx]; · iexact Vx
  isplitl [Vr]; · iexact Vr
  isplitl [Oo Ow]
  · isplitl [Ow]; · iexact Ow
    iexact Oo
  isplitl [Sxs]; · iexact Sxs
  isplitl [Sxr]; · iexact Sxr
  isplitl [Sys]; · iexact Sys
  isplitl [Syr]; · iexact Syr
  isplitl [Sld]; · iexact Sld
  iexact Sst

theorem bundles_join (c : Dev nD) :
    (bigSep Finset.univ fun k : Fin 32 => closedChunk m c k)
    ⊢ iprop((bigSep Finset.univ fun k : Fin 32 => ((xSl c k).view.loc (c : Thread nD τ) ↦[(xSl c k).view.set]{fullShare} argC m c))
        ∗ (((c : Thread nD τ).loc cc0_scratch1) ↦{fullShare} (vxIn m c : Buf (Elt F) _))
        ∗ (((c : Thread nD τ).loc cc0_scratch0) ↦{fullShare} (vrSum m c : Buf (Elt F) _))
        ∗ (((c : Thread nD τ).loc main_v1) ↦{fullShare} outC m c)
        ∗ (bigSep Finset.univ fun s : DmaSem sig => semVal ((c : Thread nD τ), .dma s) 0)) := by
  have e1 := Entails.antisymm (scratch1_pieces (F := F) c (vxIn m c)).mp (scratch1_pieces (F := F) c (vxIn m c)).mpr
  have e0 := Entails.antisymm (scratch0_pieces (F := F) c (vrSum m c)).mp (scratch0_pieces (F := F) c (vrSum m c)).mpr
  have eo := Entails.antisymm (result_pieces (F := F) c (outC m c)).mp (result_pieces (F := F) c (outC m c)).mpr
  rw [e1, e0, eo, dma_by_chunk_eq]
  simp only [← bigSep_sep']
  exact bigSep_mono fun k _ => chunk_closed m c k

end Cert.KernelIdeal.AR

end
-- ==== Proof.KI.Close.lean ====
/- The end of the body: every chunk closes its cells and the pieces join. -/
import proofs.«900708_g7700000000000709_dist_ar_v7x_xyz2x2x4_x_m8192_n1024_f32_1_alg».proof.Proof.KI.Bundle
import proofs.«900708_g7700000000000709_dist_ar_v7x_xyz2x2x4_x_m8192_n1024_f32_1_alg».proof.Proof.KI.Pieces
import proofs.«900708_g7700000000000709_dist_ar_v7x_xyz2x2x4_x_m8192_n1024_f32_1_alg».proof.Proof.KI.StepsB
import proofs.«900708_g7700000000000709_dist_ar_v7x_xyz2x2x4_x_m8192_n1024_f32_1_alg».proof.Proof.KI.Frame

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem body_close (K : Dev nD × SemLoc sig → ℕ) (c : Dev nD) :
    iprop((bigSep Finset.univ fun k : Fin 32 => iprop(chunkInv m K c k ∗ chunkSt m c k 11))
        ∗ (((c : Thread nD τ).loc main_arg0) ↦[Finset.univ \ (Finset.univ.biUnion fun k : Fin 32 => (xSl c k).view.set)]{fullShare} argC m c))
      ⊢ |={Set.univ}=> Φ₁ m c := by

  have h1 : (bigSep Finset.univ fun k : Fin 32 => iprop(chunkInv m K c k ∗ chunkSt m c k 11))
      ⊢ iprop(|={Set.univ}=> bigSep Finset.univ fun k : Fin 32 => closedChunk m c k) :=
    (bigSep_mono (Ψ := fun k : Fin 32 => iprop(|={Set.univ}=> closedChunk m c k)) fun k _ => chunk_close m K c k).trans
      (bigSep_fupd Finset.univ fun k : Fin 32 => closedChunk m c k)
  refine (sep_mono_left h1).trans (fupd_frame_right.trans (fupd_mono ?_))
  unfold Φ₁
  iintro ⟨Hc, Hrest⟩
  ihave H := (bundles_join m c) $$ Hc
  icases H with ⟨Hrows, Hs1, Hs0, Hout, Hsem⟩
  isplitl [Hrows Hrest]
  · iapply (arg_pieces c fullShare (argC m c)).2
    isplitl [Hrows]; · iexact Hrows
    iexact Hrest
  isplitl [Hout]; · iexact Hout
  isplitl [Hs0]; · iexists (vrSum m c : Buf (Elt F) _); iexact Hs0
  isplitl [Hs1]; · iexists (vxIn m c : Buf (Elt F) _); iexact Hs1
  iexact Hsem

end Cert.KernelIdeal.AR

end
-- ==== Proof.KI.Body.lean ====
/-
  One device's walk through its body. After the entry handshake the 32 chunks wait in a queue, each with its
  stage; a pass over the queue takes the chunk at the head through the operations the program does for it next
  and puts it back at the tail one or more stages on. Four passes: fetch; await the fetch and send across the
  first axis; await the neighbour's chunk, add, send across the second axis and store; await the four
  completions that are left.
-/
import proofs.«900708_g7700000000000709_dist_ar_v7x_xyz2x2x4_x_m8192_n1024_f32_1_alg».proof.Proof.KI.StepsA
import proofs.«900708_g7700000000000709_dist_ar_v7x_xyz2x2x4_x_m8192_n1024_f32_1_alg».proof.Proof.KI.StepsB
import proofs.«900708_g7700000000000709_dist_ar_v7x_xyz2x2x4_x_m8192_n1024_f32_1_alg».proof.Proof.KI.Fold
import proofs.«900708_g7700000000000709_dist_ar_v7x_xyz2x2x4_x_m8192_n1024_f32_1_alg».proof.Proof.KI.Pieces
import proofs.«900708_g7700000000000709_dist_ar_v7x_xyz2x2x4_x_m8192_n1024_f32_1_alg».proof.Proof.KI.DevEqs
import proofs.«900708_g7700000000000709_dist_ar_v7x_xyz2x2x4_x_m8192_n1024_f32_1_alg».proof.Proof.KI.Frame
import proofs.«900708_g7700000000000709_dist_ar_v7x_xyz2x2x4_x_m8192_n1024_f32_1_alg».proof.Proof.KI.Close
import Idealize.ShloMosaic.Lib.Tactic

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem owes_congr (c : Dev nD) {O O' : CellTallies nD τ sig Unit} (h : O = O') (W : Waits sig Unit) :
    (owes (c : Thread nD τ) O W : sProp 𝕄) ⊢ owes (c : Thread nD τ) O' W := by subst h; exact .rfl

theorem inv_own (K : Dev nD × SemLoc sig → ℕ) (c : Dev nD) (sm : SemLoc sig) :
    (bigSep Finset.univ fun sm : SemLoc sig => (cellInv ER (Rd m) (K (c, sm)) (kcell (c, sm)) : sProp 𝕄)) ⊢ cellInv ER (Rd m) (K (c, sm)) (kcell (c, sm)) :=
  bigSep_elim (Finset.mem_univ sm)

-- the barrier's round has two duties, one from each neighbour
theorem bar_payloads (c : Dev nD) : bigSep ((Rd (F := F) m).duties (kcell (c, SemLoc.reg barS)) 0) (fun d => (Rd (F := F) m).payload (kcell (c, SemLoc.reg barS)) 0 d) = iprop(barPayX c ∗ barPayY c) := by
  rw [show kcell (c, SemLoc.reg barS) = barCell c from rfl, duties_bar, bigSep_univ_eq_bigSepL [false, true] (by decide) (by decide), bigSepL_cons_cons, bigSepL_singleton,
    payload_bar_false, payload_bar_true]
  rfl

/-! ## The queue of chunks -/

-- a chunk of the queue: its number and its stage
def chunkAt (K : Dev nD × SemLoc sig → ℕ) (c : Dev nD) (p : Fin 32 × ℕ) : sProp 𝕄 := iprop(chunkInv m K c p.1 ∗ chunkSt m c p.1 p.2)

omit [FloatOps F] in
theorem bigSepL_snoc {I : Type} (l : List I) (a : I) (Φ : I → sProp 𝕄) : iprop(bigSepL l Φ ∗ Φ a) ⊢ bigSepL (l ++ [a]) Φ := by
  induction l with
  | nil => exact BI.emp_sep.1
  | cons i l ih =>
    rw [List.cons_append, bigSepL_cons, bigSepL_cons]
    exact BI.sep_assoc.trans (BI.sep_mono_r ih)

omit [FloatOps F] in
theorem bigSepL_map {I J : Type} (f : I → J) (l : List I) (Φ : J → sProp 𝕄) : bigSepL (l.map f) Φ = bigSepL l fun i => Φ (f i) := by
  induction l with
  | nil => rfl
  | cons i l ih => rw [List.map_cons, bigSepL_cons, bigSepL_cons, ih]

-- all 32 chunks at one stage are the queue in the program's order
theorem chunks_all (K : Dev nD × SemLoc sig → ℕ) (c : Dev nD) (s : ℕ) :
    (bigSep Finset.univ fun k : Fin 32 => iprop(chunkInv m K c k ∗ chunkSt m c k s)) = bigSepL (([0, 1, 2, 3, 4, 5, 6, 7, 8, 9, 10, 11, 12, 13, 14, 15, 16, 17, 18, 19, 20, 21, 22, 23, 24, 25, 26, 27, 28, 29, 30, 31] : List (Fin 32)).map fun k => (k, s)) (chunkAt m K c) := by
  rw [bigSepL_map]
  exact bigSep_univ_eq_bigSepL _ (by decide) (by decide) _

theorem chunks_pop {K : Dev nD × SemLoc sig → ℕ} {c : Dev nD} {k : Fin 32} {s : ℕ} {l : List (Fin 32 × ℕ)} :
    bigSepL ((k, s) :: l) (chunkAt m K c) ⊢ iprop(chunkInv m K c k ∗ chunkSt m c k s ∗ bigSepL l (chunkAt m K c)) := by
  rw [bigSepL_cons]; exact BI.sep_assoc

theorem chunks_push {K : Dev nD × SemLoc sig → ℕ} {c : Dev nD} (s : ℕ) {k : Fin 32} {l : List (Fin 32 × ℕ)} :
    bigSepL l (chunkAt m K c) ⊢ iprop(chunkInv m K c k -∗ chunkSt m c k s -∗ bigSepL (l ++ [(k, s)]) (chunkAt m K c)) := by
  iintro Hq #Hi Hb
  iapply (bigSepL_snoc l (k, s) (chunkAt m K c))
  isplitl [Hq]; · iexact Hq
  unfold chunkAt
  isplitr; · iexact Hi
  iexact Hb

/-! ## The body -/

attribute [local sl_rounds] duties_bar duties_dma amount_bar amount_dma expect_bar expect_dma payload_bar_false payload_bar_true payload_dma rest_bar
attribute [local sl_canon] dev1_eq dev2_eq

set_option maxHeartbeats 0 in
theorem sound_body (c : Dev nD) (W₀ : Waits sig Unit) (Kt : PUnit → sProp 𝕄) :
    iprop(Φ₀ m c ∗ owes (c : Thread nD τ) (O₀ c) W₀ ∗ (iprop(Φ₁ m c ∗ ∃ W, owes (c : Thread nD τ) 0 W) -∗ Kt ⟨⟩))
      ⊢ wp frame (wpE (defs₀ (F := F)) 𝒱₀ (c : Thread nD τ) none) Set.univ
          (cc0_body (F := F) (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7) Kt := by
  unfold Φ₀ start ghost payToks creds
  iintro ⟨⟨⟨⟨%K, #Hinv, #Hreach, Hpos, Htx, Hty, Htxr, Htyr, Htown⟩, ⟨Hcb, Hcxr, Hcyr⟩, #Hlev⟩, Harg, ⟨%fo, Hout⟩, ⟨%f0, Hs0⟩, ⟨%f1, Hs1⟩⟩, HO, Hk⟩
  ihave Hs0' := (scratch0_pieces (F := F) c f0).1 $$ Hs0
  ihave Hs1' := (scratch1_pieces (F := F) c f1).1 $$ Hs1
  ihave Hout' := (result_pieces (F := F) c fo).1 $$ Hout
  icases Hout' with ⟨Hoown, Hooth⟩
  ihave Harg' := (arg_pieces (F := F) c fullShare (argC m c)).1 $$ Harg
  icases Harg' with ⟨Hargs, Hargrem⟩
  ihave Hpos' := (Entails.of_eq (semloc_split_eq (F := F) fun sm => atPos ER (kcell (c, sm)) 0 ∅ 0)) $$ Hpos
  icases Hpos' with ⟨Hposb, Hposd⟩
  ihave Hpx := (fold_payX (F := F) c f0) $$ [Hs0']
  · isplitr; · iexact Hreach
    iexact Hs0'
  ihave Hpy := (fold_payY (F := F) c fo) $$ [Hooth]
  · isplitr; · iexact Hreach
    iexact Hooth
  unfold invs
  icases Hinv with ⟨#HIown, #HIx, #HIy, #HIxr, #HIyr⟩
  ihave #HIb := (inv_own m K c (.reg barS)) $$ HIown
  unfold reaches
  icases Hreach with ⟨#Hrown, #Hrx, #Hry, #Hrxr, #Hryr⟩
  unfold O₀
  have hmw := mayWait_bar (F := F) c
  sl_exec
  ihave Hpays := (Entails.of_eq (bar_payloads m c)) $$ Hposb_pay1
  icases Hpays with ⟨HpX, HpY⟩
  ihave Hbs := (bundles_intro m K c f1 fo) $$ [Hposd Htxr Htyr Htown Hcxr Hcyr Hargs Hs1' Hoown HpX HpY]
  · isplitr
    · unfold invs
      isplitr; · iexact HIown
      isplitr; · iexact HIx
      isplitr; · iexact HIy
      isplitr; · iexact HIxr
      iexact HIyr
    isplitr
    · unfold reaches
      isplitr; · iexact Hrown
      isplitr; · iexact Hrx
      isplitr; · iexact Hry
      isplitr; · iexact Hrxr
      iexact Hryr
    isplitl [Hposd]; · iexact Hposd
    isplitl [Htxr]; · iexact Htxr
    isplitl [Htyr]; · iexact Htyr
    isplitl [Htown]; · iexact Htown
    isplitl [Hcxr]; · iexact Hcxr
    isplitl [Hcyr]; · iexact Hcyr
    isplitl [Hargs]; · iexact Hargs
    isplitl [Hs1']; · iexact Hs1'
    isplitl [Hoown]; · iexact Hoown
    isplitl [HpX]; · iexact HpX
    iexact HpY
  ihave Hq := (Entails.of_eq (chunks_all m K c 0)) $$ Hbs
  iterate 32
    icases (chunks_pop m) $$ [Hq] with ⟨#Hi, Hb, Hq⟩
    · iexact Hq
    first | sl_exec | skip
    iapply (step_fetch m) $$ Hi Hb
    iintro Hb
    ihave Hq := (chunks_push m 1) $$ Hq Hi Hb
    iclear Hi
  iterate 32
    icases (chunks_pop m) $$ [Hq] with ⟨#Hi, Hb, Hq⟩
    · iexact Hq
    first | sl_exec | skip
    iapply (step_fetch_wait m) $$ Hi Hlev Hb [HO]
    · iexact HO
    iintro ⟨Hb, HO⟩
    first | sl_exec | skip
    iapply (step_xsend m (dev3_eq c)) $$ Hi Hb HO
    iintro ⟨Hb, HO⟩
    ihave Hq := (chunks_push m 3) $$ Hq Hi Hb
    iclear Hi
  ihave HO := (owes_congr (F := F) c (show OY c 0 + OX c ((31 : Fin 32).val + 1) = OY c ((0 : Fin 32).val) by rw [show ((31 : Fin 32).val + 1) = 32 from rfl, OX_32, add_zero]; rfl) _) $$ [HO]
  · iexact HO
  iterate 32
    icases (chunks_pop m) $$ [Hq] with ⟨#Hi, Hb, Hq⟩
    · iexact Hq
    first | sl_exec | skip
    try simp only [Prog.lift, Prog.bind_op, Prog.bind_ret, Prog.pure_eq_ret]
    iapply (step_xr_wait m) $$ Hi Hlev Hb [HO]
    · iexact HO
    iintro ⟨Hb, HO⟩
    first | sl_exec | skip
    try simp only [Prog.lift, Prog.bind_op, Prog.bind_ret, Prog.pure_eq_ret]
    iapply (step_load_vr m) $$ Hi Hb
    iintro Hb
    first | sl_exec | skip
    try simp only [Prog.lift, Prog.bind_op, Prog.bind_ret, Prog.pure_eq_ret]
    iapply (step_load_vx m) $$ Hi Hb
    iintro Hb
    first | sl_exec | skip
    try simp only [Prog.lift, Prog.bind_op, Prog.bind_ret, Prog.pure_eq_ret]
    iapply (step_load_vr m) $$ Hi Hb
    iintro Hb
    first | sl_exec | skip
    try simp only [Prog.lift, Prog.bind_op, Prog.bind_ret, Prog.pure_eq_ret]
    iapply (step_store m _ rfl) $$ Hi Hb
    iintro Hb
    first | sl_exec | skip
    try simp only [Prog.lift, Prog.bind_op, Prog.bind_ret, Prog.pure_eq_ret]
    iapply (step_ysend m (dev35_eq c)) $$ Hi Hb HO
    iintro ⟨Hb, HO⟩
    first | sl_exec | skip
    try simp only [Prog.lift, Prog.bind_op, Prog.bind_ret, Prog.pure_eq_ret]
    iapply (step_stcopy m) $$ Hi Hb
    iintro Hb
    ihave Hq := (chunks_push m 7) $$ Hq Hi Hb
    iclear Hi
  ihave HO := (owes_congr (F := F) c (show OY c ((31 : Fin 32).val + 1) = 0 by rw [show ((31 : Fin 32).val + 1) = 32 from rfl, OY_32]) _) $$ [HO]
  · iexact HO
  iterate 32
    icases (chunks_pop m) $$ [Hq] with ⟨#Hi, Hb, Hq⟩
    · iexact Hq
    first | sl_exec | skip
    try simp only [Prog.lift, Prog.bind_op, Prog.bind_ret, Prog.pure_eq_ret]
    iapply (step_xs_wait m) $$ Hi Hb HO
    iintro ⟨Hb, HO⟩
    first | sl_exec | skip
    try simp only [Prog.lift, Prog.bind_op, Prog.bind_ret, Prog.pure_eq_ret]
    iapply (step_ys_wait m) $$ Hi Hb HO
    iintro ⟨Hb, HO⟩
    first | sl_exec | skip
    try simp only [Prog.lift, Prog.bind_op, Prog.bind_ret, Prog.pure_eq_ret]
    iapply (step_yr_wait m) $$ Hi Hb HO
    iintro ⟨Hb, HO⟩
    first | sl_exec | skip
    try simp only [Prog.lift, Prog.bind_op, Prog.bind_ret, Prog.pure_eq_ret]
    iapply (step_st_wait m) $$ Hi Hb HO
    iintro ⟨Hb, HO⟩
    ihave Hq := (chunks_push m 11) $$ Hq Hi Hb
    iclear Hi
  ihave Hall := (Entails.of_eq (chunks_all m K c 11).symm) $$ [Hq]
  · iexact Hq
  imod (body_close m K c) $$ [Hall Hargrem] with HΦ
  · isplitl [Hall]; · iexact Hall
    iexact Hargrem
  sl_step
  iapply Hk
  isplitl [HΦ]; · iexact HΦ
  iexists _; iexact HO

end Cert.KernelIdeal.AR

end
-- ==== Proof.KI.Launch.lean ====
/- From one device's body to the run of the program on all sixteen. -/
import proofs.«900708_g7700000000000709_dist_ar_v7x_xyz2x2x4_x_m8192_n1024_f32_1_alg».proof.Proof.KI.Inv
import Idealize.ShloMosaic.Lib.Pipeline.Launch
import Idealize.ShloMosaic.Lib.Pipeline.Kit

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : DmaSem sig → SemLoc sig := fun s => .dma s

theorem dma_scoped : ∀ s : DmaSem sig, (SemLoc.dma s : SemLoc sig).isScoped .tc = true := by decide

theorem ownSemFacts : Pipeline.OwnSemFacts cfg0.spec osem :=
  ⟨dma_scoped, fun a b h => SemLoc.dma.inj h, fun k w => w.elim0⟩

theorem kcell_injective : Function.Injective (kcell : Dev nD × SemLoc sig → GSem nD τ sig) := by
  rintro ⟨c, k⟩ ⟨c', k'⟩ h
  have h1 : c = c' := congrArg (fun g : GSem nD τ sig => g.1.1) h
  have h2 : k = k' := congrArg Prod.snd h
  subst h1; subst h2; rfl
def arCells : Finset (GSem nD τ sig) := Finset.univ.map ⟨kcell, kcell_injective⟩

abbrev tokOf (cj : Dev nD × (Bool ⊕ DmaSem sig)) : GSem nD τ sig × ℕ × Bool := match cj.2 with
  | .inl d => (barCell cj.1, 0, d)
  | .inr s => (((cj.1 : Thread nD τ), .dma s), 0, false)
theorem tokOf_injective : Function.Injective (tokOf : Dev nD × (Bool ⊕ DmaSem sig) → GSem nD τ sig × ℕ × Bool) := by
  rintro ⟨c, j⟩ ⟨c', j'⟩ h
  have h1 : c = c' := by
    have := congrArg (fun x : GSem nD τ sig × ℕ × Bool => x.1.1.1) h
    rcases j with d | s <;> rcases j' with d' | s' <;> exact this
  subst h1
  have : j = j' := by
    rcases j with d | s <;> rcases j' with d' | s'
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · exact congrArg Sum.inr (SemLoc.dma.inj (congrArg (fun x : GSem nD τ sig × ℕ × Bool => x.1.2) h))
  subst this; rfl
def arToks : Finset (GSem nD τ sig × ℕ × Bool) := Finset.univ.map ⟨tokOf, tokOf_injective⟩

def u₀ : UU :=
  (initOf (Pipeline.cells cfgs cellOf_inj) (Pipeline.launchToks cfgs cellOf_inj), initOf arCells arToks)

def toks (c : Dev nD) : sProp 𝕄 :=
  iprop((dutyTok ER (barCell c) 0 false ∗ dutyTok ER (barCell c) 0 true)
    ∗ bigSep Finset.univ fun s : DmaSem sig => dutyTok ER ((c : Thread nD τ), .dma s) 0 false)

def G (c : Dev nD) : sProp 𝕄 :=
  iprop((bigSep Finset.univ fun sm : SemLoc sig => roundState ER (Rd m) (kcell (c, sm)) 0)
    ∗ (bigSep Finset.univ fun sm : SemLoc sig => iprop(atPos ER (kcell (c, sm)) 0 ∅ 0 ∗ reached ER (kcell (c, sm)) 0)) ∗ toks c)

def G' (c : Dev nD) : sProp 𝕄 := iprop(∃ K, ghost m K c)

omit [FloatOps F] in
theorem bigSep_bool (Φ : Bool → sProp 𝕄) : bigSep Finset.univ Φ = iprop(Φ false ∗ Φ true) :=
  bigSep_univ_eq_bigSepL [false, true] (by decide) (by decide) Φ

theorem fund_ar : BI.own (ER (initOf arCells arToks)) ⊢ (|==> bigSep Finset.univ (G m) : sProp 𝕄) := by
  have hX (Φ : GSem nD τ sig → sProp 𝕄) : bigSep arCells Φ = bigSep Finset.univ fun c : Dev nD => bigSep Finset.univ fun sm : SemLoc sig => Φ (kcell (c, sm)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => by unfold toks; rw [bigSep_univ_sum, bigSep_bool]; rfl
  iintro HX
  imod (Rounds.fund ER (Rd m) arCells arToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownSems0_eq (c : Dev nD) : (Pipeline.ownSems0 (Ix := Unit) (Name := ℕ) (U := UU) (Lvl := ℕ) (Val := Elt F) (τ := τ) osem c : sProp 𝕄)
    = bigSep Finset.univ fun s : DmaSem sig => semVal ((c : Thread nD τ), .dma s) 0 := rfl

omit [FloatOps F] in

theorem unscopedSems0_eq (c : Dev nD) : (unscopedSems0 c : sProp 𝕄) = semVal (barCell c) 0 := by
  have h : (Finset.univ.filter fun sm : SemLoc sig => ¬ sm.isScoped .tc) = {SemLoc.reg barS} := by
    ext sm
    rw [Finset.mem_filter, Finset.mem_singleton]
    cases sm with
    | reg r =>
      have hr : r = barS := Subsingleton.elim (α := Fin 1) _ _
      subst hr
      exact ⟨fun _ => rfl, fun _ => ⟨Finset.mem_univ _, by decide⟩⟩
    | dma s =>
      exact ⟨fun h => absurd (dma_scoped s) h.2, fun h => by cases h⟩
  unfold unscopedSems0; rw [h, bigSep_singleton]

omit [FloatOps F] in
theorem bigSep_semLoc (Φ : SemLoc sig → sProp 𝕄) :
    bigSep Finset.univ Φ = iprop(Φ (.reg barS) ∗ bigSep Finset.univ fun s : DmaSem sig => Φ (.dma s)) := by
  rw [bigSep_univ_equiv (SemLoc.equivSum sig).symm Φ, bigSep_univ_sum, bigSep_univ_of_subsingleton (I := Sem sig) barS]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (kcell (c, sm)) 0 : sProp 𝕄) := by
  rw [ownSems0_eq, unscopedSems0_eq, bigSep_semLoc]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (Rd m) κ (kcell (c, sm))))
          ∗ (bigSep Finset.univ fun sm : SemLoc sig => iprop(atPos ER (kcell (c, sm)) 0 ∅ 0 ∗ reached ER (kcell (c, sm)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (kcell (c, sm)) 0) ∗ bigSep Finset.univ fun sm : SemLoc sig => roundState ER (Rd m) (kcell (c, sm)) 0)
      ⊢ (|={Set.univ}=> bigSep Finset.univ fun sm : SemLoc sig => iprop(∃ κ : ℕ, cellInv ER (Rd m) κ (kcell (c, sm))) : sProp 𝕄) from by
        rw [← bigSep_sep']
        exact (bigSep_mono fun sm _ => (Rounds.body_intro ER (Rd m) (kcell (c, sm))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × SemLoc sig → ℕ) : sProp 𝕄 :=
  iprop((bigSep Finset.univ fun ck : Dev nD × SemLoc sig => cellInv ER (Rd m) (K ck) (kcell ck))
    ∗ bigSep Finset.univ fun ck : Dev nD × SemLoc sig => reached ER (kcell ck) 0)

instance records_persistent (K : Dev nD × SemLoc sig → ℕ) : BI.Persistent (records m K) := by unfold records; infer_instance

theorem invs_at (K : Dev nD × SemLoc sig → ℕ) (ck : Dev nD × SemLoc sig) :
    (bigSep Finset.univ fun ck : Dev nD × SemLoc sig => (cellInv ER (Rd m) (K ck) (kcell ck) : sProp 𝕄)) ⊢ cellInv ER (Rd m) (K ck) (kcell ck) :=
  bigSep_elim (Finset.mem_univ ck)
omit [FloatOps F] in
theorem reacheds_at (ck : Dev nD × SemLoc sig) :
    (bigSep Finset.univ fun ck : Dev nD × SemLoc sig => (reached ER (kcell ck) 0 : sProp 𝕄)) ⊢ reached ER (kcell ck) 0 :=
  bigSep_elim (Finset.mem_univ ck)
theorem inv_at (K : Dev nD × SemLoc sig → ℕ) (ck : Dev nD × SemLoc sig) :
    records m K ⊢ cellInv ER (Rd m) (K ck) (kcell ck) := by
  unfold records; iintro ⟨H, -⟩; iapply (invs_at m K ck); iexact H
theorem reached_at (K : Dev nD × SemLoc sig → ℕ) (ck : Dev nD × SemLoc sig) :
    records m K ⊢ reached ER (kcell ck) 0 := by
  unfold records; iintro ⟨-, H⟩; iapply (reacheds_at (F := F) ck); iexact H

def linear (c : Dev nD) : sProp 𝕄 :=
  iprop((bigSep Finset.univ fun sm : SemLoc sig => atPos ER (kcell (c, sm)) 0 ∅ 0) ∗ payToks c)

theorem ghost_intro (K : Dev nD × SemLoc sig → ℕ) (c : Dev nD) : iprop(records m K ∗ linear c) ⊢ G' m c := by
  unfold linear G' ghost invs reaches
  iintro ⟨#HR, Hat, Htok⟩
  iexists K
  isplitr
  · isplitr; · iapply (bigSep_intro_persistent (R := records m K) fun sm _ => inv_at m K (c, sm)); iexact HR
    isplitr; · iapply (inv_at m K (xp c, .reg barS)); iexact HR
    isplitr; · iapply (inv_at m K (yp c, .reg barS)); iexact HR
    isplitr; · iapply (bigSep_intro_persistent (R := records m K) fun k _ => inv_at m K (xp c, .dma (xrSem k))); iexact HR
    iapply (bigSep_intro_persistent (R := records m K) fun k _ => inv_at m K (yp c, .dma (yrSem k))); iexact HR
  isplitr
  · isplitr; · iapply (bigSep_intro_persistent (R := records m K) fun sm _ => reached_at m K (c, sm)); iexact HR
    isplitr; · iapply (reached_at m K (xp c, .reg barS)); iexact HR
    isplitr; · iapply (reached_at m K (yp c, .reg barS)); iexact HR
    isplitr; · iapply (bigSep_intro_persistent (R := records m K) fun k _ => reached_at m K (xp c, .dma (xrSem k))); iexact HR
    iapply (bigSep_intro_persistent (R := records m K) fun k _ => reached_at m K (yp c, .dma (yrSem k))); iexact HR
  isplitl [Hat]; · iexact Hat
  iexact Htok

def famE : Fin 6 × Fin 32 ≃ DmaSem sig := finProdFinEquiv

theorem famE_xs : ∀ k : Fin 32, famE (0, k) = xsSem k := by decide
theorem famE_xr : ∀ k : Fin 32, famE (1, k) = xrSem k := by decide
theorem famE_ys : ∀ k : Fin 32, famE (2, k) = ysSem k := by decide
theorem famE_yr : ∀ k : Fin 32, famE (3, k) = yrSem k := by decide
theorem famE_ld : ∀ k : Fin 32, famE (4, k) = ldSem k := by decide
theorem famE_st : ∀ k : Fin 32, famE (5, k) = stSem k := by decide

omit [FloatOps F] in
theorem bigSep_dmaSem (Φ : DmaSem sig → sProp 𝕄) :
    bigSep Finset.univ Φ = iprop((bigSep Finset.univ fun k : Fin 32 => Φ (xsSem k)) ∗ (bigSep Finset.univ fun k : Fin 32 => Φ (xrSem k))
      ∗ (bigSep Finset.univ fun k : Fin 32 => Φ (ysSem k)) ∗ (bigSep Finset.univ fun k : Fin 32 => Φ (yrSem k))
      ∗ (bigSep Finset.univ fun k : Fin 32 => Φ (ldSem k)) ∗ (bigSep Finset.univ fun k : Fin 32 => Φ (stSem k))) := by
  rw [bigSep_univ_equiv famE Φ, bigSep_univ_prod, bigSep_univ_eq_bigSepL [0, 1, 2, 3, 4, 5] (by decide) (by decide)]
  simp only [bigSepL_cons_cons, bigSepL_singleton, famE_xs, famE_xr, famE_ys, famE_yr, famE_ld, famE_st]
  rfl

def xpE : Dev nD ≃ Dev nD := ⟨xp, xp, xp_xp, xp_xp⟩

def ypE : Dev nD ≃ Dev nD := ⟨yp, yp, yp_yp, yp_yp⟩

omit [FloatOps F] in

theorem toks_around : (bigSep Finset.univ fun c : Dev nD => (toks c : sProp 𝕄)) ⊢ bigSep Finset.univ fun c : Dev nD => payToks c := by
  unfold toks payToks
  simp only [bigSep_dmaSem, bigSep_sep']
  rw [bigSep_univ_equiv xpE (fun c : Dev nD => (dutyTok ER (barCell c) 0 false : sProp 𝕄)),
    bigSep_univ_equiv ypE (fun c : Dev nD => (dutyTok ER (barCell c) 0 true : sProp 𝕄)),
    bigSep_univ_equiv xpE (fun c : Dev nD => (bigSep Finset.univ fun k : Fin 32 => dutyTok ER ((c : Thread nD τ), SemLoc.dma (xrSem k)) 0 false : sProp 𝕄)),
    bigSep_univ_equiv ypE (fun c : Dev nD => (bigSep Finset.univ fun k : Fin 32 => dutyTok ER ((c : Thread nD τ), SemLoc.dma (yrSem k)) 0 false : sProp 𝕄))]
  iintro ⟨⟨HbF, HbT⟩, Hxs, Hxr, Hys, Hyr, Hld, Hst⟩
  isplitl [HbF]; · iexact HbF
  isplitl [HbT]; · iexact HbT
  isplitl [Hxr]; · iexact Hxr
  isplitl [Hyr]; · iexact Hyr
  isplitl [Hxs]; · iexact Hxs
  isplitl [Hys]; · iexact Hys
  isplitl [Hld]; · iexact Hld
  iexact Hst

theorem regroup :
    (bigSep Finset.univ fun c : Dev nD => iprop((bigSep Finset.univ fun sm : SemLoc sig => iprop(∃ κ : ℕ, cellInv ER (Rd m) κ (kcell (c, sm))))
          ∗ (bigSep Finset.univ fun sm : SemLoc sig => iprop(atPos ER (kcell (c, sm)) 0 ∅ 0 ∗ reached ER (kcell (c, sm)) 0)) ∗ toks c) : sProp 𝕄)
      ⊢ bigSep Finset.univ (G' m) := by
  rw [bigSep_sep', bigSep_sep', ← bigSep_univ_prod (fun ck : Dev nD × SemLoc sig => iprop(∃ κ : ℕ, cellInv ER (Rd m) κ (kcell ck))),
    bigSep_congr (s := Finset.univ) (fun (c : Dev nD) _ => bigSep_sep' Finset.univ (fun sm : SemLoc sig => (atPos ER (kcell (c, sm)) 0 ∅ 0 : sProp 𝕄)) (fun sm => reached ER (kcell (c, sm)) 0)),
    bigSep_sep', ← bigSep_univ_prod (fun ck : Dev nD × SemLoc sig => (reached ER (kcell ck) 0 : sProp 𝕄))]
  iintro ⟨HI, ⟨Hat, #HR⟩, Htok⟩
  ihave HK := (BI.bigSep_exists_pi Finset.univ (fun (ck : Dev nD × SemLoc sig) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => bigSep Finset.univ fun sm : SemLoc sig => (atPos ER (kcell (c, sm)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in

theorem creds_of (c : Dev nD) : (Pipeline.launchCred O₀ c : sProp 𝕄) ⊢ creds c := by
  have h1 : (Pipeline.launchCred O₀ c : sProp 𝕄)
      = iprop(Pipeline.launchCred (fun d => OY d 0 + OX d 0 + tallyAt (barCell (yp d)) () 1) c ∗ Pipeline.launchCred (fun d => tallyAt (barCell (xp d)) () 1) c) :=
    Pipeline.launchCred_add (fun d => OY d 0 + OX d 0 + tallyAt (barCell (yp d)) () 1) (fun d => tallyAt (barCell (xp d)) () 1) c
  have h2 : (Pipeline.launchCred (fun d => OY d 0 + OX d 0 + tallyAt (barCell (yp d)) () 1) c : sProp 𝕄)
      = iprop(Pipeline.launchCred (fun d => OY d 0 + OX d 0) c ∗ Pipeline.launchCred (fun d => tallyAt (barCell (yp d)) () 1) c) :=
    Pipeline.launchCred_add (fun d => OY d 0 + OX d 0) (fun d => tallyAt (barCell (yp d)) () 1) c
  have h3 : (Pipeline.launchCred (fun d => OY d 0 + OX d 0) c : sProp 𝕄)
      = iprop(Pipeline.launchCred (fun d => OY d 0) c ∗ Pipeline.launchCred (fun d => OX d 0) c) :=
    Pipeline.launchCred_add (fun d => OY d 0) (fun d => OX d 0) c
  have hY : (Pipeline.launchCred (fun d => OY d 0) c : sProp 𝕄)
      = bigSep Finset.univ fun k : Fin 32 => Pipeline.launchCred (fun d => tallyAt (yrCell (yp d) k) () N) c := by
    have h := Pipeline.launchCred_sum (Val := Elt F) (Name := ℕ) (U := UU) (Lvl := ℕ) (rem 0) (fun (k : Fin 32) (d : Dev nD) => (tallyAt (yrCell (yp d) k) () N : CellTallies nD τ sig Unit)) c
    rw [rem_zero] at h; exact h
  have hX : (Pipeline.launchCred (fun d => OX d 0) c : sProp 𝕄)
      = bigSep Finset.univ fun k : Fin 32 => Pipeline.launchCred (fun d => tallyAt (xrCell (xp d) k) () N) c := by
    have h := Pipeline.launchCred_sum (Val := Elt F) (Name := ℕ) (U := UU) (Lvl := ℕ) (rem 0) (fun (k : Fin 32) (d : Dev nD) => (tallyAt (xrCell (xp d) k) () N : CellTallies nD τ sig Unit)) c
    rw [rem_zero] at h; exact h
  have hXm : (bigSep Finset.univ fun k : Fin 32 => (Pipeline.launchCred (fun d => tallyAt (xrCell (xp d) k) () N) c : sProp 𝕄))
      ⊢ bigSep Finset.univ fun k : Fin 32 => cred (tallyAt (xrCell c k) () N) :=
    bigSep_mono fun k _ => Pipeline.launchCred_tallyAt (.dma (xrSem k)) xp xp xp_xp xp_xp () N c
  have hYm : (bigSep Finset.univ fun k : Fin 32 => (Pipeline.launchCred (fun d => tallyAt (yrCell (yp d) k) () N) c : sProp 𝕄))
      ⊢ bigSep Finset.univ fun k : Fin 32 => cred (tallyAt (yrCell c k) () N) :=
    bigSep_mono fun k _ => Pipeline.launchCred_tallyAt (.dma (yrSem k)) yp yp yp_yp yp_yp () N c
  rw [h1, h2, h3, hY, hX]
  unfold creds
  iintro ⟨⟨⟨HY, HX⟩, HbY⟩, HbX⟩
  isplitl [HbY HbX]
  · iapply (Entails.of_eq (congrArg cred (tallyAt_add (barCell c) () 1 1)))
    iapply (cred_add _ _).2
    isplitl [HbY]
    · iapply (Pipeline.launchCred_tallyAt (.reg barS) yp yp yp_yp yp_yp () 1 c); iexact HbY
    · iapply (Pipeline.launchCred_tallyAt (.reg barS) xp xp xp_xp xp_xp () 1 c); iexact HbX
  isplitl [HX]
  · iapply hXm; iexact HX
  · iapply hYm; iexact HY

def Xs (c : Dev nD) : sProp 𝕄 :=
  iprop(start m c ∗ (((c : Thread nD τ).loc main_arg0) ↦{fullShare} m ((c : Thread nD τ).loc main_arg0))
    ∗ (((c : Thread nD τ).loc main_v1) ↦{fullShare} m ((c : Thread nD τ).loc main_v1)))

def Ys (c : Dev nD) : sProp 𝕄 :=
  iprop((((c : Thread nD τ).loc main_arg0) ↦{fullShare} argC m c) ∗ (((c : Thread nD τ).loc main_v1) ↦{fullShare} outC m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Xs m c ∗ emp) := by
  rw [Pipeline.unscopedRestP_none, unscopedRest0_eq]
  iintro ⟨⟨Ha, Ho⟩, Hlev, Hcr, -, HG⟩
  ihave Hc := (creds_of (F := F) c) $$ Hcr
  imodintro
  unfold Xs start G'
  isplitl
  · isplitl [HG Hc Hlev]
    · isplitl [HG]; · iexact HG
      isplitl [Hc]; · iexact Hc
      iexact Hlev
    isplitl [Ha]; · iexact Ha
    iexact Ho
  · iempintro

theorem phi0_intro (c : Dev nD) :
    iprop(Xs m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Xs
  iintro ⟨⟨Hs, Ha, Ho⟩, -, ⟨H0, H1⟩⟩
  isplitl [Hs]; · iexact Hs
  isplitl [Ha]; · iexact Ha
  isplitl [Ho]; · iexists _; iexact Ho
  isplitl [H0]; · iexact H0
  iexact H1

theorem phi1_exit (c : Dev nD) :
    (dats m 0 c).Φ (Fin.last cfg0.N) ⊢ iprop(Ys m c ∗ Pipeline.ownSems0 osem c ∗ Pipeline.scopedRest cfg0.spec c) := by
  rw [show (dats m 0 c).Φ (Fin.last cfg0.N) = Φ₁ m c from rfl, scopedRest0_eq, ownSems0_eq]
  unfold Φ₁ Ys
  iintro ⟨Ha, Ho, H0, H1, Hz⟩
  isplitl [Ha Ho]
  · isplitl [Ha] <;> iassumption
  isplitl [Hz]; · iexact Hz
  isplitl [H0] <;> iassumption

theorem waits (c : Dev nD) : (levAts L lv : sProp 𝕄) ⊢ Pipeline.cellsWaits cfgs (dats m) () 0 c :=
  Pipeline.cellsWaits_intro cfgs (dats m) () 0 c fun w => w.elim0

set_option maxRecDepth 8000 in

theorem run_main (hbody : ∀ c : Dev nD, BodyObligation (dats (F := F) m 0 c) (defs₀ (F := F)) Variants.none () Set.univ) :
    θ_run defs (onTc (τ := τ) (main (F := F))) ⟨m, fun _ => 0, ρ⟩
      (fun r => ∀ c : Dev nD, r.2.mem ((c.tc : Thread nD τ).loc main_v1) = outVal m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ar m) $$ HX with HG
      imodintro
      isplitl [HP] <;> iassumption)
    (hglob := glob m)
    (hA := fun _ w => w.elim0) (hpf := fun _ k => k.elim0)
    (X := Xs m) (Y := Ys m) (Z := fun _ => iprop(emp))
    (hX := start_intro m ρ) (hin := phi0_intro m) (hout := phi1_exit m)
    (QY := fun c s => s.mem ((c.tc : Thread nD τ).loc main_v1) = outVal m c
      ∧ s.mem ((c.tc : Thread nD τ).loc main_arg0) = m ((c.tc : Thread nD τ).loc main_arg0))
    (hY := fun c s' => by
      unfold Ys
      iintro ⟨⟨Ha, Ho⟩, -, HSI⟩
      icombine HSI Ha gives %ha
      icombine HSI Ho gives %ho
      imodintro
      isplitr
      · ipureintro; exact ⟨Buf.eq_of_forall_mem_univ ho, Buf.eq_of_forall_mem_univ ha⟩
      iexact HSI)
    (hQ := fun _ h c => (h c).2.2)

end Cert.KernelIdeal.AR

end
-- ==== Proof.KI.RefSide.lean ====
/- The reference's run read back, and its frame. -/
import proofs.«900708_g7700000000000709_dist_ar_v7x_xyz2x2x4_x_m8192_n1024_f32_1_alg».proof.Defs
import proofs.«900708_g7700000000000709_dist_ar_v7x_xyz2x2x4_x_m8192_n1024_f32_1_alg».proof.Proof.Gen.ReferenceIdeal
import proofs.«900708_g7700000000000709_dist_ar_v7x_xyz2x2x4_x_m8192_n1024_f32_1_alg».proof.Proof.Gen.ReferenceIdeal.Run
import proofs.«900708_g7700000000000709_dist_ar_v7x_xyz2x2x4_x_m8192_n1024_f32_1_alg».proof.Proof.Gen.ReferenceIdeal.Read
import proofs.«900708_g7700000000000709_dist_ar_v7x_xyz2x2x4_x_m8192_n1024_f32_1_alg».proof.Proof.Gen.Pre_finite_inputs_ReferenceIdeal

noncomputable section

namespace Cert.ReferenceIdeal.RefSide

open Idealize.ShloMosaic Idealize.ShloMosaic.TcCoe Idealize.SL.Sem

theorem frame : Cert.frame_ReferenceIdeal := fun m ρ _ =>
  (θ_run Cert.ReferenceIdeal.defs _ _).mono (fun _ h c => (h c).2) (Cert.ReferenceIdeal.Value.run (F := Ideal) m ρ)

end Cert.ReferenceIdeal.RefSide

end
-- ==== Proof.KI.Value.lean ====
/- Row by row, what a device ends with is the reference's sum of the two row-blocks. -/
import proofs.«900708_g7700000000000709_dist_ar_v7x_xyz2x2x4_x_m8192_n1024_f32_1_alg».proof.Proof.KI.Base
import proofs.«900708_g7700000000000709_dist_ar_v7x_xyz2x2x4_x_m8192_n1024_f32_1_alg».proof.Proof.KI.RefSide
import Idealize.ShloMosaic.Lib.Layout
import Idealize.ShloMosaic.Lib.ValueIdx
import Idealize.ShloMosaic.PureOps.Ideal.Laws
import Mathlib.Algebra.BigOperators.Fin

noncomputable section

namespace Cert.KernelIdeal.AR

open Cert.KernelIdeal
open Idealize.ShloMosaic Idealize.ShloMosaic.TcCoe Idealize.ShloMosaic.ValueIdx
open scoped BigOperators

def inBlk (b : Fin 2) (i : (⟨2, ![8192, 1024]⟩ : Shape).Idx) : (⟨2, ![16384, 1024]⟩ : Shape).Idx :=
  ix2 (⟨b.val * 8192 + (i 0).val, by have h0 := idx2_lt0 i; have hb := b.isLt; omega⟩ : Fin 16384)
    (⟨(i 1).val, idx2_lt1 i⟩ : Fin 1024)

def refVal (X' : (⟨2, ![16384, 1024]⟩ : Shape).Idx → Elt Ideal .f32) : (⟨2, ![8192, 1024]⟩ : Shape).Idx → Elt Ideal .f32 :=
  fun i => (show EReal from X' (inBlk 0 i)) + (show EReal from X' (inBlk 1 i))

theorem ref_idx (i : (⟨2, ![8192, 1024]⟩ : Shape).Idx) (k : Fin 2) :
    Cert.ReferenceIdeal.Read.idx_main_v0 (Cert.ReferenceIdeal.Read.idx_main_v1 i k) = inBlk k i := by
  have h1 := idx2_lt1 i
  funext a
  match a with
  | ⟨0, _⟩ =>
    refine Fin.ext ?_
    show ((k.val * 8192 + (i 0).val) * 1024 + (i 1).val) / 1024 = k.val * 8192 + (i 0).val
    omega
  | ⟨1, _⟩ =>
    refine Fin.ext ?_
    show ((k.val * 8192 + (i 0).val) * 1024 + (i 1).val) % 1024 = (i 1).val
    omega

theorem refTerm_eq (x0 : (⟨2, ![16384, 1024]⟩ : Shape).Idx → Elt Ideal .f32) :
    Host.reduceAdd (F := Ideal) (shapeCast _ x0 Cert.ReferenceIdeal.Gen.shapeCasts_S16384x1024_S2x8192x1024)
        (constant Cert.ReferenceIdeal.S_ .f32 0x00000000#32) Cert.ReferenceIdeal.Gen.reducesTo_S2x8192x1024_S8192x1024_d0
        Cert.ReferenceIdeal.Gen.h_S_
      = refVal x0 := by
  rw [Cert.ReferenceIdeal.Read.val_main_v1_eq]
  funext i
  rw [Cert.ReferenceIdeal.Read.val_main_v1_apply, Fin.sum_univ_two, Cert.ReferenceIdeal.Read.val_main_v0_apply,
    Cert.ReferenceIdeal.Read.val_main_v0_apply, Cert.ReferenceIdeal.Read.val_main_cst_apply, ref_idx, ref_idx]
  simp only [Ideal.ofBits_def, Ideal.ofBits_zero_f32]
  exact zero_add (M := EReal) _

theorem run_ref_eq (m' : (ℓ : Loc Cert.ReferenceIdeal.nD Cert.ReferenceIdeal.τ Cert.ReferenceIdeal.sig) → Buf (Elt Ideal) ℓ) :
    Host.reduceAdd (F := Ideal)
        (shapeCast _ (m' (((0 : Dev Cert.ReferenceIdeal.nD).tc : Thread Cert.ReferenceIdeal.nD Cert.ReferenceIdeal.τ).loc Cert.ReferenceIdeal.main_arg0))
          Cert.ReferenceIdeal.Gen.shapeCasts_S16384x1024_S2x8192x1024)
        (constant Cert.ReferenceIdeal.S_ .f32 0x00000000#32) Cert.ReferenceIdeal.Gen.reducesTo_S2x8192x1024_S8192x1024_d0
        Cert.ReferenceIdeal.Gen.h_S_
      = refVal (m' (((0 : Dev Cert.ReferenceIdeal.nD).tc : Thread Cert.ReferenceIdeal.nD Cert.ReferenceIdeal.τ).loc Cert.ReferenceIdeal.main_arg0)) :=
  refTerm_eq _

def blkF (d : Dev nD) : Fin 2 := ⟨blk d, blk_lt d⟩

theorem blkF_cases (s : Dev nD) : (blkF s = 0 ∧ blkF (xp s) = 1) ∨ (blkF s = 1 ∧ blkF (xp s) = 0) := by
  have h := blk_lt s
  have hx := blk_xp s
  rcases (by omega : blk s = 0 ∨ blk s = 1) with h0 | h1
  · exact Or.inl ⟨Fin.ext h0, Fin.ext (by show blk (xp s) = 1; omega)⟩
  · exact Or.inr ⟨Fin.ext h1, Fin.ext (by show blk (xp s) = 0; omega)⟩

theorem meshBlock_row (d : Dev nD) : ((Layout.meshBlock [2, 2, 4] ![[0], []] d) 0).val = blk d := by
  revert d; decide

theorem meshBlock_col (d : Dev nD) : ((Layout.meshBlock [2, 2, 4] ![[0], []] d) 1).val = 0 := rfl

theorem block_at (X' : (⟨2, ![16384, 1024]⟩ : Shape).Idx → Elt Ideal .f32) (d : Dev nD) (i : (⟨2, ![8192, 1024]⟩ : Shape).Idx) :
    (Layout.blockN ⟨2, ![8192, 1024]⟩ ⟨2, ![16384, 1024]⟩ (Layout.meshBlock [2, 2, 4] ![[0], []] d) X') i
      = X' (inBlk (blkF d) i) := by
  rw [Layout.blockN_apply]
  refine congrArg X' (funext fun a => Fin.ext ?_)
  rw [Layout.TilesN.idx_val]
  match a with
  | ⟨0, _⟩ =>
    show ((Layout.meshBlock [2, 2, 4] ![[0], []] d) 0).val * 8192 + (i 0).val = blk d * 8192 + (i 0).val
    rw [meshBlock_row]
  | ⟨1, _⟩ =>
    show ((Layout.meshBlock [2, 2, 4] ![[0], []] d) 1).val * 1024 + (i 1).val = (i 1).val
    rw [meshBlock_col, Nat.zero_mul, Nat.zero_add]

theorem outVal_eq_ref (m : (ℓ : Loc Cert.KernelIdeal.nD Cert.KernelIdeal.τ Cert.KernelIdeal.sig) → Buf (Elt Ideal) ℓ)
    (X' : (⟨2, ![16384, 1024]⟩ : Shape).Idx → Elt Ideal .f32)
    (hag : ∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 4] ![[0], []] c) X')
    (c : Dev Cert.KernelIdeal.nD) : outVal (F := Ideal) m c = refVal X' := by
  funext i
  have hX : ∀ d : Dev nD, X (F := Ideal) m d i = X' (inBlk (blkF d) i) := fun d =>
    (congrFun (hag d) i).trans (block_at X' d i)
  show FloatOps.addf (X (F := Ideal) m (xp (maker c (i 0))) i) (X (F := Ideal) m (maker c (i 0)) i) = refVal X' i
  rw [hX, hX]
  rcases blkF_cases (maker c (i 0)) with ⟨h0, h1⟩ | ⟨h0, h1⟩
  · rw [h0, h1]
    exact add_comm (G := EReal) _ _
  · rw [h0, h1]
    rfl

end Cert.KernelIdeal.AR

end
-- ==== Proof.KI.Claims.lean ====
/- The program's run with every device's result named, the frame, and the two claims about the idealized kernel. -/
import proofs.«900708_g7700000000000709_dist_ar_v7x_xyz2x2x4_x_m8192_n1024_f32_1_alg».proof.Proof.KI.Launch
import proofs.«900708_g7700000000000709_dist_ar_v7x_xyz2x2x4_x_m8192_n1024_f32_1_alg».proof.Proof.Gen.KernelIdeal.Points
import proofs.«900708_g7700000000000709_dist_ar_v7x_xyz2x2x4_x_m8192_n1024_f32_1_alg».proof.Proof.KI.Value
import proofs.«900708_g7700000000000709_dist_ar_v7x_xyz2x2x4_x_m8192_n1024_f32_1_alg».proof.Proof.KI.RefSide
import proofs.«900708_g7700000000000709_dist_ar_v7x_xyz2x2x4_x_m8192_n1024_f32_1_alg».proof.Proof.Gen.Pre_finite_inputs_Kernel

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev SB : Prop :=
  ∀ (c : Dev nD) (W₀ : Waits sig Unit) (Kt : PUnit → sProp 𝕄),
    iprop(Φ₀ m c ∗ owes (c : Thread nD τ) (O₀ c) W₀ ∗ (iprop(Φ₁ m c ∗ ∃ W, owes (c : Thread nD τ) 0 W) -∗ Kt ⟨⟩))
      ⊢ wp frame (wpE (defs₀ (F := F)) Variants.none (c : Thread nD τ) none) Set.univ
          (cc0_body (F := F) (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7) Kt

omit [FloatOps F] in

theorem bigSep_W (Φ : Fin cfg0.W → sProp 𝕄) : bigSep Finset.univ Φ = iprop(emp) := by
  rw [show (Finset.univ : Finset (Fin cfg0.W)) = ∅ from Finset.univ_eq_empty (α := Fin 0)]; exact bigSep_empty

theorem body_obligation_of (hsb : SB m) (c : Dev nD) :
    BodyObligation (dats (F := F) m 0 c) (defs₀ (F := F)) Variants.none () Set.univ := fun t => by
  rw [fin_N0 t]
  rw [bigSep_W, bigSep_W]
  rw [show (dats m 0 c).Φ t0_0.castSucc = Φ₀ m c from rfl, show (dats m 0 c).Φ t0_0.succ = Φ₁ m c from rfl]
  have hp : defs₀ (F := F) Proc.tc cfg0.body (cfg0.bodyArgs t0_0 (cfg0.slots t0_0)) = bodyAt0 (F := F) t0_0 := rfl
  rw [hp]
  unfold Dat.owesAt Pipeline.owesWithin
  iintro ⟨HΦ, ⟨%W, %hW, HO⟩, -⟩
  iapply (hsb c W _)
  isplitl [HΦ]; · iexact HΦ
  isplitl [HO]; · iexact HO
  iintro ⟨H1, ⟨%W', HO'⟩⟩
  isplitl [H1]; · iexact H1
  isplitl [HO']
  · iexists W'
    isplitr; · ipureintro; exact fun _ _ => Or.inl (Set.mem_univ _)
    iexact HO'
  · iempintro

theorem run_of (hsb : SB m) (ρ : Dev nD → PrngReg) :
    θ_run defs (onTc (τ := τ) (main (F := F))) ⟨m, fun _ => 0, ρ⟩
      (fun r => ∀ c : Dev nD, r.2.mem ((c.tc : Thread nD τ).loc main_v1) = outVal m c
        ∧ r.2.mem ((c.tc : Thread nD τ).loc main_arg0) = m ((c.tc : Thread nD τ).loc main_arg0)) :=
  run_main m ρ (body_obligation_of m hsb)

theorem run_frame (hsb : SB m) (ρ : Dev nD → PrngReg) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run defs _ _).mono (fun _ h c => (h c).2) (run_of m hsb ρ)

end Cert.KernelIdeal.AR

namespace Cert.KernelIdeal.ARClaims

open Cert.KernelIdeal Cert.KernelIdeal.AR
open Idealize.ShloMosaic Idealize.ShloMosaic.TcCoe Idealize.SL.Sem

theorem frame_ki (hsb : ∀ m : (ℓ : Loc nD τ sig) → Buf (Elt Ideal) ℓ, SB (F := Ideal) m) : Cert.frame_KernelIdeal :=
  fun m ρ _ => run_frame m (hsb m) ρ

theorem algebraic_ki (hsb : ∀ m : (ℓ : Loc nD τ sig) → Buf (Elt Ideal) ℓ, SB (F := Ideal) m) :
    Cert.algebraic_KernelIdeal_ReferenceIdeal := by
  intro m ρ m' ρ' _ hagree
  refine ⟨refVal (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h c).1.trans (outVal_eq_ref m _ hagree c), (h c).2⟩)
      (run_of m (hsb m) ρ)
  · refine (θ_run Cert.ReferenceIdeal.defs _ _).mono (fun _ h => ?_) (Cert.ReferenceIdeal.Value.run (F := Ideal) m' ρ')
    have h0 := (h 0).1
    rw [run_ref_eq] at h0
    exact ⟨h0, (h 0).2⟩

end Cert.KernelIdeal.ARClaims

end
-- ==== Proof.K.Base.lean ====
import proofs.«900708_g7700000000000709_dist_ar_v7x_xyz2x2x4_x_m8192_n1024_f32_1_alg».proof.Proof.Gen.Kernel
import Idealize.ShloMosaic.Lib.ValueIdx

noncomputable section

namespace Cert.Kernel.AR

open Cert.Kernel Cert.Kernel.Gen
open Idealize.ShloMosaic Idealize.ShloMosaic.TcCoe Idealize.ShloMosaic.ValueIdx

variable {F : FTy → Type} [FloatOps F]

def xp (c : Dev nD) : Dev nD := ⟨(4 * ((c.val / 4) % 2) + (c.val % 4) + 8) - 8 * (c.val / 8), by show _ < 16; have h : c.val < 16 := c.isLt; omega⟩

def yp (c : Dev nD) : Dev nD := ⟨(8 * (c.val / 8) + (c.val % 4) + 4) - 4 * ((c.val / 4) % 2), by show _ < 16; have h : c.val < 16 := c.isLt; omega⟩

theorem xp_xp (c : Dev nD) : xp (xp c) = c := by revert c; decide
theorem yp_yp (c : Dev nD) : yp (yp c) = c := by revert c; decide
def half (c : Dev nD) : ℕ := (c.val / 4) % 2
theorem half_lt (c : Dev nD) : half c < 2 := Nat.mod_lt _ (by decide)
theorem half_xp (c : Dev nD) : half (xp c) = half c := by revert c; decide
theorem half_yp (c : Dev nD) : half (yp c) = 1 - half c := by revert c; decide

def blk (c : Dev nD) : ℕ := c.val / 8
theorem blk_lt (c : Dev nD) : blk c < 2 := by have h : c.val < 16 := c.isLt; unfold blk; omega
theorem blk_xp (c : Dev nD) : blk (xp c) = 1 - blk c := by revert c; decide
def row (c : Dev nD) (k : Fin 32) (r : Fin 128) : Fin 8192 :=
  ⟨4096 * half c + 128 * k.val + r.val, by have := half_lt c; have := k.isLt; have := r.isLt; omega⟩

variable (m : (ℓ : Loc nD τ sig) → Buf (Elt F) ℓ)

def X (d : Dev nD) : FVec F S8192x1024 .f32 := m ((d : Thread nD τ).loc main_arg0)

def vxIn (c : Dev nD) : FVec F S32x128x1024 .f32 := fun j => X m c (ix2 (row c (j 0) (j 1)) (j 2))

def vrIn (c : Dev nD) : FVec F S32x128x1024 .f32 := fun j => X m (xp c) (ix2 (row c (j 0) (j 1)) (j 2))

def vrSum (c : Dev nD) : FVec F S32x128x1024 .f32 := addf (vrIn m c) (vxIn m c)

def maker (c : Dev nD) (r : Fin 8192) : Dev nD := if r.val / 4096 = half c then c else yp c

def outVal (c : Dev nD) : FVec F S8192x1024 .f32 :=
  fun i => FloatOps.addf (X m (xp (maker c (i 0))) i) (X m (maker c (i 0)) i)

end Cert.Kernel.AR

end
-- ==== Proof.K.Cells.lean ====
import proofs.«900708_g7700000000000709_dist_ar_v7x_xyz2x2x4_x_m8192_n1024_f32_1_alg».proof.Proof.K.Base
import proofs.«900708_g7700000000000709_dist_ar_v7x_xyz2x2x4_x_m8192_n1024_f32_1_alg».proof.Proof.Gen.Kernel.Skeleton
import proofs.«900708_g7700000000000709_dist_ar_v7x_xyz2x2x4_x_m8192_n1024_f32_1_alg».proof.Proof.Gen.Kernel.Launch
import Idealize.ShloMosaic.Lib.Pipeline.Launch
import Idealize.ShloMosaic.Lib.Pipeline.Kit

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

abbrev EP : Emb (UR sig nD τ) (MT nD τ sig Unit (Elt F) ℕ UU ℕ) := embL
abbrev ER : Emb UB (MT nD τ sig Unit (Elt F) ℕ UU ℕ) := embR

theorem inb1 (k : Fin 32) : ∀ a, (![k.val] : Fin 1 → Nat) a + S1.size a ≤ S32.size a := by
  intro a; have hk := k.isLt
  match a with | ⟨0, _⟩ => show k.val + 1 ≤ 32; omega
theorem inb3 (k : Fin 32) : ∀ a, (![k.val, 0, 0] : Fin 3 → Nat) a + S1x128x1024.size a ≤ S32x128x1024.size a := by
  intro a; have hk := k.isLt
  match a with
  | ⟨0, _⟩ => show k.val + 1 ≤ 32; omega
  | ⟨1, _⟩ => show 0 + 128 ≤ 128; omega
  | ⟨2, _⟩ => show 0 + 1024 ≤ 1024; omega

abbrev vrSl (k : Fin 32) : Memref sig .tc .vmem S128x1024 .f32 :=
  ((Memref.whole cc0_scratch0).slice (Rect.unit (s := S32x128x1024) ![k.val, 0, 0] S1x128x1024.size (inb3 k)) (fun _ => rfl)).squeeze S128x1024 squeezes_S1x128x1024_S128x1024

abbrev vxSl (k : Fin 32) : Memref sig .tc .vmem S128x1024 .f32 :=
  ((Memref.whole cc0_scratch1).slice (Rect.unit (s := S32x128x1024) ![k.val, 0, 0] S1x128x1024.size (inb3 k)) (fun _ => rfl)).squeeze S128x1024 squeezes_S1x128x1024_S128x1024

abbrev xSl (c : Dev nD) (k : Fin 32) : Memref sig .tc .hbm S128x1024 .f32 :=
  (Memref.whole main_arg0).slice (Rect.unit (s := S8192x1024) (k0_off1 c (BitVec.ofNat 32 (128 * k.val))) S128x1024.size (k0_off1_inb c k)) (fun _ => rfl)

abbrev oSl (c : Dev nD) (k : Fin 32) : Memref sig .tc .hbm S128x1024 .f32 :=
  (Memref.whole main_v1).slice (Rect.unit (s := S8192x1024) (k0_off1 c (BitVec.ofNat 32 (128 * k.val))) S128x1024.size (k0_off1_inb c k)) (fun _ => rfl)

abbrev semOf (a : DmaSems sig S32) (k : Fin 32) : DmaSem sig :=
  ((a.slice (Rect.unit (s := S32) ![k.val] S1.size (inb1 k))).squeeze S_ squeezes_S1_S_).sem

abbrev xsSem (k : Fin 32) : DmaSem sig := semOf cc0_scratch2 k

abbrev xrSem (k : Fin 32) : DmaSem sig := semOf cc0_scratch3 k

abbrev ysSem (k : Fin 32) : DmaSem sig := semOf cc0_scratch4 k

abbrev yrSem (k : Fin 32) : DmaSem sig := semOf cc0_scratch5 k

abbrev ldSem (k : Fin 32) : DmaSem sig := semOf cc0_scratch6 k

abbrev stSem (k : Fin 32) : DmaSem sig := semOf cc0_scratch7 k

abbrev barS : Sem sig := (SemArray.scalar (sig.barrier 0 rfl) : Sems sig S_).sem

abbrev barCell (c : Dev nD) : GSem nD τ sig := ((c : Thread nD τ), .reg barS)
abbrev xsCell (c : Dev nD) (k : Fin 32) : GSem nD τ sig := ((c : Thread nD τ), .dma (xsSem k))
abbrev xrCell (c : Dev nD) (k : Fin 32) : GSem nD τ sig := ((c : Thread nD τ), .dma (xrSem k))
abbrev ysCell (c : Dev nD) (k : Fin 32) : GSem nD τ sig := ((c : Thread nD τ), .dma (ysSem k))
abbrev yrCell (c : Dev nD) (k : Fin 32) : GSem nD τ sig := ((c : Thread nD τ), .dma (yrSem k))
abbrev ldCell (c : Dev nD) (k : Fin 32) : GSem nD τ sig := ((c : Thread nD τ), .dma (ldSem k))
abbrev stCell (c : Dev nD) (k : Fin 32) : GSem nD τ sig := ((c : Thread nD τ), .dma (stSem k))

abbrev N : ℕ := (vrSl 0).view.dmaCredit
theorem N_pos : 0 < N := View.dmaCredit_pos _ (by decide)

end Cert.Kernel.AR

end
-- ==== Proof.K.Sched.lean ====
import proofs.«900708_g7700000000000709_dist_ar_v7x_xyz2x2x4_x_m8192_n1024_f32_1_alg».proof.Proof.K.Cells

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def fam (s : DmaSem sig) : ℕ := s.val / 32
def chunk (s : DmaSem sig) : Fin 32 := ⟨s.val % 32, Nat.mod_lt _ (by decide)⟩

theorem xs_val : ∀ k : Fin 32, (xsSem k).val = k.val := by decide
theorem xr_val : ∀ k : Fin 32, (xrSem k).val = 32 + k.val := by decide
theorem ys_val : ∀ k : Fin 32, (ysSem k).val = 64 + k.val := by decide
theorem yr_val : ∀ k : Fin 32, (yrSem k).val = 96 + k.val := by decide
theorem ld_val : ∀ k : Fin 32, (ldSem k).val = 128 + k.val := by decide
theorem st_val : ∀ k : Fin 32, (stSem k).val = 160 + k.val := by decide

theorem fam_xs (k : Fin 32) : fam (xsSem k) = 0 := by unfold fam; rw [xs_val]; have := k.isLt; omega
theorem fam_xr (k : Fin 32) : fam (xrSem k) = 1 := by unfold fam; rw [xr_val]; have := k.isLt; omega
theorem fam_ys (k : Fin 32) : fam (ysSem k) = 2 := by unfold fam; rw [ys_val]; have := k.isLt; omega
theorem fam_yr (k : Fin 32) : fam (yrSem k) = 3 := by unfold fam; rw [yr_val]; have := k.isLt; omega
theorem fam_ld (k : Fin 32) : fam (ldSem k) = 4 := by unfold fam; rw [ld_val]; have := k.isLt; omega
theorem fam_st (k : Fin 32) : fam (stSem k) = 5 := by unfold fam; rw [st_val]; have := k.isLt; omega
theorem chunk_xs (k : Fin 32) : chunk (xsSem k) = k := Fin.ext (by show (xsSem k).val % 32 = k.val; rw [xs_val]; have := k.isLt; omega)
theorem chunk_xr (k : Fin 32) : chunk (xrSem k) = k := Fin.ext (by show (xrSem k).val % 32 = k.val; rw [xr_val]; have := k.isLt; omega)
theorem chunk_ys (k : Fin 32) : chunk (ysSem k) = k := Fin.ext (by show (ysSem k).val % 32 = k.val; rw [ys_val]; have := k.isLt; omega)
theorem chunk_yr (k : Fin 32) : chunk (yrSem k) = k := Fin.ext (by show (yrSem k).val % 32 = k.val; rw [yr_val]; have := k.isLt; omega)
theorem chunk_ld (k : Fin 32) : chunk (ldSem k) = k := Fin.ext (by show (ldSem k).val % 32 = k.val; rw [ld_val]; have := k.isLt; omega)
theorem chunk_st (k : Fin 32) : chunk (stSem k) = k := Fin.ext (by show (stSem k).val % 32 = k.val; rw [st_val]; have := k.isLt; omega)

def vxC (c : Dev nD) (k : Fin 32) : Buf (Elt F) ((vxSl k).view.loc (c : Thread nD τ)) := vxIn m c
def vrC (c : Dev nD) (k : Fin 32) : Buf (Elt F) ((vrSl k).view.loc (c : Thread nD τ)) := vrIn m c
def vsC (c : Dev nD) (k : Fin 32) : Buf (Elt F) ((vrSl k).view.loc (c : Thread nD τ)) := vrSum m c

def oC (c s : Dev nD) (k : Fin 32) : Buf (Elt F) ((oSl s k).view.loc (c : Thread nD τ)) := outVal m c
def xC (c : Dev nD) (k : Fin 32) : Buf (Elt F) ((xSl c k).view.loc (c : Thread nD τ)) := X m c

def dmaPay (c : Dev nD) (s : DmaSem sig) : sProp 𝕄 :=
  if fam s = 0 then ((vxSl (chunk s)).view.loc (c : Thread nD τ) ↦[(vxSl (chunk s)).view.set]{fullShare.left} vxC m c (chunk s))
  else if fam s = 1 then ((vrSl (chunk s)).view.loc (c : Thread nD τ) ↦[(vrSl (chunk s)).view.set]{fullShare} vrC m c (chunk s))
  else if fam s = 2 then ((vrSl (chunk s)).view.loc (c : Thread nD τ) ↦[(vrSl (chunk s)).view.set]{fullShare.left} vsC m c (chunk s))
  else if fam s = 3 then ((oSl (yp c) (chunk s)).view.loc (c : Thread nD τ) ↦[(oSl (yp c) (chunk s)).view.set]{fullShare} oC m c (yp c) (chunk s))
  else if fam s = 4 then iprop(((vxSl (chunk s)).view.loc (c : Thread nD τ) ↦[(vxSl (chunk s)).view.set]{fullShare} vxC m c (chunk s))
      ∗ ((xSl c (chunk s)).view.loc (c : Thread nD τ) ↦[(xSl c (chunk s)).view.set]{fullShare} xC m c (chunk s)))
  else iprop(((oSl c (chunk s)).view.loc (c : Thread nD τ) ↦[(oSl c (chunk s)).view.set]{fullShare} oC m c c (chunk s))
      ∗ ((vrSl (chunk s)).view.loc (c : Thread nD τ) ↦[(vrSl (chunk s)).view.set]{fullShare.right} vsC m c (chunk s)))

def barPayX (o : Dev nD) : sProp 𝕄 :=
  bigSep Finset.univ fun k : Fin 32 =>
    iprop((∃ f, ((vrSl k).view.loc (xp o : Thread nD τ) ↦[(vrSl k).view.set]{fullShare} f)) ∗ reached ER (xrCell (xp o) k) 0)

def barPayY (o : Dev nD) : sProp 𝕄 :=
  bigSep Finset.univ fun k : Fin 32 =>
    iprop((∃ f, ((oSl o k).view.loc (yp o : Thread nD τ) ↦[(oSl o k).view.set]{fullShare} f)) ∗ reached ER (yrCell (yp o) k) 0)

def Rd : Rounds.Schedule (GSem nD τ sig) Bool 𝕄 where
  duties g r := if r = 0 ∧ g.1.2 = .tc then (match g.2 with | .reg _ => Finset.univ | .dma _ => {false}) else ∅
  amount g _ _ := match g.2 with | .reg _ => 1 | .dma _ => N
  payload g _ d := match g.2 with
    | .reg _ => if d then barPayY g.1.1 else barPayX g.1.1
    | .dma s => dmaPay m g.1.1 s
  amount_pos g _ _ _ := by
    cases g.2 with
    | reg _ => exact Nat.one_pos
    | dma _ => exact N_pos

section Tables
variable (c : Dev nD) (s : DmaSem sig) (k : Fin 32)

theorem duties_bar : (Rd (F := F) m).duties (barCell c) 0 = Finset.univ := by dsimp only [Rd]; exact if_pos ⟨rfl, rfl⟩
theorem duties_dma : (Rd (F := F) m).duties ((c : Thread nD τ), .dma s) 0 = {false} := by dsimp only [Rd]; exact if_pos ⟨rfl, rfl⟩
theorem duties_later (g : GSem nD τ sig) : ∀ r, 1 ≤ r → (Rd (F := F) m).duties g r = ∅ :=
  fun r hr => by dsimp only [Rd]; exact if_neg fun h => by omega

theorem amount_bar (d : Bool) : (Rd (F := F) m).amount (barCell c) 0 d = 1 := rfl
theorem amount_dma (d : Bool) : (Rd (F := F) m).amount ((c : Thread nD τ), .dma s) 0 d = N := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (Rd (F := F) m).expect ((c : Thread nD τ), .dma s) 0 = N := by
  unfold Schedule.expect Schedule.amountOf; rw [duties_dma, Finset.sum_singleton, amount_dma]

theorem payload_bar_false : (Rd (F := F) m).payload (barCell c) 0 false = barPayX c := rfl
theorem payload_bar_true : (Rd (F := F) m).payload (barCell c) 0 true = barPayY c := rfl
theorem payload_dma (d : Bool) : (Rd (F := F) m).payload ((c : Thread nD τ), .dma s) 0 d = dmaPay m c s := rfl

theorem dmaPay_xs : dmaPay m c (xsSem k) = ((vxSl k).view.loc (c : Thread nD τ) ↦[(vxSl k).view.set]{fullShare.left} vxC m c k : sProp 𝕄) := by
  unfold dmaPay; rw [if_pos (fam_xs k), chunk_xs]
theorem dmaPay_xr : dmaPay m c (xrSem k) = ((vrSl k).view.loc (c : Thread nD τ) ↦[(vrSl k).view.set]{fullShare} vrC m c k : sProp 𝕄) := by
  unfold dmaPay; rw [if_neg (by rw [fam_xr]; decide), if_pos (fam_xr k), chunk_xr]
theorem dmaPay_ys : dmaPay m c (ysSem k) = ((vrSl k).view.loc (c : Thread nD τ) ↦[(vrSl k).view.set]{fullShare.left} vsC m c k : sProp 𝕄) := by
  unfold dmaPay; rw [if_neg (by rw [fam_ys]; decide), if_neg (by rw [fam_ys]; decide), if_pos (fam_ys k), chunk_ys]
theorem dmaPay_yr : dmaPay m c (yrSem k) = ((oSl (yp c) k).view.loc (c : Thread nD τ) ↦[(oSl (yp c) k).view.set]{fullShare} oC m c (yp c) k : sProp 𝕄) := by
  unfold dmaPay; rw [if_neg (by rw [fam_yr]; decide), if_neg (by rw [fam_yr]; decide), if_neg (by rw [fam_yr]; decide), if_pos (fam_yr k), chunk_yr]
theorem dmaPay_ld : dmaPay m c (ldSem k) = (iprop(((vxSl k).view.loc (c : Thread nD τ) ↦[(vxSl k).view.set]{fullShare} vxC m c k)
      ∗ ((xSl c k).view.loc (c : Thread nD τ) ↦[(xSl c k).view.set]{fullShare} xC m c k)) : sProp 𝕄) := by
  unfold dmaPay; rw [if_neg (by rw [fam_ld]; decide), if_neg (by rw [fam_ld]; decide), if_neg (by rw [fam_ld]; decide), if_neg (by rw [fam_ld]; decide), if_pos (fam_ld k), chunk_ld]
theorem dmaPay_st : dmaPay m c (stSem k) = (iprop(((oSl c k).view.loc (c : Thread nD τ) ↦[(oSl c k).view.set]{fullShare} oC m c c k)
      ∗ ((vrSl k).view.loc (c : Thread nD τ) ↦[(vrSl k).view.set]{fullShare.right} vsC m c k)) : sProp 𝕄) := by
  unfold dmaPay; rw [if_neg (by rw [fam_st]; decide), if_neg (by rw [fam_st]; decide), if_neg (by rw [fam_st]; decide), if_neg (by rw [fam_st]; decide), if_neg (by rw [fam_st]; decide), chunk_st]

theorem rest_dma : bigSep ((Rd (F := F) m).duties ((c : Thread nD τ), .dma s) 0 \ ∅) (fun d => (Rd (F := F) m).payload ((c : Thread nD τ), .dma s) 0 d) = dmaPay m c s := by
  rw [Finset.sdiff_empty, duties_dma, bigSep_singleton, payload_dma]

theorem rest_bar : bigSep ((Rd (F := F) m).duties (barCell c) 0 \ ∅) (fun d => (Rd (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl

end Tables

instance Rd_payload_storable (g : GSem nD τ sig) (r : ℕ) (d : Bool) :
    BI.Storable (upEmb : UEmb _ 𝕄) ((Rd (F := F) m).payload g r d) := by
  obtain ⟨t, sm⟩ := g
  cases sm with
  | reg _ =>
    show BI.Storable upEmb (if d then barPayY t.1 else barPayX t.1)
    unfold barPayY barPayX
    split <;> infer_instance
  | dma s =>
    show BI.Storable upEmb (dmaPay m t.1 s)
    unfold dmaPay
    (repeat' split) <;> infer_instance

end Cert.Kernel.AR

end
-- ==== Proof.K.Owes.lean ====
import proofs.«900708_g7700000000000709_dist_ar_v7x_xyz2x2x4_x_m8192_n1024_f32_1_alg».proof.Proof.K.Sched

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (add_pos_cases sum_pos_exists mayWait_of_levAts)

variable {F : FTy → Type} [FloatOps F]

local notation "𝕄" => MT nD τ sig Unit (Elt F) ℕ UU ℕ

def rem (j : ℕ) : Finset (Fin 32) := Finset.univ.filter fun k => j ≤ k.val

theorem rem_zero : rem 0 = Finset.univ := by unfold rem; exact Finset.filter_true_of_mem fun _ _ => Nat.zero_le _
theorem rem_32 : rem 32 = ∅ := by
  unfold rem; exact Finset.filter_false_of_mem fun k _ => by have := k.isLt; omega
theorem not_mem_rem_succ (k : Fin 32) : k ∉ rem (k.val + 1) := by
  unfold rem; rw [Finset.mem_filter]; exact fun h => by omega
theorem rem_step (k : Fin 32) : rem k.val = insert k (rem (k.val + 1)) := by
  unfold rem; ext a
  rw [Finset.mem_filter, Finset.mem_insert, Finset.mem_filter]
  constructor
  · rintro ⟨_, h⟩
    by_cases e : a = k
    · exact Or.inl e
    · exact Or.inr ⟨Finset.mem_univ _, by have : a.val ≠ k.val := fun h' => e (Fin.ext h'); omega⟩
  · rintro (rfl | ⟨_, h⟩)
    · exact ⟨Finset.mem_univ _, le_refl _⟩
    · exact ⟨Finset.mem_univ _, by omega⟩

def OX (c : Dev nD) (j : ℕ) : CellTallies nD τ sig Unit := ∑ k ∈ rem j, tallyAt (xrCell (xp c) k) () N

def OY (c : Dev nD) (j : ℕ) : CellTallies nD τ sig Unit := ∑ k ∈ rem j, tallyAt (yrCell (yp c) k) () N

theorem OX_step (c : Dev nD) (k : Fin 32) : OX c k.val = OX c (k.val + 1) + tallyAt (xrCell (xp c) k) () N := by
  unfold OX; rw [rem_step k, Finset.sum_insert (not_mem_rem_succ k), add_comm]
theorem OY_step (c : Dev nD) (k : Fin 32) : OY c k.val = OY c (k.val + 1) + tallyAt (yrCell (yp c) k) () N := by
  unfold OY; rw [rem_step k, Finset.sum_insert (not_mem_rem_succ k), add_comm]
theorem OX_32 (c : Dev nD) : OX c 32 = 0 := by unfold OX; rw [rem_32, Finset.sum_empty]
theorem OY_32 (c : Dev nD) : OY c 32 = 0 := by unfold OY; rw [rem_32, Finset.sum_empty]

def O₀ (c : Dev nD) : CellTallies nD τ sig Unit :=
  OY c 0 + OX c 0 + tallyAt (barCell (yp c)) () 1 + tallyAt (barCell (xp c)) () 1

theorem tally_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

theorem OX_pos {c : Dev nD} {j : ℕ} {g : GSem nD τ sig} {u : Unit} (h : 0 < OX c j g u) : ∃ k : Fin 32, g = xrCell (xp c) k := by
  obtain ⟨k, _, hk⟩ := sum_pos_exists h
  exact ⟨k, tally_pos hk⟩
theorem OY_pos {c : Dev nD} {j : ℕ} {g : GSem nD τ sig} {u : Unit} (h : 0 < OY c j g u) : ∃ k : Fin 32, g = yrCell (yp c) k := by
  obtain ⟨k, _, hk⟩ := sum_pos_exists h
  exact ⟨k, tally_pos hk⟩

def L (g : GSem nD τ sig) : Finset Unit := if g.1.2 = .tc then {()} else ∅
def lv (g : GSem nD τ sig) (_ : Unit) : ℕ :=
  match g.2 with
  | .reg _ => 1
  | .dma s => if fam s = 1 then 2 else if fam s = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) (u : Unit) : u ∈ L ((c : Thread nD τ), sm) := by rw [L_tc]; exact Finset.mem_singleton_self _

theorem lv_xr (c : Dev nD) (k : Fin 32) (u : Unit) : lv (xrCell c k) u = 2 := by
  show (if fam (xrSem k) = 1 then 2 else if fam (xrSem k) = 3 then 3 else 0) = 2; rw [if_pos (fam_xr k)]
theorem lv_yr (c : Dev nD) (k : Fin 32) (u : Unit) : lv (yrCell c k) u = 3 := by
  show (if fam (yrSem k) = 1 then 2 else if fam (yrSem k) = 3 then 3 else 0) = 3; rw [if_neg (by rw [fam_yr]; decide), if_pos (fam_yr k)]
theorem lv_own (c : Dev nD) (s : DmaSem sig) (h1 : fam s ≠ 1) (h3 : fam s ≠ 3) (u : Unit) : lv ((c : Thread nD τ), .dma s) u = 0 := by
  show (if fam s = 1 then 2 else if fam s = 3 then 3 else 0) = 0; rw [if_neg h1, if_neg h3]

theorem mayWait_own (c : Dev nD) (s : DmaSem sig) (h1 : fam s ≠ 1) (h3 : fam s ≠ 3) (jy jx : ℕ) :
    (levAts L lv : sProp 𝕄) ⊢ MayWait (c : Thread nD τ) (.dma s) () (OY c jy + OX c jx) :=
  mayWait_of_levAts (mem_L_tc c _ ()) fun g u hg => by
    rw [lv_own c s h1 h3]
    rcases add_pos_cases hg with h | h
    · obtain ⟨k, rfl⟩ := OY_pos h; exact ⟨mem_L_tc _ _ u, by rw [lv_yr]; decide⟩
    · obtain ⟨k, rfl⟩ := OX_pos h; exact ⟨mem_L_tc _ _ u, by rw [lv_xr]; decide⟩

theorem mayWait_bar (c : Dev nD) : (levAts L lv : sProp 𝕄) ⊢ MayWait (c : Thread nD τ) (.reg barS) () (OY c 0 + OX c 0) :=
  mayWait_of_levAts (mem_L_tc c _ ()) fun g u hg => by
    rw [show lv ((c : Thread nD τ), .reg barS) () = 1 from rfl]
    rcases add_pos_cases hg with h | h
    · obtain ⟨k, rfl⟩ := OY_pos h; exact ⟨mem_L_tc _ _ u, by rw [lv_yr]; decide⟩
    · obtain ⟨k, rfl⟩ := OX_pos h; exact ⟨mem_L_tc _ _ u, by rw [lv_xr]; decide⟩

theorem mayWait_xr (c : Dev nD) (k : Fin 32) (jy : ℕ) :
    (levAts L lv : sProp 𝕄) ⊢ MayWait (c : Thread nD τ) (.dma (xrSem k)) () (OY c jy) :=
  mayWait_of_levAts (mem_L_tc c _ ()) fun g u hg => by
    rw [show lv ((c : Thread nD τ), .dma (xrSem k)) () = 2 from lv_xr c k ()]
    obtain ⟨k', rfl⟩ := OY_pos hg; exact ⟨mem_L_tc _ _ u, by rw [lv_yr]; decide⟩

end Cert.Kernel.AR

end
-- ==== Proof.K.Inv.lean ====
import proofs.«900708_g7700000000000709_dist_ar_v7x_xyz2x2x4_x_m8192_n1024_f32_1_alg».proof.Proof.K.Owes

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev kcell (ck : Dev nD × SemLoc sig) : GSem nD τ sig := ((ck.1 : Thread nD τ), ck.2)

def invs (K : Dev nD × SemLoc sig → ℕ) (c : Dev nD) : sProp 𝕄 :=
  iprop((bigSep Finset.univ fun sm : SemLoc sig => cellInv ER (Rd m) (K (c, sm)) (kcell (c, sm)))
    ∗ cellInv ER (Rd m) (K (xp c, .reg barS)) (barCell (xp c)) ∗ cellInv ER (Rd m) (K (yp c, .reg barS)) (barCell (yp c))
    ∗ (bigSep Finset.univ fun k : Fin 32 => cellInv ER (Rd m) (K (xp c, .dma (xrSem k))) (xrCell (xp c) k))
    ∗ (bigSep Finset.univ fun k : Fin 32 => cellInv ER (Rd m) (K (yp c, .dma (yrSem k))) (yrCell (yp c) k)))

instance invs_persistent (K : Dev nD × SemLoc sig → ℕ) (c : Dev nD) : BI.Persistent (invs m K c) := by unfold invs; infer_instance

def reaches (c : Dev nD) : sProp 𝕄 :=
  iprop((bigSep Finset.univ fun sm : SemLoc sig => reached ER (kcell (c, sm)) 0)
    ∗ reached ER (barCell (xp c)) 0 ∗ reached ER (barCell (yp c)) 0
    ∗ (bigSep Finset.univ fun k : Fin 32 => reached ER (xrCell (xp c) k) 0)
    ∗ (bigSep Finset.univ fun k : Fin 32 => reached ER (yrCell (yp c) k) 0))

instance reaches_persistent (c : Dev nD) : BI.Persistent (reaches (F := F) c) := by unfold reaches; infer_instance

def payToks (c : Dev nD) : sProp 𝕄 :=
  iprop(dutyTok ER (barCell (xp c)) 0 false ∗ dutyTok ER (barCell (yp c)) 0 true
    ∗ (bigSep Finset.univ fun k : Fin 32 => dutyTok ER (xrCell (xp c) k) 0 false)
    ∗ (bigSep Finset.univ fun k : Fin 32 => dutyTok ER (yrCell (yp c) k) 0 false)
    ∗ (bigSep Finset.univ fun k : Fin 32 => iprop(dutyTok ER (xsCell c k) 0 false ∗ dutyTok ER (ysCell c k) 0 false
        ∗ dutyTok ER (ldCell c k) 0 false ∗ dutyTok ER (stCell c k) 0 false)))

def ghost (K : Dev nD × SemLoc sig → ℕ) (c : Dev nD) : sProp 𝕄 :=
  iprop(invs m K c ∗ reaches c ∗ (bigSep Finset.univ fun sm : SemLoc sig => atPos ER (kcell (c, sm)) 0 ∅ 0) ∗ payToks c)

def creds (c : Dev nD) : sProp 𝕄 :=
  iprop(cred (tallyAt (barCell c) () 2)
    ∗ (bigSep Finset.univ fun k : Fin 32 => cred (tallyAt (xrCell c k) () N))
    ∗ (bigSep Finset.univ fun k : Fin 32 => cred (tallyAt (yrCell c k) () N)))

def start (c : Dev nD) : sProp 𝕄 := iprop((∃ K, ghost m K c) ∗ creds c ∗ levAts L lv)

def argC (c : Dev nD) : Buf (Elt F) ((c : Thread nD τ).loc main_arg0) := X m c

def outC (c : Dev nD) : Buf (Elt F) ((c : Thread nD τ).loc main_v1) := outVal m c

def Φ₀ (c : Dev nD) : sProp 𝕄 :=
  iprop(start m c
    ∗ (((c : Thread nD τ).loc main_arg0) ↦{fullShare} argC m c)
    ∗ (∃ f, ((c : Thread nD τ).loc main_v1) ↦{fullShare} f)
    ∗ (∃ f, ((c : Thread nD τ).loc cc0_scratch0) ↦{fullShare} f)
    ∗ (∃ f, ((c : Thread nD τ).loc cc0_scratch1) ↦{fullShare} f))

def Φ₁ (c : Dev nD) : sProp 𝕄 :=
  iprop((((c : Thread nD τ).loc main_arg0) ↦{fullShare} argC m c)
    ∗ (((c : Thread nD τ).loc main_v1) ↦{fullShare} outC m c)
    ∗ (∃ f, ((c : Thread nD τ).loc cc0_scratch0) ↦{fullShare} f)
    ∗ (∃ f, ((c : Thread nD τ).loc cc0_scratch1) ↦{fullShare} f)
    ∗ (bigSep Finset.univ fun s : DmaSem sig => semVal ((c : Thread nD τ), .dma s) 0))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.AR

end
-- ==== Proof.K.Bundle.lean ====
import proofs.«900708_g7700000000000709_dist_ar_v7x_xyz2x2x4_x_m8192_n1024_f32_1_alg».proof.Proof.K.Inv

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def chunkInv (K : Dev nD × SemLoc sig → ℕ) (c : Dev nD) (k : Fin 32) : sProp 𝕄 :=
  iprop(cellInv ER (Rd m) (K (c, .dma (xsSem k))) (xsCell c k) ∗ cellInv ER (Rd m) (K (c, .dma (xrSem k))) (xrCell c k)
    ∗ cellInv ER (Rd m) (K (c, .dma (ysSem k))) (ysCell c k) ∗ cellInv ER (Rd m) (K (c, .dma (yrSem k))) (yrCell c k)
    ∗ cellInv ER (Rd m) (K (c, .dma (ldSem k))) (ldCell c k) ∗ cellInv ER (Rd m) (K (c, .dma (stSem k))) (stCell c k)
    ∗ cellInv ER (Rd m) (K (xp c, .dma (xrSem k))) (xrCell (xp c) k) ∗ cellInv ER (Rd m) (K (yp c, .dma (yrSem k))) (yrCell (yp c) k)
    ∗ reached ER (xsCell c k) 0 ∗ reached ER (xrCell c k) 0 ∗ reached ER (ysCell c k) 0 ∗ reached ER (yrCell c k) 0
    ∗ reached ER (ldCell c k) 0 ∗ reached ER (stCell c k) 0 ∗ reached ER (xrCell (xp c) k) 0 ∗ reached ER (yrCell (yp c) k) 0)

instance chunkInv_persistent (K : Dev nD × SemLoc sig → ℕ) (c : Dev nD) (k : Fin 32) : BI.Persistent (chunkInv m K c k) := by
  unfold chunkInv; infer_instance

section Atoms
variable (c : Dev nD) (k : Fin 32)

def aArg : sProp 𝕄 := ((xSl c k).view.loc (c : Thread nD τ) ↦[(xSl c k).view.set]{fullShare} xC m c k)

def aVxAny : sProp 𝕄 := iprop(∃ f, ((vxSl k).view.loc (c : Thread nD τ) ↦[(vxSl k).view.set]{fullShare} f))
def aVx : sProp 𝕄 := ((vxSl k).view.loc (c : Thread nD τ) ↦[(vxSl k).view.set]{fullShare} vxC m c k)
def aVxR : sProp 𝕄 := ((vxSl k).view.loc (c : Thread nD τ) ↦[(vxSl k).view.set]{fullShare.right} vxC m c k)

def aVrPeer : sProp 𝕄 := iprop(∃ f, ((vrSl k).view.loc (xp c : Thread nD τ) ↦[(vrSl k).view.set]{fullShare} f))

def aVrIn : sProp 𝕄 := ((vrSl k).view.loc (c : Thread nD τ) ↦[(vrSl k).view.set]{fullShare} vrC m c k)
def aVrSum : sProp 𝕄 := ((vrSl k).view.loc (c : Thread nD τ) ↦[(vrSl k).view.set]{fullShare} vsC m c k)
def aVrSumL : sProp 𝕄 := ((vrSl k).view.loc (c : Thread nD τ) ↦[(vrSl k).view.set]{fullShare.left} vsC m c k)
def aVrSumR : sProp 𝕄 := ((vrSl k).view.loc (c : Thread nD τ) ↦[(vrSl k).view.set]{fullShare.right} vsC m c k)

def aOPeer : sProp 𝕄 := iprop(∃ f, ((oSl c k).view.loc (yp c : Thread nD τ) ↦[(oSl c k).view.set]{fullShare} f))

def aOOwnAny : sProp 𝕄 := iprop(∃ f, ((oSl c k).view.loc (c : Thread nD τ) ↦[(oSl c k).view.set]{fullShare} f))
def aOOwn : sProp 𝕄 := ((oSl c k).view.loc (c : Thread nD τ) ↦[(oSl c k).view.set]{fullShare} oC m c c k)

def aOOther : sProp 𝕄 := ((oSl (yp c) k).view.loc (c : Thread nD τ) ↦[(oSl (yp c) k).view.set]{fullShare} oC m c (yp c) k)

def aPos (rl rxs rxr rys ryr rst : ℕ) : sProp 𝕄 :=
  iprop(atPos ER (ldCell c k) rl ∅ 0 ∗ atPos ER (xsCell c k) rxs ∅ 0 ∗ atPos ER (xrCell c k) rxr ∅ 0
    ∗ atPos ER (ysCell c k) rys ∅ 0 ∗ atPos ER (yrCell c k) ryr ∅ 0 ∗ atPos ER (stCell c k) rst ∅ 0)

def tLd : sProp 𝕄 := dutyTok ER (ldCell c k) 0 false
def tXs : sProp 𝕄 := dutyTok ER (xsCell c k) 0 false
def tXr : sProp 𝕄 := dutyTok ER (xrCell (xp c) k) 0 false
def tYs : sProp 𝕄 := dutyTok ER (ysCell c k) 0 false
def tYr : sProp 𝕄 := dutyTok ER (yrCell (yp c) k) 0 false
def tSt : sProp 𝕄 := dutyTok ER (stCell c k) 0 false

def crLd : sProp 𝕄 := cred (tallyAt (ldCell c k) () N)
def crXs : sProp 𝕄 := cred (tallyAt (xsCell c k) () N)
def crXr : sProp 𝕄 := cred (tallyAt (xrCell c k) () N)
def crYs : sProp 𝕄 := cred (tallyAt (ysCell c k) () N)
def crYr : sProp 𝕄 := cred (tallyAt (yrCell c k) () N)
def crSt : sProp 𝕄 := cred (tallyAt (stCell c k) () N)

end Atoms

def chunkSt (c : Dev nD) (k : Fin 32) : ℕ → sProp 𝕄
  | 0 => iprop(aArg m c k ∗ aVxAny c k ∗ aVrPeer c k ∗ aOPeer c k ∗ aOOwnAny c k
      ∗ tLd c k ∗ tXs c k ∗ tXr c k ∗ tYs c k ∗ tYr c k ∗ tSt c k ∗ aPos c k 0 0 0 0 0 0 ∗ crXr c k ∗ crYr c k)
  | 1 => iprop(aVrPeer c k ∗ aOPeer c k ∗ aOOwnAny c k
      ∗ tXs c k ∗ tXr c k ∗ tYs c k ∗ tYr c k ∗ tSt c k ∗ aPos c k 0 0 0 0 0 0 ∗ crXr c k ∗ crYr c k ∗ crLd c k)
  | 2 => iprop(aArg m c k ∗ aVx m c k ∗ aVrPeer c k ∗ aOPeer c k ∗ aOOwnAny c k
      ∗ tXs c k ∗ tXr c k ∗ tYs c k ∗ tYr c k ∗ tSt c k ∗ aPos c k 1 0 0 0 0 0 ∗ crXr c k ∗ crYr c k)
  | 3 => iprop(aArg m c k ∗ aVxR m c k ∗ aOPeer c k ∗ aOOwnAny c k
      ∗ tYs c k ∗ tYr c k ∗ tSt c k ∗ aPos c k 1 0 0 0 0 0 ∗ crXr c k ∗ crYr c k ∗ crXs c k)
  | 4 => iprop(aArg m c k ∗ aVxR m c k ∗ aVrIn m c k ∗ aOPeer c k ∗ aOOwnAny c k
      ∗ tYs c k ∗ tYr c k ∗ tSt c k ∗ aPos c k 1 0 1 0 0 0 ∗ crYr c k ∗ crXs c k)
  | 5 => iprop(aArg m c k ∗ aVxR m c k ∗ aVrSum m c k ∗ aOPeer c k ∗ aOOwnAny c k
      ∗ tYs c k ∗ tYr c k ∗ tSt c k ∗ aPos c k 1 0 1 0 0 0 ∗ crYr c k ∗ crXs c k)
  | 6 => iprop(aArg m c k ∗ aVxR m c k ∗ aVrSumR m c k ∗ aOOwnAny c k
      ∗ tSt c k ∗ aPos c k 1 0 1 0 0 0 ∗ crYr c k ∗ crXs c k ∗ crYs c k)
  | 7 => iprop(aArg m c k ∗ aVxR m c k ∗ aPos c k 1 0 1 0 0 0 ∗ crYr c k ∗ crXs c k ∗ crYs c k ∗ crSt c k)
  | 8 => iprop(aArg m c k ∗ aVx m c k ∗ aPos c k 1 1 1 0 0 0 ∗ crYr c k ∗ crYs c k ∗ crSt c k)
  | 9 => iprop(aArg m c k ∗ aVx m c k ∗ aVrSumL m c k ∗ aPos c k 1 1 1 1 0 0 ∗ crYr c k ∗ crSt c k)
  | 10 => iprop(aArg m c k ∗ aVx m c k ∗ aVrSumL m c k ∗ aOOther m c k ∗ aPos c k 1 1 1 1 1 0 ∗ crSt c k)
  | _ => iprop(aArg m c k ∗ aVx m c k ∗ aVrSum m c k ∗ aOOther m c k ∗ aOOwn m c k ∗ aPos c k 1 1 1 1 1 1)

end Cert.Kernel.AR

end
-- ==== Proof.K.Contents.lean ====
import proofs.«900708_g7700000000000709_dist_ar_v7x_xyz2x2x4_x_m8192_n1024_f32_1_alg».proof.Proof.K.Cells
import Idealize.ShloMosaic.Lib.Pipeline.Value
import Idealize.ShloMosaic.Lib.ValueIdx

noncomputable section

namespace Cert.Kernel.AR

open Cert.Kernel Cert.Kernel.Gen
open Idealize.ShloMosaic Idealize.ShloMosaic.TcCoe Idealize.ShloMosaic.ValueIdx

variable {F : FTy → Type} [FloatOps F]

abbrev planeR (k : Fin 32) : Rect S32x128x1024 :=
  Rect.unit (s := S32x128x1024) ![k.val, 0, 0] S1x128x1024.size (inb3 k)

abbrev rowsR (c : Dev nD) (k : Fin 32) : Rect S8192x1024 :=
  Rect.unit (s := S8192x1024) (k0_off1 c (BitVec.ofNat 32 (128 * k.val))) S128x1024.size (k0_off1_inb c k)

theorem mem_planeR (k : Fin 32) (i : S32x128x1024.Idx) : i ∈ (planeR k).set ↔ (i 0).val = k.val := by
  rw [Rect.mem_set_unit]
  constructor
  · intro h
    have h0 : k.val ≤ (i 0).val ∧ (i 0).val < k.val + 1 := h 0
    omega
  · intro h a
    match a with
    | ⟨0, _⟩ => show k.val ≤ (i 0).val ∧ (i 0).val < k.val + 1; omega
    | ⟨1, _⟩ => show 0 ≤ (i 1).val ∧ (i 1).val < 0 + 128; have h1 : (i 1).val < 128 := (i 1).isLt; omega
    | ⟨2, _⟩ => show 0 ≤ (i 2).val ∧ (i 2).val < 0 + 1024; have h2 : (i 2).val < 1024 := (i 2).isLt; omega

theorem mem_rowsR (c : Dev nD) (k : Fin 32) (i : S8192x1024.Idx) :
    i ∈ (rowsR c k).set ↔ ∃ r : Fin 128, i 0 = row c k r := by
  rw [Rect.mem_set_unit, k0_off1_eq]
  have hc := half_lt c
  have hk := k.isLt
  constructor
  · intro h
    have h0 : 4096 * half c + 128 * k.val ≤ (i 0).val ∧ (i 0).val < 4096 * half c + 128 * k.val + 128 := h 0
    exact ⟨⟨(i 0).val - (4096 * half c + 128 * k.val), by omega⟩, Fin.ext (by show (i 0).val = 4096 * half c + 128 * k.val + ((i 0).val - (4096 * half c + 128 * k.val)); omega)⟩
  · rintro ⟨r, hr⟩ a
    have hr' : (i 0).val = 4096 * half c + 128 * k.val + r.val := congrArg Fin.val hr
    have hrl := r.isLt
    match a with
    | ⟨0, _⟩ => show 4096 * half c + 128 * k.val ≤ (i 0).val ∧ (i 0).val < 4096 * half c + 128 * k.val + 128; omega
    | ⟨1, _⟩ => show 0 ≤ (i 1).val ∧ (i 1).val < 0 + 1024; have h1 : (i 1).val < 1024 := (i 1).isLt; omega

theorem vrSl_set (k : Fin 32) : (vrSl k).view.set = (planeR k).set :=
  (View.set_reshape _ _).trans (View.set_slice_whole cc0_scratch0 (planeR k))

theorem vxSl_set (k : Fin 32) : (vxSl k).view.set = (planeR k).set :=
  (View.set_reshape _ _).trans (View.set_slice_whole cc0_scratch1 (planeR k))

theorem xSl_set (c : Dev nD) (k : Fin 32) : (xSl c k).view.set = (rowsR c k).set :=
  View.set_slice_whole main_arg0 (rowsR c k)

theorem oSl_set (c : Dev nD) (k : Fin 32) : (oSl c k).view.set = (rowsR c k).set :=
  View.set_slice_whole main_v1 (rowsR c k)

theorem mem_vrSl (k : Fin 32) (i : S32x128x1024.Idx) : i ∈ (vrSl k).view.set ↔ (i 0).val = k.val := by
  rw [vrSl_set]; exact mem_planeR k i

theorem mem_vxSl (k : Fin 32) (i : S32x128x1024.Idx) : i ∈ (vxSl k).view.set ↔ (i 0).val = k.val := by
  rw [vxSl_set]; exact mem_planeR k i

theorem mem_oSl (c : Dev nD) (k : Fin 32) (i : S8192x1024.Idx) :
    i ∈ (oSl c k).view.set ↔ ∃ r : Fin 128, i 0 = row c k r := by
  rw [oSl_set]; exact mem_rowsR c k i

theorem vrSl_emb (k : Fin 32) (r : Fin 128) (l : Fin 1024) : (vrSl k).view.emb (ix2 r l) = ix3 k r l := by
  show (planeR k).emb (Shape.reshapeEquiv _ (ix2 r l)) = ix3 k r l
  rw [Shape.reshapeEquiv_cons_one]
  funext a; apply Fin.ext
  match a with
  | ⟨0, _⟩ => show k.val + 1 * 0 = k.val; omega
  | ⟨1, _⟩ => show 0 + 1 * r.val = r.val; omega
  | ⟨2, _⟩ => show 0 + 1 * l.val = l.val; omega

theorem vxSl_emb (k : Fin 32) (r : Fin 128) (l : Fin 1024) : (vxSl k).view.emb (ix2 r l) = ix3 k r l := by
  show (planeR k).emb (Shape.reshapeEquiv _ (ix2 r l)) = ix3 k r l
  rw [Shape.reshapeEquiv_cons_one]
  funext a; apply Fin.ext
  match a with
  | ⟨0, _⟩ => show k.val + 1 * 0 = k.val; omega
  | ⟨1, _⟩ => show 0 + 1 * r.val = r.val; omega
  | ⟨2, _⟩ => show 0 + 1 * l.val = l.val; omega

theorem rowsR_emb (c : Dev nD) (k : Fin 32) (r : Fin 128) (l : Fin 1024) :
    (rowsR c k).emb (ix2 r l) = ix2 (row c k r) l := by
  have ho : (rowsR c k).off = ![4096 * half c + 128 * k.val, 0] := k0_off1_eq c k
  funext a; apply Fin.ext
  rw [Rect.emb_apply, ho]
  match a with
  | ⟨0, _⟩ => show 4096 * half c + 128 * k.val + 1 * r.val = 4096 * half c + 128 * k.val + r.val; omega
  | ⟨1, _⟩ => show 0 + 1 * l.val = l.val; omega

theorem xSl_emb (c : Dev nD) (k : Fin 32) (r : Fin 128) (l : Fin 1024) :
    (xSl c k).view.emb (ix2 r l) = ix2 (row c k r) l := rowsR_emb c k r l

theorem oSl_emb (c : Dev nD) (k : Fin 32) (r : Fin 128) (l : Fin 1024) :
    (oSl c k).view.emb (ix2 r l) = ix2 (row c k r) l := rowsR_emb c k r l

theorem row_xp (c : Dev nD) (k : Fin 32) (r : Fin 128) : row (xp c) k r = row c k r := by
  apply Fin.ext
  show 4096 * half (xp c) + 128 * k.val + r.val = 4096 * half c + 128 * k.val + r.val
  rw [half_xp]

theorem row_div (c : Dev nD) (k : Fin 32) (r : Fin 128) : (row c k r).val / 4096 = half c := by
  have hc := half_lt c
  have hk := k.isLt
  have hr := r.isLt
  show (4096 * half c + 128 * k.val + r.val) / 4096 = half c
  omega

theorem maker_row (c : Dev nD) (k : Fin 32) (r : Fin 128) : maker c (row c k r) = c :=
  if_pos (row_div c k r)

theorem maker_yp_row (c : Dev nD) (k : Fin 32) (r : Fin 128) : maker (yp c) (row c k r) = c := by
  have hc := half_lt c
  unfold maker
  rw [if_neg (by rw [row_div, half_yp]; omega), yp_yp]

variable (m : (ℓ : Loc nD τ sig) → Buf (Elt F) ℓ)

theorem fetch_agrees (c : Dev nD) (k : Fin 32) (fd) :
    ∀ i ∈ (vxSl k).view.set,
      (vxSl k).view.write (Elt F) fd ((xSl c k).view.read (Elt F) (X m c)) Finset.univ i = vxIn m c i := by
  intro i hi
  have h0 : (i 0).val = k.val := (mem_vxSl k i).mp hi
  clear hi
  obtain ⟨a, r, l, rfl⟩ : ∃ (a : Fin 32) (r : Fin 128) (l : Fin 1024), i = ix3 a r l := ⟨i 0, i 1, i 2, eq_ix3 i⟩
  obtain rfl : a = k := Fin.ext h0
  have e := View.write_emb_of_mem (v := (vxSl a).view) (Val := Elt F) fd ((xSl c a).view.read (Elt F) (X m c))
    (M := Finset.univ) (x := ix2 r l) (Finset.mem_univ _)
  rw [vxSl_emb] at e
  rw [e, View.read_apply, xSl_emb]
  simp only [cast_eq]
  rfl

theorem xsend_agrees (c : Dev nD) (k : Fin 32) (fd) :
    ∀ i ∈ (vrSl k).view.set,
      (vrSl k).view.write (Elt F) fd ((vxSl k).view.read (Elt F) (vxIn m c)) Finset.univ i = vrIn m (xp c) i := by
  intro i hi
  have h0 : (i 0).val = k.val := (mem_vrSl k i).mp hi
  clear hi
  obtain ⟨a, r, l, rfl⟩ : ∃ (a : Fin 32) (r : Fin 128) (l : Fin 1024), i = ix3 a r l := ⟨i 0, i 1, i 2, eq_ix3 i⟩
  obtain rfl : a = k := Fin.ext h0
  have e := View.write_emb_of_mem (v := (vrSl a).view) (Val := Elt F) fd ((vxSl a).view.read (Elt F) (vxIn m c))
    (M := Finset.univ) (x := ix2 r l) (Finset.mem_univ _)
  rw [vrSl_emb] at e
  rw [e, View.read_apply, vxSl_emb]
  simp only [cast_eq]
  show X m c (ix2 (row c a r) l) = X m (xp (xp c)) (ix2 (row (xp c) a r) l)
  rw [xp_xp, row_xp]

theorem vrSum_apply (c : Dev nD) (k : Fin 32) (r : Fin 128) (l : Fin 1024) :
    vrSum m c (ix3 k r l) = FloatOps.addf (X m (xp c) (ix2 (row c k r) l)) (X m c (ix2 (row c k r) l)) := rfl

theorem ysend_agrees (c : Dev nD) (k : Fin 32) (fd) :
    ∀ i ∈ (oSl c k).view.set,
      (oSl c k).view.write (Elt F) fd ((vrSl k).view.read (Elt F) (vrSum m c)) Finset.univ i = outVal m (yp c) i := by
  intro i hi
  obtain ⟨r, hr⟩ := (mem_oSl c k i).mp hi
  clear hi
  obtain ⟨a, l, rfl⟩ : ∃ (a : Fin 8192) (l : Fin 1024), i = ix2 a l := ⟨i 0, i 1, eq_ix2 i⟩
  obtain rfl : a = row c k r := hr
  have e := View.write_emb_of_mem (v := (oSl c k).view) (Val := Elt F) fd ((vrSl k).view.read (Elt F) (vrSum m c))
    (M := Finset.univ) (x := ix2 r l) (Finset.mem_univ _)
  rw [oSl_emb] at e
  rw [e, View.read_apply, vrSl_emb]
  simp only [cast_eq]
  rw [vrSum_apply]
  show _ = FloatOps.addf (X m (xp (maker (yp c) (row c k r))) (ix2 (row c k r) l))
      (X m (maker (yp c) (row c k r)) (ix2 (row c k r) l))
  rw [maker_yp_row]

theorem store_agrees (c : Dev nD) (k : Fin 32) (fd) :
    ∀ i ∈ (oSl c k).view.set,
      (oSl c k).view.write (Elt F) fd ((vrSl k).view.read (Elt F) (vrSum m c)) Finset.univ i = outVal m c i := by
  intro i hi
  obtain ⟨r, hr⟩ := (mem_oSl c k i).mp hi
  clear hi
  obtain ⟨a, l, rfl⟩ : ∃ (a : Fin 8192) (l : Fin 1024), i = ix2 a l := ⟨i 0, i 1, eq_ix2 i⟩
  obtain rfl : a = row c k r := hr
  have e := View.write_emb_of_mem (v := (oSl c k).view) (Val := Elt F) fd ((vrSl k).view.read (Elt F) (vrSum m c))
    (M := Finset.univ) (x := ix2 r l) (Finset.mem_univ _)
  rw [oSl_emb] at e
  rw [e, View.read_apply, vrSl_emb]
  simp only [cast_eq]
  rw [vrSum_apply]
  show _ = FloatOps.addf (X m (xp (maker c (row c k r))) (ix2 (row c k r) l))
      (X m (maker c (row c k r)) (ix2 (row c k r) l))
  rw [maker_row]

theorem vr_access_set (k : Fin 32) :
    ((Memref.whole cc0_scratch0 : Memref sig .tc .vmem S32x128x1024 .f32).access
      (Rect.unit (s := S32x128x1024) ![k.val, 0, 0] S1x128x1024.size (inb3 k))).set = (vrSl k).view.set :=
  (View.set_slice_whole cc0_scratch0 (planeR k)).trans (vrSl_set k).symm

theorem planeR_emb (k : Fin 32) (r : Fin 128) (l : Fin 1024) : (planeR k).emb (ix3 (0 : Fin 1) r l) = ix3 k r l := by
  funext a; apply Fin.ext
  match a with
  | ⟨0, _⟩ => show k.val + 1 * 0 = k.val; omega
  | ⟨1, _⟩ => show 0 + 1 * r.val = r.val; omega
  | ⟨2, _⟩ => show 0 + 1 * l.val = l.val; omega

theorem rowMajor_plane (r : Fin 128) (l : Fin 1024) :
    (S128x1024.rowMajor (ix2 r l)).val = (S1x128x1024.rowMajor (ix3 (0 : Fin 1) r l)).val := by
  rw [Shape.rowMajor_val_two, Shape.rowMajor_val_three]
  show r.val * 1024 + l.val = (0 * 128 + r.val) * 1024 + l.val
  omega

theorem load_vr_apply (k : Fin 32) (f : (Memref.whole cc0_scratch0 : Memref sig .tc .vmem S32x128x1024 .f32).view.ty.Contents (Elt F))
    (r : Fin 128) (l : Fin 1024) :
    shapeCast S128x1024 ((Memref.whole cc0_scratch0 : Memref sig .tc .vmem S32x128x1024 .f32).view.readAt (Elt F)
      (Rect.unit (s := S32x128x1024) ![k.val, 0, 0] S1x128x1024.size (inb3 k)).toLoadRect f)
      shapeCasts_S1x128x1024_S128x1024 (ix2 r l) = f (ix3 k r l) := by
  rw [shapeCast_apply _ _ (ix2 r l) (ix3 (0 : Fin 1) r l) (rowMajor_plane r l).symm, View.readAt_apply, View.read_apply]
  show f ((planeR k).emb (ix3 (0 : Fin 1) r l)) = f (ix3 k r l)
  rw [planeR_emb]

theorem load_vx_apply (k : Fin 32) (g : (Memref.whole cc0_scratch1 : Memref sig .tc .vmem S32x128x1024 .f32).view.ty.Contents (Elt F))
    (r : Fin 128) (l : Fin 1024) :
    shapeCast S128x1024 ((Memref.whole cc0_scratch1 : Memref sig .tc .vmem S32x128x1024 .f32).view.readAt (Elt F)
      (Rect.unit (s := S32x128x1024) ![k.val, 0, 0] S1x128x1024.size (inb3 k)).toLoadRect g)
      shapeCasts_S1x128x1024_S128x1024 (ix2 r l) = g (ix3 k r l) := by
  rw [shapeCast_apply _ _ (ix2 r l) (ix3 (0 : Fin 1) r l) (rowMajor_plane r l).symm, View.readAt_apply, View.read_apply]
  show g ((planeR k).emb (ix3 (0 : Fin 1) r l)) = g (ix3 k r l)
  rw [planeR_emb]

theorem add_agrees (c : Dev nD) (k : Fin 32)
    (f : Buf (Elt F) ((c : Thread nD τ).loc cc0_scratch0)) (g : Buf (Elt F) ((c : Thread nD τ).loc cc0_scratch1))
    (hf : ∀ i ∈ (vrSl k).view.set, f i = vrIn m c i) (hg : ∀ i ∈ (vxSl k).view.set, g i = vxIn m c i) :
    ∀ i ∈ (vrSl k).view.set,
      ((Memref.whole cc0_scratch0 : Memref sig .tc .vmem S32x128x1024 .f32).access
        (Rect.unit (s := S32x128x1024) ![k.val, 0, 0] S1x128x1024.size (inb3 k))).write (Elt F) f
        (shapeCast S1x128x1024
          (addf
            (shapeCast S128x1024 ((Memref.whole cc0_scratch0 : Memref sig .tc .vmem S32x128x1024 .f32).view.readAt (Elt F)
              (Rect.unit (s := S32x128x1024) ![k.val, 0, 0] S1x128x1024.size (inb3 k)).toLoadRect f) shapeCasts_S1x128x1024_S128x1024)
            (shapeCast S128x1024 ((Memref.whole cc0_scratch1 : Memref sig .tc .vmem S32x128x1024 .f32).view.readAt (Elt F)
              (Rect.unit (s := S32x128x1024) ![k.val, 0, 0] S1x128x1024.size (inb3 k)).toLoadRect g) shapeCasts_S1x128x1024_S128x1024))
          shapeCasts_S128x1024_S1x128x1024) Finset.univ i = vrSum m c i := by
  intro i hi
  have h0 : (i 0).val = k.val := (mem_vrSl k i).mp hi
  clear hi
  obtain ⟨a, r, l, rfl⟩ : ∃ (a : Fin 32) (r : Fin 128) (l : Fin 1024), i = ix3 a r l := ⟨i 0, i 1, i 2, eq_ix3 i⟩
  obtain rfl : a = k := Fin.ext h0
  have hfk : f (ix3 a r l) = vrIn m c (ix3 a r l) := hf _ ((mem_vrSl a _).mpr rfl)
  have hgk : g (ix3 a r l) = vxIn m c (ix3 a r l) := hg _ ((mem_vxSl a _).mpr rfl)
  have e := View.write_emb_of_mem
    (v := (Memref.whole cc0_scratch0 : Memref sig .tc .vmem S32x128x1024 .f32).access
      (Rect.unit (s := S32x128x1024) ![a.val, 0, 0] S1x128x1024.size (inb3 a))) (Val := Elt F) f
    (shapeCast S1x128x1024
          (addf
            (shapeCast S128x1024 ((Memref.whole cc0_scratch0 : Memref sig .tc .vmem S32x128x1024 .f32).view.readAt (Elt F)
              (Rect.unit (s := S32x128x1024) ![a.val, 0, 0] S1x128x1024.size (inb3 a)).toLoadRect f) shapeCasts_S1x128x1024_S128x1024)
            (shapeCast S128x1024 ((Memref.whole cc0_scratch1 : Memref sig .tc .vmem S32x128x1024 .f32).view.readAt (Elt F)
              (Rect.unit (s := S32x128x1024) ![a.val, 0, 0] S1x128x1024.size (inb3 a)).toLoadRect g) shapeCasts_S1x128x1024_S128x1024))
          shapeCasts_S128x1024_S1x128x1024)
    (M := Finset.univ) (x := ix3 (0 : Fin 1) r l) (Finset.mem_univ _)
  rw [show ((Memref.whole cc0_scratch0 : Memref sig .tc .vmem S32x128x1024 .f32).access
      (Rect.unit (s := S32x128x1024) ![a.val, 0, 0] S1x128x1024.size (inb3 a))).emb (ix3 (0 : Fin 1) r l) = ix3 a r l
    from planeR_emb a r l] at e
  rw [e, shapeCast_apply _ _ (ix3 (0 : Fin 1) r l) (ix2 r l) (rowMajor_plane r l)]
  simp only [cast_eq]
  show FloatOps.addf _ _ = FloatOps.addf (vrIn m c (ix3 a r l)) (vxIn m c (ix3 a r l))
  rw [load_vr_apply, load_vx_apply, hfk, hgk]

end Cert.Kernel.AR

end
-- ==== Proof.K.Pays.lean ====
import proofs.«900708_g7700000000000709_dist_ar_v7x_xyz2x2x4_x_m8192_n1024_f32_1_alg».proof.Proof.K.Sched
import proofs.«900708_g7700000000000709_dist_ar_v7x_xyz2x2x4_x_m8192_n1024_f32_1_alg».proof.Proof.K.Contents

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem pay_fetch (c : Dev nD) (k : Fin 32) (fd) :
    (iprop(((vxSl k).view.loc (c : Thread nD τ) ↦[(vxSl k).view.set]{fullShare}
          ((vxSl k).view.write (Elt F) fd ((xSl c k).view.read (Elt F) (xC m c k)) Finset.univ))
        ∗ ((xSl c k).view.loc (c : Thread nD τ) ↦[(xSl c k).view.set]{fullShare} xC m c k)) : sProp 𝕄)
      ⊢ (Rd m).payload (ldCell c k) 0 false := by
  have h : ∀ i ∈ (vxSl k).view.set,
      (vxSl k).view.write (Elt F) fd ((xSl c k).view.read (Elt F) (xC m c k)) Finset.univ i = vxC m c k i :=
    fetch_agrees m c k fd
  rw [payload_dma, dmaPay_ld, pointsTo_congr h]

theorem pay_xsend_src (c : Dev nD) (k : Fin 32) :
    (((vxSl k).view.loc (c : Thread nD τ) ↦[(vxSl k).view.set]{fullShare.left} vxC m c k) : sProp 𝕄)
      ⊢ (Rd m).payload (xsCell c k) 0 false := by
  rw [payload_dma, dmaPay_xs]

theorem pay_xsend_dst (c : Dev nD) (k : Fin 32) (fd) :
    (((vrSl k).view.loc (xp c : Thread nD τ) ↦[(vrSl k).view.set]{fullShare}
        ((vrSl k).view.write (Elt F) fd ((vxSl k).view.read (Elt F) (vxC m c k)) Finset.univ)) : sProp 𝕄)
      ⊢ (Rd m).payload (xrCell (xp c) k) 0 false := by
  have h : ∀ i ∈ (vrSl k).view.set,
      (vrSl k).view.write (Elt F) fd ((vxSl k).view.read (Elt F) (vxC m c k)) Finset.univ i = vrC m (xp c) k i :=
    xsend_agrees m c k fd
  rw [payload_dma, dmaPay_xr, pointsTo_congr h]

theorem pay_ysend_src (c : Dev nD) (k : Fin 32) :
    (((vrSl k).view.loc (c : Thread nD τ) ↦[(vrSl k).view.set]{fullShare.left} vsC m c k) : sProp 𝕄)
      ⊢ (Rd m).payload (ysCell c k) 0 false := by
  rw [payload_dma, dmaPay_ys]

theorem dmaPay_yr_of_eq (c d : Dev nD) (hd : yp c = d) (k : Fin 32) :
    dmaPay m c (yrSem k)
      = ((oSl d k).view.loc (c : Thread nD τ) ↦[(oSl d k).view.set]{fullShare} oC m c d k : sProp 𝕄) := by
  subst hd; exact dmaPay_yr m c k

theorem pay_ysend_dst (c : Dev nD) (k : Fin 32) (fd) :
    (((oSl c k).view.loc (yp c : Thread nD τ) ↦[(oSl c k).view.set]{fullShare}
        ((oSl c k).view.write (Elt F) fd ((vrSl k).view.read (Elt F) (vsC m c k)) Finset.univ)) : sProp 𝕄)
      ⊢ (Rd m).payload (yrCell (yp c) k) 0 false := by
  have h : ∀ i ∈ (oSl c k).view.set,
      (oSl c k).view.write (Elt F) fd ((vrSl k).view.read (Elt F) (vsC m c k)) Finset.univ i = oC m (yp c) c k i :=
    ysend_agrees m c k fd
  rw [payload_dma, dmaPay_yr_of_eq m (yp c) c (yp_yp c) k, pointsTo_congr h]

theorem pay_store (c : Dev nD) (k : Fin 32) (fd) :
    (iprop(((oSl c k).view.loc (c : Thread nD τ) ↦[(oSl c k).view.set]{fullShare}
          ((oSl c k).view.write (Elt F) fd ((vrSl k).view.read (Elt F) (vsC m c k)) Finset.univ))
        ∗ ((vrSl k).view.loc (c : Thread nD τ) ↦[(vrSl k).view.set]{fullShare.right} vsC m c k)) : sProp 𝕄)
      ⊢ (Rd m).payload (stCell c k) 0 false := by
  have h : ∀ i ∈ (oSl c k).view.set,
      (oSl c k).view.write (Elt F) fd ((vrSl k).view.read (Elt F) (vsC m c k)) Finset.univ i = oC m c c k i :=
    store_agrees m c k fd
  rw [payload_dma, dmaPay_st, pointsTo_congr h]

theorem after_add (c : Dev nD) (k : Fin 32)
    (f : Buf (Elt F) ((c : Thread nD τ).loc cc0_scratch0)) (g : Buf (Elt F) ((c : Thread nD τ).loc cc0_scratch1))
    (hf : ∀ i ∈ (vrSl k).view.set, f i = vrIn m c i) (hg : ∀ i ∈ (vxSl k).view.set, g i = vxIn m c i) :
    (((vrSl k).view.loc (c : Thread nD τ) ↦[(vrSl k).view.set]{fullShare}
        (((Memref.whole cc0_scratch0 : Memref sig .tc .vmem S32x128x1024 .f32).access
          (Rect.unit (s := S32x128x1024) ![k.val, 0, 0] S1x128x1024.size (inb3 k))).write (Elt F) f
          (shapeCast S1x128x1024
            (addf
              (shapeCast S128x1024 ((Memref.whole cc0_scratch0 : Memref sig .tc .vmem S32x128x1024 .f32).view.readAt (Elt F)
                (Rect.unit (s := S32x128x1024) ![k.val, 0, 0] S1x128x1024.size (inb3 k)).toLoadRect f) shapeCasts_S1x128x1024_S128x1024)
              (shapeCast S128x1024 ((Memref.whole cc0_scratch1 : Memref sig .tc .vmem S32x128x1024 .f32).view.readAt (Elt F)
                (Rect.unit (s := S32x128x1024) ![k.val, 0, 0] S1x128x1024.size (inb3 k)).toLoadRect g) shapeCasts_S1x128x1024_S128x1024))
            shapeCasts_S128x1024_S1x128x1024) Finset.univ)) : sProp 𝕄)
      = ((vrSl k).view.loc (c : Thread nD τ) ↦[(vrSl k).view.set]{fullShare} vsC m c k) :=
  pointsTo_congr (add_agrees m c k f g hf hg)

end Cert.Kernel.AR

end
-- ==== Proof.K.StepsA.lean ====
import proofs.«900708_g7700000000000709_dist_ar_v7x_xyz2x2x4_x_m8192_n1024_f32_1_alg».proof.Proof.K.Bundle
import proofs.«900708_g7700000000000709_dist_ar_v7x_xyz2x2x4_x_m8192_n1024_f32_1_alg».proof.Proof.K.Pays
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

theorem amt_vx (k : Fin 32) (s : DmaSem sig) : (vxSl k).view.amount (.dma s) = N := rfl
theorem amt_vr (k : Fin 32) (s : DmaSem sig) : (vrSl k).view.amount (.dma s) = N := rfl
theorem amt_o (c : Dev nD) (k : Fin 32) (s : DmaSem sig) : (oSl c k).view.amount (.dma s) = N := rfl

theorem step_fetch {K : Dev nD × SemLoc sig → ℕ} {c : Dev nD} {k : Fin 32}
    {hsrc : (xSl c k).view.WordExact} {hdst : (vxSl k).view.WordExact}
    {hsem : DmaTarget.Typed (nD := nD) .hbm (.dma (ldSem k)) (DmaTarget.here (p := (.tc : Proc τ)) (vxSl k))}
    {α : Type} {Q : α → sProp 𝕄} {kont : PUnit → Prog (TpuEff nD τ sig (Elt F) Λ₀ .tc) α} :
    chunkInv m K c k
      ⊢ iprop(chunkSt m c k 0 -∗ (chunkSt m c k 1 -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSl c k) (.here (vxSl k)) (.dma (ldSem k)) hsrc hdst hsem) kont) Q) := by
  unfold chunkInv
  simp only [chunkSt]
  unfold aArg aVxAny
  iintro ⟨-, -, -, -, #Ild, -, -, -, -, -, -, -, #Rld, -, -, -⟩ ⟨Harg, ⟨%fvx, Hvx⟩, Hvrp, Hop, Hoo, Tld, Txs, Txr, Tys, Tyr, Tst, Hpos, Cxr, Cyr⟩ Hk
  unfold tLd
  iapply (Rounds.wp_copy_pointsTo 𝒱₀ ER (Rd m) (c : Thread nD τ) none (κ := K (c, .dma (ldSem k))) (r := 0) (d := false)
      (q := fullShare) (fs := xC m c k) (fd := fvx)
      (by rw [duties_dma]; exact Finset.mem_singleton_self _) () N (amt_vx k _) (amount_dma m c (ldSem k) false)
      (pay_fetch m c k fvx)) $$ [Harg Hvx Tld]
  · isplitr; · iexact Ild
    isplitl [Harg]; · iexact Harg
    isplitl [Hvx]; · iexact Hvx
    isplitl [Tld]; · iexact Tld
    iexact Rld
  iintro Hc
  iapply Hk
  unfold crLd
  iframe

theorem step_stcopy {K : Dev nD × SemLoc sig → ℕ} {c : Dev nD} {k : Fin 32}
    {hsrc : (vrSl k).view.WordExact} {hdst : (oSl c k).view.WordExact}
    {hsem : DmaTarget.Typed (nD := nD) .vmem (.dma (stSem k)) (DmaTarget.here (p := (.tc : Proc τ)) (oSl c k))}
    {α : Type} {Q : α → sProp 𝕄} {kont : PUnit → Prog (TpuEff nD τ sig (Elt F) Λ₀ .tc) α} :
    chunkInv m K c k
      ⊢ iprop(chunkSt m c k 6 -∗ (chunkSt m c k 7 -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (vrSl k) (.here (oSl c k)) (.dma (stSem k)) hsrc hdst hsem) kont) Q) := by
  unfold chunkInv
  simp only [chunkSt]
  unfold aVrSumR aOOwnAny tSt
  iintro ⟨-, -, -, -, -, #Ist, -, -, -, -, -, -, -, #Rst, -, -⟩ ⟨Harg, HvxR, HsumR, ⟨%fo, Hoo⟩, Tst, Hpos, Cyr, Cxs, Cys⟩ Hk
  iapply (Rounds.wp_copy_pointsTo 𝒱₀ ER (Rd m) (c : Thread nD τ) none (κ := K (c, .dma (stSem k))) (r := 0) (d := false)
      (q := fullShare.right) (fs := vsC m c k) (fd := fo)
      (by rw [duties_dma]; exact Finset.mem_singleton_self _) () N (amt_o c k _) (amount_dma m c (stSem k) false)
      (pay_store m c k fo)) $$ [HsumR Hoo Tst]
  · isplitr; · iexact Ist
    isplitl [HsumR]; · iexact HsumR
    isplitl [Hoo]; · iexact Hoo
    isplitl [Tst]; · iexact Tst
    iexact Rst
  iintro Hc
  iapply Hk
  unfold crSt
  iframe

theorem load_sub_vr (k : Fin 32) :
    (Memref.whole cc0_scratch0 : Memref sig .tc .vmem S32x128x1024 .f32).view.setOn (Rect.unit (s := S32x128x1024) ![k.val, 0, 0] S1x128x1024.size (inb3 k)).toLoadRect.set ⊆ (vrSl k).view.set := by
  rw [vrSl_set]
  intro i hi
  obtain ⟨j, hj, rfl⟩ := Finset.mem_map.mp hi
  exact hj

theorem load_sub_vx (k : Fin 32) :
    (Memref.whole cc0_scratch1 : Memref sig .tc .vmem S32x128x1024 .f32).view.setOn (Rect.unit (s := S32x128x1024) ![k.val, 0, 0] S1x128x1024.size (inb3 k)).toLoadRect.set ⊆ (vxSl k).view.set := by
  rw [vxSl_set]
  intro i hi
  obtain ⟨j, hj, rfl⟩ := Finset.mem_map.mp hi
  exact hj

theorem store_sub_vr (k : Fin 32) :
    ((Memref.whole cc0_scratch0 : Memref sig .tc .vmem S32x128x1024 .f32).access (Rect.unit (s := S32x128x1024) ![k.val, 0, 0] S1x128x1024.size (inb3 k))).setOn Finset.univ ⊆ (vrSl k).view.set := by
  rw [View.setOn_univ, vr_access_set]

theorem step_load_vr {K : Dev nD × SemLoc sig → ℕ} {c : Dev nD} {k : Fin 32}
    {hl : (Memref.whole cc0_scratch0 : Memref sig .tc .vmem S32x128x1024 .f32).view.LoadsAt (Rect.unit (s := S32x128x1024) ![k.val, 0, 0] S1x128x1024.size (inb3 k)).toLoadRect}
    {α : Type} {Q : α → sProp 𝕄}
    {kont : ((Rect.unit (s := S32x128x1024) ![k.val, 0, 0] S1x128x1024.size (inb3 k)).toLoadRect.shape.Idx → Elt F .f32) → Prog (TpuEff nD τ sig (Elt F) Λ₀ .tc) α} :
    chunkInv m K c k
      ⊢ iprop(chunkSt m c k 4 -∗ (chunkSt m c k 4 -∗ wp frame (wpE (defs₀ (F := F)) 𝒱₀ (c : Thread nD τ) none) Set.univ
              (kont ((Memref.whole cc0_scratch0 : Memref sig .tc .vmem S32x128x1024 .f32).view.readAt (Elt F) (Rect.unit (s := S32x128x1024) ![k.val, 0, 0] S1x128x1024.size (inb3 k)).toLoadRect (vrC m c k))) Q)
          -∗ wp frame (wpE (defs₀ (F := F)) 𝒱₀ (c : Thread nD τ) none) Set.univ
              (.op (.load (Memref.whole cc0_scratch0 : Memref sig .tc .vmem S32x128x1024 .f32) (Rect.unit (s := S32x128x1024) ![k.val, 0, 0] S1x128x1024.size (inb3 k)).toLoadRect hl) kont) Q) := by
  simp only [chunkSt]
  unfold aVrIn
  iintro #HI ⟨Harg, HvxR, Hvr, Hrest⟩ Hk
  iapply (wp_load 𝒱₀ (c : Thread nD τ) none Set.univ (m := (Memref.whole cc0_scratch0 : Memref sig .tc .vmem S32x128x1024 .f32)) (r := (Rect.unit (s := S32x128x1024) ![k.val, 0, 0] S1x128x1024.size (inb3 k)).toLoadRect) (hl := hl) (k := kont)
      (S := (vrSl k).view.set) (q := fullShare) (f := vrC m c k) (load_sub_vr k)) $$ Hvr
  iintro Hvr
  iapply Hk
  iframe

theorem step_load_vx {K : Dev nD × SemLoc sig → ℕ} {c : Dev nD} {k : Fin 32}
    {hl : (Memref.whole cc0_scratch1 : Memref sig .tc .vmem S32x128x1024 .f32).view.LoadsAt (Rect.unit (s := S32x128x1024) ![k.val, 0, 0] S1x128x1024.size (inb3 k)).toLoadRect}
    {α : Type} {Q : α → sProp 𝕄}
    {kont : ((Rect.unit (s := S32x128x1024) ![k.val, 0, 0] S1x128x1024.size (inb3 k)).toLoadRect.shape.Idx → Elt F .f32) → Prog (TpuEff nD τ sig (Elt F) Λ₀ .tc) α} :
    chunkInv m K c k
      ⊢ iprop(chunkSt m c k 4 -∗ (chunkSt m c k 4 -∗ wp frame (wpE (defs₀ (F := F)) 𝒱₀ (c : Thread nD τ) none) Set.univ
              (kont ((Memref.whole cc0_scratch1 : Memref sig .tc .vmem S32x128x1024 .f32).view.readAt (Elt F) (Rect.unit (s := S32x128x1024) ![k.val, 0, 0] S1x128x1024.size (inb3 k)).toLoadRect (vxC m c k))) Q)
          -∗ wp frame (wpE (defs₀ (F := F)) 𝒱₀ (c : Thread nD τ) none) Set.univ
              (.op (.load (Memref.whole cc0_scratch1 : Memref sig .tc .vmem S32x128x1024 .f32) (Rect.unit (s := S32x128x1024) ![k.val, 0, 0] S1x128x1024.size (inb3 k)).toLoadRect hl) kont) Q) := by
  simp only [chunkSt]
  unfold aVxR
  iintro #HI ⟨Harg, HvxR, Hrest⟩ Hk
  iapply (wp_load 𝒱₀ (c : Thread nD τ) none Set.univ (m := (Memref.whole cc0_scratch1 : Memref sig .tc .vmem S32x128x1024 .f32)) (r := (Rect.unit (s := S32x128x1024) ![k.val, 0, 0] S1x128x1024.size (inb3 k)).toLoadRect) (hl := hl) (k := kont)
      (S := (vxSl k).view.set) (q := fullShare.right) (f := vxC m c k) (load_sub_vx k)) $$ HvxR
  iintro HvxR
  iapply Hk
  iframe

theorem step_store {K : Dev nD × SemLoc sig → ℕ} {c : Dev nD} {k : Fin 32}
    (w : (Rect.unit (s := S32x128x1024) ![k.val, 0, 0] S1x128x1024.size (inb3 k)).shape.Idx → Elt F .f32)
    (hw : w = shapeCast S1x128x1024
      (addf
        (shapeCast S128x1024 ((Memref.whole cc0_scratch0 : Memref sig .tc .vmem S32x128x1024 .f32).view.readAt (Elt F) (Rect.unit (s := S32x128x1024) ![k.val, 0, 0] S1x128x1024.size (inb3 k)).toLoadRect (vrC m c k)) shapeCasts_S1x128x1024_S128x1024)
        (shapeCast S128x1024 ((Memref.whole cc0_scratch1 : Memref sig .tc .vmem S32x128x1024 .f32).view.readAt (Elt F) (Rect.unit (s := S32x128x1024) ![k.val, 0, 0] S1x128x1024.size (inb3 k)).toLoadRect (vxC m c k)) shapeCasts_S1x128x1024_S128x1024))
      shapeCasts_S128x1024_S1x128x1024)
    {hx : ((Memref.whole cc0_scratch0 : Memref sig .tc .vmem S32x128x1024 .f32).access (Rect.unit (s := S32x128x1024) ![k.val, 0, 0] S1x128x1024.size (inb3 k))).Stores Finset.univ}
    {hm : (Finset.univ : Finset (Rect.unit (s := S32x128x1024) ![k.val, 0, 0] S1x128x1024.size (inb3 k)).shape.Idx) = Finset.univ ∨ ∀ a, (Rect.unit (s := S32x128x1024) ![k.val, 0, 0] S1x128x1024.size (inb3 k)).stride a = 1}
    {α : Type} {Q : α → sProp 𝕄} {kont : PUnit → Prog (TpuEff nD τ sig (Elt F) Λ₀ .tc) α} :
    chunkInv m K c k
      ⊢ iprop(chunkSt m c k 4 -∗ (chunkSt m c k 5 -∗ wp frame (wpE (defs₀ (F := F)) 𝒱₀ (c : Thread nD τ) none) Set.univ (kont ⟨⟩) Q)
          -∗ wp frame (wpE (defs₀ (F := F)) 𝒱₀ (c : Thread nD τ) none) Set.univ
              (.op (.store (Memref.whole cc0_scratch0 : Memref sig .tc .vmem S32x128x1024 .f32) (Rect.unit (s := S32x128x1024) ![k.val, 0, 0] S1x128x1024.size (inb3 k)) w Finset.univ hx hm) kont) Q) := by
  simp only [chunkSt]
  unfold aVrIn aVrSum
  iintro #HI ⟨Harg, HvxR, Hvr, Hrest⟩ Hk
  iapply (wp_store 𝒱₀ (c : Thread nD τ) none Set.univ (m := (Memref.whole cc0_scratch0 : Memref sig .tc .vmem S32x128x1024 .f32)) (r := (Rect.unit (s := S32x128x1024) ![k.val, 0, 0] S1x128x1024.size (inb3 k))) (w := w) (Mk := Finset.univ) (hx := hx) (hm := hm) (k := kont)
      (S := (vrSl k).view.set) (f := vrC m c k) (store_sub_vr k)) $$ Hvr
  iintro Hvr
  iapply Hk
  subst hw
  ihave Hs := (Entails.of_eq (after_add m c k (vrC m c k) (vxC m c k) (fun _ _ => rfl) (fun _ _ => rfl))) $$ Hvr
  iframe

theorem step_xsend {K : Dev nD × SemLoc sig → ℕ} {c : Dev nD} {k : Fin 32} {W : Waits sig Unit} {n : Dev nD} (hn : n = xp c)
    {hsc : (vrSl k : Memref sig (Dev.tc n : Thread nD τ).2.kind .vmem S128x1024 .f32).view.ref.isScScratch = false}
    {hsrc : (vxSl k).view.WordExact} {hdst : (vrSl k).view.WordExact}
    {hsem : DmaTarget.Typed (nD := nD) .vmem (.dma (xrSem k))
      (DmaTarget.remote (p := (.tc : Proc τ)) (Dev.tc n : Thread nD τ) (vrSl k) (.dma (xsSem k)) hsc)}
    {α : Type} {Q : α → sProp 𝕄} {kont : PUnit → Prog (TpuEff nD τ sig (Elt F) Λ₀ .tc) α} :
    chunkInv m K c k
      ⊢ iprop(chunkSt m c k 2 -∗ owes (c : Thread nD τ) (OY c 0 + OX c k.val) W -∗ ((chunkSt m c k 3 ∗ owes (c : Thread nD τ) (OY c 0 + OX c (k.val + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (vxSl k) (.remote (Dev.tc n : Thread nD τ) (vrSl k) (.dma (xsSem k)) hsc) (.dma (xrSem k))
                hsrc hdst hsem) kont) Q) := by
  subst hn
  unfold chunkInv
  simp only [chunkSt]
  unfold aVx aVxR aVrPeer tXs tXr
  iintro ⟨#Ixs, -, -, -, -, -, #Ixrp, -, #Rxs, -, -, -, -, -, #Rxrp, -⟩ ⟨Harg, Hvx, ⟨%fp, Hvrp⟩, Hop, Hoo, Txs, Txr, Tys, Tyr, Tst, Hpos, Cxr, Cyr⟩ HO Hk
  icases (pointsTo_share (PosShare.mem_left_op_right fullShare)).1 $$ Hvx with ⟨HvxL, HvxR⟩
  iapply (Rounds.wp_send_pointsTo 𝒱₀ ER (Rd m) (c : Thread nD τ) none (c' := (xp c : Thread nD τ))
      (κ₁ := K (c, .dma (xsSem k))) (κ₂ := K (xp c, .dma (xrSem k)))
      (r₁ := 0) (r₂ := 0) (d₁ := false) (d₂ := false) (q := fullShare.left) (fs := vxC m c k) (fd := fp)
      (by rw [duties_dma]; exact Finset.mem_singleton_self _) (by rw [duties_dma]; exact Finset.mem_singleton_self _)
      () () N (amt_vr k _) (amount_dma m c (xsSem k) false) (amount_dma m (xp c) (xrSem k) false)
      (O₀ := OY c 0 + OX c k.val) (OY c 0 + OX c (k.val + 1)) (by rw [OX_step c k, add_assoc]) (W := W)
      (pay_xsend_src m c k) (pay_xsend_dst m c k fp)) $$ [HvxL Hvrp HO Txs Txr]
  · isplitr; · iexact Ixs
    isplitr; · iexact Ixrp
    isplitl [HvxL]; · iexact HvxL
    isplitl [Hvrp]; · iexact Hvrp
    isplitl [HO]; · iexact HO
    isplitl [Txs]; · iexact Txs
    isplitr; · iexact Rxs
    isplitl [Txr]; · iexact Txr
    iexact Rxrp
  iintro ⟨Hc, HO⟩
  iapply Hk
  unfold crXs
  iframe

theorem step_ysend {K : Dev nD × SemLoc sig → ℕ} {c : Dev nD} {k : Fin 32} {W : Waits sig Unit} {n : Dev nD} (hn : n = yp c)
    {hsc : (oSl c k : Memref sig (Dev.tc n : Thread nD τ).2.kind .hbm S128x1024 .f32).view.ref.isScScratch = false}
    {hsrc : (vrSl k).view.WordExact} {hdst : (oSl c k).view.WordExact}
    {hsem : DmaTarget.Typed (nD := nD) .vmem (.dma (yrSem k))
      (DmaTarget.remote (p := (.tc : Proc τ)) (Dev.tc n : Thread nD τ) (oSl c k) (.dma (ysSem k)) hsc)}
    {α : Type} {Q : α → sProp 𝕄} {kont : PUnit → Prog (TpuEff nD τ sig (Elt F) Λ₀ .tc) α} :
    chunkInv m K c k
      ⊢ iprop(chunkSt m c k 5 -∗ owes (c : Thread nD τ) (OY c k.val) W -∗ ((chunkSt m c k 6 ∗ owes (c : Thread nD τ) (OY c (k.val + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (vrSl k) (.remote (Dev.tc n : Thread nD τ) (oSl c k) (.dma (ysSem k)) hsc) (.dma (yrSem k))
                hsrc hdst hsem) kont) Q) := by
  subst hn
  unfold chunkInv
  simp only [chunkSt]
  unfold aVrSum aVrSumR aOPeer tYs tYr
  iintro ⟨-, -, #Iys, -, -, -, -, #Iyrp, -, -, #Rys, -, -, -, -, #Ryrp⟩ ⟨Harg, HvxR, Hsum, ⟨%fp, Hop⟩, Hoo, Tys, Tyr, Tst, Hpos, Cyr, Cxs⟩ HO Hk
  icases (pointsTo_share (PosShare.mem_left_op_right fullShare)).1 $$ Hsum with ⟨HsumL, HsumR⟩
  iapply (Rounds.wp_send_pointsTo 𝒱₀ ER (Rd m) (c : Thread nD τ) none (c' := (yp c : Thread nD τ))
      (κ₁ := K (c, .dma (ysSem k))) (κ₂ := K (yp c, .dma (yrSem k)))
      (r₁ := 0) (r₂ := 0) (d₁ := false) (d₂ := false) (q := fullShare.left) (fs := vsC m c k) (fd := fp)
      (by rw [duties_dma]; exact Finset.mem_singleton_self _) (by rw [duties_dma]; exact Finset.mem_singleton_self _)
      () () N (amt_o c k _) (amount_dma m c (ysSem k) false) (amount_dma m (yp c) (yrSem k) false)
      (O₀ := OY c k.val) (OY c (k.val + 1)) (OY_step c k) (W := W)
      (pay_ysend_src m c k) (pay_ysend_dst m c k fp)) $$ [HsumL Hop HO Tys Tyr]
  · isplitr; · iexact Iys
    isplitr; · iexact Iyrp
    isplitl [HsumL]; · iexact HsumL
    isplitl [Hop]; · iexact Hop
    isplitl [HO]; · iexact HO
    isplitl [Tys]; · iexact Tys
    isplitr; · iexact Rys
    isplitl [Tyr]; · iexact Tyr
    iexact Ryrp
  iintro ⟨Hc, HO⟩
  iapply Hk
  unfold crYs
  iframe

end Cert.Kernel.AR

end
-- ==== Proof.K.StepsB.lean ====
import proofs.«900708_g7700000000000709_dist_ar_v7x_xyz2x2x4_x_m8192_n1024_f32_1_alg».proof.Proof.K.Bundle
import proofs.«900708_g7700000000000709_dist_ar_v7x_xyz2x2x4_x_m8192_n1024_f32_1_alg».proof.Proof.K.Pays
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "𝒱₀" => Variants.none

theorem credit_vx (k : Fin 32) : (vxSl k).view.dmaCredit = N := rfl
theorem credit_vr (k : Fin 32) : (vrSl k).view.dmaCredit = N := rfl
theorem credit_o (c : Dev nD) (k : Fin 32) : (oSl c k).view.dmaCredit = N := rfl

section Waits
variable {K : Dev nD × SemLoc sig → ℕ} {c : Dev nD} {k : Fin 32} {W : Waits sig Unit}

theorem wait_own {s : DmaSem sig} {O : CellTallies nD τ sig Unit} {sp sp' : Space} {src : Memref sig .tc sp' S128x1024 .f32} {dst : Memref sig .tc sp S128x1024 .f32}
    (hN : dst.view.dmaCredit = N) {hs : src.view.WordExact} {hd : dst.view.WordExact} {α : Type} {Q : α → sProp 𝕄} {kont : PUnit → Prog (TpuEff nD τ sig (Elt F) Λ₀ .tc) α} :
    cellInv ER (Rd m) (K (c, .dma s)) ((c : Thread nD τ), .dma s)
      ⊢ iprop(cred (tallyAt ((c : Thread nD τ), .dma s) () N) -∗ owes (c : Thread nD τ) O W -∗ MayWait (c : Thread nD τ) (.dma s) () O -∗ atPos ER ((c : Thread nD τ), .dma s) 0 ∅ 0
          -∗ ((owes (c : Thread nD τ) O (insert (SemLoc.dma s, ()) W) ∗ atPos ER ((c : Thread nD τ), .dma s) 1 ∅ 0 ∗ dmaPay m c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 s src dst hs hd) kont) Q) := by
  iintro #I C HO HM P Hk
  iapply (Rounds.wp_wait_rest_token 𝒱₀ ER (Rd m) (c : Thread nD τ) none (κ := K (c, .dma s))
      (wpE_waitDma2_eq 𝒱₀ (c : Thread nD τ) none Set.univ) (Set.mem_univ _) () (O := O) (W := W)
      (R := 0) (m := 0) (T := ∅) (by rw [expect_dma, zero_add, hN])) $$ [C HO HM P]
  · isplitr; · iexact I
    isplitl [C]; · iexact C
    isplitl [HO]; · iexact HO
    isplitl [HM]; · iexact HM
    iexact P
  iintro ⟨HO, P, -, Hpay⟩
  ihave Hp := (Entails.of_eq (rest_dma m c s)) $$ Hpay
  iapply Hk
  iframe

theorem step_fetch_wait {hs : (xSl c k).view.WordExact} {hd : (vxSl k).view.WordExact} {α : Type} {Q : α → sProp 𝕄} {kont : PUnit → Prog (TpuEff nD τ sig (Elt F) Λ₀ .tc) α} :
    chunkInv m K c k
      ⊢ iprop(levAts L lv -∗ chunkSt m c k 1 -∗ owes (c : Thread nD τ) (OY c 0 + OX c k.val) W -∗ ((chunkSt m c k 2 ∗ owes (c : Thread nD τ) (OY c 0 + OX c k.val) (insert (SemLoc.dma (ldSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (ldSem k) (xSl c k) (vxSl k) hs hd) kont) Q) := by
  unfold chunkInv
  simp only [chunkSt]
  unfold aPos crLd aArg aVx
  iintro ⟨#Ixs, #Ixr, #Iys, #Iyr, #Ild, #Ist, #IxrP, #IyrP, #Rxs, #Rxr, #Rys, #Ryr, #Rld, #Rst, #RxrP, #RyrP⟩ #Hlev ⟨HvrP, HoP, HoO, TXs, TXr, TYs, TYr, TSt, ⟨Pld, Pxs, Pxr, Pys, Pyr, Pst⟩, CXr, CYr, CLd⟩ HO Hk
  iapply (wait_own m (credit_vx k)) $$ Ild CLd HO [] Pld
  · iapply (mayWait_own c (ldSem k) (by rw [fam_ld]; decide) (by rw [fam_ld]; decide) 0 k.val); iexact Hlev
  iintro ⟨HO, Pld, Hpay⟩
  ihave Hp := (Entails.of_eq (dmaPay_ld m c k)) $$ Hpay
  icases Hp with ⟨Hvx, Harg⟩
  iapply Hk
  iframe

theorem step_xr_wait {hs : (vxSl k).view.WordExact} {hd : (vrSl k).view.WordExact} {α : Type} {Q : α → sProp 𝕄} {kont : PUnit → Prog (TpuEff nD τ sig (Elt F) Λ₀ .tc) α} :
    chunkInv m K c k
      ⊢ iprop(levAts L lv -∗ chunkSt m c k 3 -∗ owes (c : Thread nD τ) (OY c k.val) W -∗ ((chunkSt m c k 4 ∗ owes (c : Thread nD τ) (OY c k.val) (insert (SemLoc.dma (xrSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (xrSem k) (vxSl k) (vrSl k) hs hd) kont) Q) := by
  unfold chunkInv
  simp only [chunkSt]
  unfold aPos crXr aVrIn
  iintro ⟨#Ixs, #Ixr, #Iys, #Iyr, #Ild, #Ist, #IxrP, #IyrP, #Rxs, #Rxr, #Rys, #Ryr, #Rld, #Rst, #RxrP, #RyrP⟩ #Hlev ⟨Harg, HvxR, HoP, HoO, TYs, TYr, TSt, ⟨Pld, Pxs, Pxr, Pys, Pyr, Pst⟩, CXr, CYr, CXs⟩ HO Hk
  iapply (wait_own m (credit_vr k)) $$ Ixr CXr HO [] Pxr
  · iapply (mayWait_xr c k k.val); iexact Hlev
  iintro ⟨HO, Pxr, Hpay⟩
  ihave Hvr := (Entails.of_eq (dmaPay_xr m c k)) $$ Hpay
  iapply Hk
  iframe

theorem step_xs_wait {hs : (vrSl k).view.WordExact} {hd : (vxSl k).view.WordExact} {α : Type} {Q : α → sProp 𝕄} {kont : PUnit → Prog (TpuEff nD τ sig (Elt F) Λ₀ .tc) α} :
    chunkInv m K c k
      ⊢ iprop(chunkSt m c k 7 -∗ owes (c : Thread nD τ) 0 W -∗ ((chunkSt m c k 8 ∗ owes (c : Thread nD τ) 0 (insert (SemLoc.dma (xsSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (xsSem k) (vrSl k) (vxSl k) hs hd) kont) Q) := by
  unfold chunkInv
  simp only [chunkSt]
  unfold aPos crXs aVxR aVx
  iintro ⟨#Ixs, #Ixr, #Iys, #Iyr, #Ild, #Ist, #IxrP, #IyrP, #Rxs, #Rxr, #Rys, #Ryr, #Rld, #Rst, #RxrP, #RyrP⟩ ⟨Harg, HvxR, ⟨Pld, Pxs, Pxr, Pys, Pyr, Pst⟩, CYr, CXs, CYs, CSt⟩ HO Hk
  iapply (wait_own m (credit_vx k)) $$ Ixs CXs HO [] Pxs
  · rw [MayWait_zero]; iempintro
  iintro ⟨HO, Pxs, Hpay⟩
  ihave HvxL := (Entails.of_eq (dmaPay_xs m c k)) $$ Hpay
  ihave Hvx := (pointsTo_share (PosShare.mem_left_op_right fullShare)).2 $$ [HvxL HvxR]
  · isplitl [HvxL]; · iexact HvxL
    iexact HvxR
  iapply Hk
  iframe

theorem step_ys_wait {hs : (oSl c k).view.WordExact} {hd : (vrSl k).view.WordExact} {α : Type} {Q : α → sProp 𝕄} {kont : PUnit → Prog (TpuEff nD τ sig (Elt F) Λ₀ .tc) α} :
    chunkInv m K c k
      ⊢ iprop(chunkSt m c k 8 -∗ owes (c : Thread nD τ) 0 W -∗ ((chunkSt m c k 9 ∗ owes (c : Thread nD τ) 0 (insert (SemLoc.dma (ysSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (ysSem k) (oSl c k) (vrSl k) hs hd) kont) Q) := by
  unfold chunkInv
  simp only [chunkSt]
  unfold aPos crYs aVrSumL
  iintro ⟨#Ixs, #Ixr, #Iys, #Iyr, #Ild, #Ist, #IxrP, #IyrP, #Rxs, #Rxr, #Rys, #Ryr, #Rld, #Rst, #RxrP, #RyrP⟩ ⟨Harg, Hvx, ⟨Pld, Pxs, Pxr, Pys, Pyr, Pst⟩, CYr, CYs, CSt⟩ HO Hk
  iapply (wait_own m (credit_vr k)) $$ Iys CYs HO [] Pys
  · rw [MayWait_zero]; iempintro
  iintro ⟨HO, Pys, Hpay⟩
  ihave HvsL := (Entails.of_eq (dmaPay_ys m c k)) $$ Hpay
  iapply Hk
  iframe

theorem step_yr_wait {hs : (vrSl k).view.WordExact} {hd : (oSl c k).view.WordExact} {α : Type} {Q : α → sProp 𝕄} {kont : PUnit → Prog (TpuEff nD τ sig (Elt F) Λ₀ .tc) α} :
    chunkInv m K c k
      ⊢ iprop(chunkSt m c k 9 -∗ owes (c : Thread nD τ) 0 W -∗ ((chunkSt m c k 10 ∗ owes (c : Thread nD τ) 0 (insert (SemLoc.dma (yrSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (yrSem k) (vrSl k) (oSl c k) hs hd) kont) Q) := by
  unfold chunkInv
  simp only [chunkSt]
  unfold aPos crYr aOOther
  iintro ⟨#Ixs, #Ixr, #Iys, #Iyr, #Ild, #Ist, #IxrP, #IyrP, #Rxs, #Rxr, #Rys, #Ryr, #Rld, #Rst, #RxrP, #RyrP⟩ ⟨Harg, Hvx, HvsL, ⟨Pld, Pxs, Pxr, Pys, Pyr, Pst⟩, CYr, CSt⟩ HO Hk
  iapply (wait_own m (credit_o c k)) $$ Iyr CYr HO [] Pyr
  · rw [MayWait_zero]; iempintro
  iintro ⟨HO, Pyr, Hpay⟩
  ihave HoOth := (Entails.of_eq (dmaPay_yr m c k)) $$ Hpay
  iapply Hk
  iframe

theorem step_st_wait {hs : (vrSl k).view.WordExact} {hd : (oSl c k).view.WordExact} {α : Type} {Q : α → sProp 𝕄} {kont : PUnit → Prog (TpuEff nD τ sig (Elt F) Λ₀ .tc) α} :
    chunkInv m K c k
      ⊢ iprop(chunkSt m c k 10 -∗ owes (c : Thread nD τ) 0 W -∗ ((chunkSt m c k 11 ∗ owes (c : Thread nD τ) 0 (insert (SemLoc.dma (stSem k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (stSem k) (vrSl k) (oSl c k) hs hd) kont) Q) := by
  unfold chunkInv
  simp only [chunkSt]
  unfold aPos crSt aVrSumL aVrSum aOOwn
  iintro ⟨#Ixs, #Ixr, #Iys, #Iyr, #Ild, #Ist, #IxrP, #IyrP, #Rxs, #Rxr, #Rys, #Ryr, #Rld, #Rst, #RxrP, #RyrP⟩ ⟨Harg, Hvx, HvsL, HoOth, ⟨Pld, Pxs, Pxr, Pys, Pyr, Pst⟩, CSt⟩ HO Hk
  iapply (wait_own m (credit_o c k)) $$ Ist CSt HO [] Pst
  · rw [MayWait_zero]; iempintro
  iintro ⟨HO, Pst, Hpay⟩
  ihave Hp := (Entails.of_eq (dmaPay_st m c k)) $$ Hpay
  icases Hp with ⟨HoOwn, HvsR⟩
  ihave Hvs := (pointsTo_share (PosShare.mem_left_op_right fullShare)).2 $$ [HvsL HvsR]
  · isplitl [HvsL]; · iexact HvsL
    iexact HvsR
  iapply Hk
  iframe

end Waits

theorem close_own {K : Dev nD × SemLoc sig → ℕ} {c : Dev nD} {s : DmaSem sig} :
    cellInv ER (Rd m) (K (c, .dma s)) ((c : Thread nD τ), .dma s)
      ⊢ iprop(atPos ER ((c : Thread nD τ), .dma s) 1 ∅ 0 -∗ |={Set.univ}=> semVal ((c : Thread nD τ), .dma s) 0) := by
  iintro #I P
  iapply (Rounds.cell_close ER (Rd m) (κ := K (c, .dma s)) (Set.mem_univ _) (fun h => h) (R := 1) (duties_later m ((c : Thread nD τ), .dma s)))
  isplitr; · iexact I
  iexact P

theorem chunk_close (K : Dev nD × SemLoc sig → ℕ) (c : Dev nD) (k : Fin 32) :
    iprop(chunkInv m K c k ∗ chunkSt m c k 11)
      ⊢ iprop(|={Set.univ}=> (aArg m c k ∗ aVx m c k ∗ aVrSum m c k ∗ aOOther m c k ∗ aOOwn m c k
          ∗ semVal (xsCell c k) 0 ∗ semVal (xrCell c k) 0 ∗ semVal (ysCell c k) 0 ∗ semVal (yrCell c k) 0
          ∗ semVal (ldCell c k) 0 ∗ semVal (stCell c k) 0)) := by
  unfold chunkInv
  simp only [chunkSt]
  unfold aPos
  iintro ⟨⟨#Ixs, #Ixr, #Iys, #Iyr, #Ild, #Ist, #IxrP, #IyrP, #Rxs, #Rxr, #Rys, #Ryr, #Rld, #Rst, #RxrP, #RyrP⟩,
    Harg, Hvx, Hvs, HoOth, HoOwn, Pld, Pxs, Pxr, Pys, Pyr, Pst⟩
  imod (close_own m) $$ Ixs Pxs with Sxs
  imod (close_own m) $$ Ixr Pxr with Sxr
  imod (close_own m) $$ Iys Pys with Sys
  imod (close_own m) $$ Iyr Pyr with Syr
  imod (close_own m) $$ Ild Pld with Sld
  imod (close_own m) $$ Ist Pst with Sst
  imodintro
  iframe

end Cert.Kernel.AR

end
-- ==== Proof.K.Fold.lean ====
import proofs.«900708_g7700000000000709_dist_ar_v7x_xyz2x2x4_x_m8192_n1024_f32_1_alg».proof.Proof.K.Bundle

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem barPayX_of_eq (o d : Dev nD) (h : xp o = d) : (barPayX (F := F) o : sProp 𝕄)
    = bigSep Finset.univ fun k : Fin 32 => iprop((∃ f, ((vrSl k).view.loc (d : Thread nD τ) ↦[(vrSl k).view.set]{fullShare} f)) ∗ reached ER (xrCell d k) 0) := by
  subst h; rfl
theorem barPayY_of_eq (o d : Dev nD) (h : yp o = d) : (barPayY (F := F) o : sProp 𝕄)
    = bigSep Finset.univ fun k : Fin 32 => iprop((∃ f, ((oSl o k).view.loc (d : Thread nD τ) ↦[(oSl o k).view.set]{fullShare} f)) ∗ reached ER (yrCell d k) 0) := by
  subst h; rfl

theorem reach_elim (c : Dev nD) (sm : SemLoc sig) :
    (bigSep Finset.univ fun sm : SemLoc sig => (reached ER (kcell (c, sm)) 0 : sProp 𝕄)) ⊢ reached ER (kcell (c, sm)) 0 :=
  bigSep_elim (Finset.mem_univ sm)
theorem reach_own (c : Dev nD) (sm : SemLoc sig) : (reaches (F := F) c : sProp 𝕄) ⊢ reached ER (kcell (c, sm)) 0 := by
  unfold reaches
  iintro ⟨H, -⟩
  iapply (reach_elim c sm)
  iexact H

theorem fold_payX (c : Dev nD) (f0 : Buf (Elt F) ((c : Thread nD τ).loc cc0_scratch0)) :
    iprop(reaches c ∗ bigSep Finset.univ fun k : Fin 32 => ((vrSl k).view.loc (c : Thread nD τ) ↦[(vrSl k).view.set]{fullShare} f0))
      ⊢ (barPayX (xp c) : sProp 𝕄) := by
  rw [barPayX_of_eq (xp c) c (xp_xp c)]
  exact bigSep_with fun k _ => by
    iintro ⟨#Hr, H⟩
    isplitl [H]
    · iexists f0; iexact H
    · iapply (reach_own c (.dma (xrSem k))); iexact Hr

theorem fold_payY (c : Dev nD) (fo : Buf (Elt F) ((c : Thread nD τ).loc main_v1)) :
    iprop(reaches c ∗ bigSep Finset.univ fun k : Fin 32 => ((oSl (yp c) k).view.loc (c : Thread nD τ) ↦[(oSl (yp c) k).view.set]{fullShare} fo))
      ⊢ (barPayY (yp c) : sProp 𝕄) := by
  rw [barPayY_of_eq (yp c) c (yp_yp c)]
  exact bigSep_with fun k _ => by
    iintro ⟨#Hr, H⟩
    isplitl [H]
    · iexists fo; iexact H
    · iapply (reach_own c (.dma (yrSem k))); iexact Hr

end Cert.Kernel.AR

end
-- ==== Proof.K.Pieces.lean ====
import proofs.«900708_g7700000000000709_dist_ar_v7x_xyz2x2x4_x_m8192_n1024_f32_1_alg».proof.Proof.K.Cells
import Idealize.ShloMosaic.Rules.PointsTo

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

private theorem mem_plane (k : Fin 32) (i : S32x128x1024.Idx) :
    i ∈ (Rect.unit (s := S32x128x1024) ![k.val, 0, 0] S1x128x1024.size (inb3 k)).set ↔ (i 0).val = k.val := by
  rw [Rect.mem_set_unit]
  constructor
  · intro h
    have h0 := h 0
    have e1 : (![k.val, 0, 0] : Fin 3 → Nat) 0 = k.val := rfl
    have e2 : S1x128x1024.size 0 = 1 := rfl
    rw [e1, e2] at h0
    omega
  · intro h a
    match a with
    | ⟨0, _⟩ => show k.val ≤ (i 0).val ∧ (i 0).val < k.val + 1; omega
    | ⟨1, _⟩ => have := (i 1).isLt; show 0 ≤ (i 1).val ∧ (i 1).val < 0 + 128; exact ⟨Nat.zero_le _, by simpa using this⟩
    | ⟨2, _⟩ => have := (i 2).isLt; show 0 ≤ (i 2).val ∧ (i 2).val < 0 + 1024; exact ⟨Nat.zero_le _, by simpa using this⟩

private theorem mem_rows (d : Dev nD) (k : Fin 32) (i : S8192x1024.Idx) :
    i ∈ (Rect.unit (s := S8192x1024) (k0_off1 d (BitVec.ofNat 32 (128 * k.val))) S128x1024.size (k0_off1_inb d k)).set
      ↔ 4096 * half d + 128 * k.val ≤ (i 0).val ∧ (i 0).val < 4096 * half d + 128 * k.val + 128 := by
  rw [Rect.mem_set_unit, k0_off1_eq]
  constructor
  · intro h
    have h0 := h 0
    have e1 : (![4096 * ((d.val / 4) % 2) + 128 * k.val, 0] : Fin 2 → Nat) 0 = 4096 * half d + 128 * k.val := rfl
    have e2 : S128x1024.size 0 = 128 := rfl
    rw [e1, e2] at h0
    exact h0
  · intro h a
    match a with
    | ⟨0, _⟩ => show 4096 * half d + 128 * k.val ≤ (i 0).val ∧ (i 0).val < 4096 * half d + 128 * k.val + 128; exact h
    | ⟨1, _⟩ => have := (i 1).isLt; show 0 ≤ (i 1).val ∧ (i 1).val < 0 + 1024; exact ⟨Nat.zero_le _, by simpa using this⟩

private theorem vrSl_set (k : Fin 32) :
    (vrSl k).view.set = (Rect.unit (s := S32x128x1024) ![k.val, 0, 0] S1x128x1024.size (inb3 k)).set := by
  simp only [Memref.view_squeeze, Memref.view_slice, Memref.view_whole, View.set_reshape, View.set_slice_whole]
private theorem vxSl_set (k : Fin 32) :
    (vxSl k).view.set = (Rect.unit (s := S32x128x1024) ![k.val, 0, 0] S1x128x1024.size (inb3 k)).set := by
  simp only [Memref.view_squeeze, Memref.view_slice, Memref.view_whole, View.set_reshape, View.set_slice_whole]
private theorem xSl_set (d : Dev nD) (k : Fin 32) :
    (xSl d k).view.set = (Rect.unit (s := S8192x1024) (k0_off1 d (BitVec.ofNat 32 (128 * k.val))) S128x1024.size (k0_off1_inb d k)).set := by
  simp only [Memref.view_slice, Memref.view_whole, View.set_slice_whole]
private theorem oSl_set (d : Dev nD) (k : Fin 32) :
    (oSl d k).view.set = (Rect.unit (s := S8192x1024) (k0_off1 d (BitVec.ofNat 32 (128 * k.val))) S128x1024.size (k0_off1_inb d k)).set := by
  simp only [Memref.view_slice, Memref.view_whole, View.set_slice_whole]

private theorem plane_disjoint (k k' : Fin 32) (h : k ≠ k') :
    Disjoint (Rect.unit (s := S32x128x1024) ![k.val, 0, 0] S1x128x1024.size (inb3 k)).set
      (Rect.unit (s := S32x128x1024) ![k'.val, 0, 0] S1x128x1024.size (inb3 k')).set := by
  rw [Finset.disjoint_left]
  intro i hi hi'
  rw [mem_plane] at hi hi'
  exact h (Fin.ext (hi.symm.trans hi'))

private theorem plane_cover :
    (Finset.univ.biUnion fun k : Fin 32 => (Rect.unit (s := S32x128x1024) ![k.val, 0, 0] S1x128x1024.size (inb3 k)).set)
      = Finset.univ := by
  ext i
  simp only [Finset.mem_biUnion, Finset.mem_univ, true_and, iff_true]
  have h0 : (i 0).val < 32 := (i 0).isLt
  exact ⟨⟨(i 0).val, h0⟩, (mem_plane _ i).mpr rfl⟩

private theorem rows_disjoint (d : Dev nD) (k k' : Fin 32) (h : k ≠ k') :
    Disjoint (Rect.unit (s := S8192x1024) (k0_off1 d (BitVec.ofNat 32 (128 * k.val))) S128x1024.size (k0_off1_inb d k)).set
      (Rect.unit (s := S8192x1024) (k0_off1 d (BitVec.ofNat 32 (128 * k'.val))) S128x1024.size (k0_off1_inb d k')).set := by
  rw [Finset.disjoint_left]
  intro i hi hi'
  rw [mem_rows] at hi hi'
  exact h (Fin.ext (by omega))

private theorem mem_rows_biUnion (d : Dev nD) (i : S8192x1024.Idx) :
    (i ∈ Finset.univ.biUnion fun k : Fin 32 => (Rect.unit (s := S8192x1024) (k0_off1 d (BitVec.ofNat 32 (128 * k.val))) S128x1024.size (k0_off1_inb d k)).set)
      ↔ (i 0).val / 4096 = half d := by
  have hd := half_lt d
  have h0 : (i 0).val < 8192 := (i 0).isLt
  rw [Finset.mem_biUnion]
  constructor
  · rintro ⟨k, -, hk⟩
    have hk' := (mem_rows d k i).mp hk
    have := k.isLt
    omega
  · intro h
    have hlt : ((i 0).val - 4096 * half d) / 128 < 32 := by omega
    refine ⟨⟨((i 0).val - 4096 * half d) / 128, hlt⟩, Finset.mem_univ _, (mem_rows d _ i).mpr ?_⟩
    show 4096 * half d + 128 * (((i 0).val - 4096 * half d) / 128) ≤ (i 0).val
      ∧ (i 0).val < 4096 * half d + 128 * (((i 0).val - 4096 * half d) / 128) + 128
    omega

private abbrev planeSet (k : Fin 32) : Finset S32x128x1024.Idx :=
  (Rect.unit (s := S32x128x1024) ![k.val, 0, 0] S1x128x1024.size (inb3 k)).set

private abbrev rowsSet (d : Dev nD) (k : Fin 32) : Finset S8192x1024.Idx :=
  (Rect.unit (s := S8192x1024) (k0_off1 d (BitVec.ofNat 32 (128 * k.val))) S128x1024.size (k0_off1_inb d k)).set

theorem scratch0_pieces (c : Dev nD) (f : Buf (Elt F) ((c : Thread nD τ).loc cc0_scratch0)) :
    (((c : Thread nD τ).loc cc0_scratch0) ↦{fullShare} f : sProp 𝕄)
      ⊣⊢ bigSep Finset.univ fun k : Fin 32 => ((vrSl k).view.loc (c : Thread nD τ) ↦[(vrSl k).view.set]{fullShare} f) := by
  have e : ∀ k : Fin 32, ((vrSl k).view.loc (c : Thread nD τ) ↦[(vrSl k).view.set]{fullShare} f : sProp 𝕄)
      = (((c : Thread nD τ).loc cc0_scratch0) ↦[planeSet k]{fullShare} f) :=
    fun k => congrArg (fun S => (((c : Thread nD τ).loc cc0_scratch0) ↦[S]{fullShare} f : sProp 𝕄)) (vrSl_set k)
  have h := pointsTo_biUnion (Ix := Unit) (Val := Elt F) (Name := ℕ) (U := UU) (Lvl := ℕ) (q := fullShare)
    (ℓ := (c : Thread nD τ).loc cc0_scratch0) (f := f) Finset.univ planeSet (fun k _ k' _ h => plane_disjoint k k' h)
  rw [plane_cover] at h
  rw [funext e]
  exact BiEntails.of_eq h

theorem scratch1_pieces (c : Dev nD) (f : Buf (Elt F) ((c : Thread nD τ).loc cc0_scratch1)) :
    (((c : Thread nD τ).loc cc0_scratch1) ↦{fullShare} f : sProp 𝕄)
      ⊣⊢ bigSep Finset.univ fun k : Fin 32 => ((vxSl k).view.loc (c : Thread nD τ) ↦[(vxSl k).view.set]{fullShare} f) := by
  have e : ∀ k : Fin 32, ((vxSl k).view.loc (c : Thread nD τ) ↦[(vxSl k).view.set]{fullShare} f : sProp 𝕄)
      = (((c : Thread nD τ).loc cc0_scratch1) ↦[planeSet k]{fullShare} f) :=
    fun k => congrArg (fun S => (((c : Thread nD τ).loc cc0_scratch1) ↦[S]{fullShare} f : sProp 𝕄)) (vxSl_set k)
  have h := pointsTo_biUnion (Ix := Unit) (Val := Elt F) (Name := ℕ) (U := UU) (Lvl := ℕ) (q := fullShare)
    (ℓ := (c : Thread nD τ).loc cc0_scratch1) (f := f) Finset.univ planeSet (fun k _ k' _ h => plane_disjoint k k' h)
  rw [plane_cover] at h
  rw [funext e]
  exact BiEntails.of_eq h

private theorem halves_disjoint (c : Dev nD) :
    Disjoint (Finset.univ.biUnion (rowsSet c)) (Finset.univ.biUnion (rowsSet (yp c))) := by
  rw [Finset.disjoint_left]
  intro i hi hi'
  rw [mem_rows_biUnion] at hi hi'
  rw [half_yp] at hi'
  have := half_lt c
  omega

private theorem halves_cover (c : Dev nD) :
    Finset.univ.biUnion (rowsSet c) ∪ Finset.univ.biUnion (rowsSet (yp c)) = Finset.univ := by
  ext i
  rw [Finset.mem_union, mem_rows_biUnion, mem_rows_biUnion, half_yp]
  have := half_lt c
  have h0 : (i 0).val < 8192 := (i 0).isLt
  simp only [Finset.mem_univ, iff_true]
  omega

theorem result_pieces (c : Dev nD) (f : Buf (Elt F) ((c : Thread nD τ).loc main_v1)) :
    (((c : Thread nD τ).loc main_v1) ↦{fullShare} f : sProp 𝕄)
      ⊣⊢ iprop((bigSep Finset.univ fun k : Fin 32 => ((oSl c k).view.loc (c : Thread nD τ) ↦[(oSl c k).view.set]{fullShare} f))
          ∗ (bigSep Finset.univ fun k : Fin 32 => ((oSl (yp c) k).view.loc (c : Thread nD τ) ↦[(oSl (yp c) k).view.set]{fullShare} f))) := by
  have e : ∀ (d : Dev nD) (k : Fin 32), ((oSl d k).view.loc (c : Thread nD τ) ↦[(oSl d k).view.set]{fullShare} f : sProp 𝕄)
      = (((c : Thread nD τ).loc main_v1) ↦[rowsSet d k]{fullShare} f) :=
    fun d k => congrArg (fun S => (((c : Thread nD τ).loc main_v1) ↦[S]{fullShare} f : sProp 𝕄)) (oSl_set d k)
  have h := fun d : Dev nD => pointsTo_biUnion (Ix := Unit) (Val := Elt F) (Name := ℕ) (U := UU) (Lvl := ℕ) (q := fullShare)
    (ℓ := (c : Thread nD τ).loc main_v1) (f := f) Finset.univ (rowsSet d) (fun k _ k' _ h => rows_disjoint d k k' h)
  have hU := pointsTo_union (Ix := Unit) (Val := Elt F) (Name := ℕ) (U := UU) (Lvl := ℕ) (q := fullShare)
    (ℓ := (c : Thread nD τ).loc main_v1) (f := f) (halves_disjoint c)
  rw [halves_cover, h c, h (yp c)] at hU
  rw [funext (e c), funext (e (yp c))]
  exact hU

theorem arg_pieces (c : Dev nD) (q : PosShare TreeShare) (f : Buf (Elt F) ((c : Thread nD τ).loc main_arg0)) :
    (((c : Thread nD τ).loc main_arg0) ↦{q} f : sProp 𝕄)
      ⊣⊢ iprop((bigSep Finset.univ fun k : Fin 32 => ((xSl c k).view.loc (c : Thread nD τ) ↦[(xSl c k).view.set]{q} f))
          ∗ (((c : Thread nD τ).loc main_arg0) ↦[Finset.univ \ (Finset.univ.biUnion fun k : Fin 32 => (xSl c k).view.set)]{q} f)) := by
  have e : ∀ k : Fin 32, ((xSl c k).view.loc (c : Thread nD τ) ↦[(xSl c k).view.set]{q} f : sProp 𝕄)
      = (((c : Thread nD τ).loc main_arg0) ↦[rowsSet c k]{q} f) :=
    fun k => congrArg (fun S => (((c : Thread nD τ).loc main_arg0) ↦[S]{q} f : sProp 𝕄)) (xSl_set c k)
  have h := pointsTo_biUnion (Ix := Unit) (Val := Elt F) (Name := ℕ) (U := UU) (Lvl := ℕ) (q := q)
    (ℓ := (c : Thread nD τ).loc main_arg0) (f := f) Finset.univ (rowsSet c) (fun k _ k' _ h => rows_disjoint c k k' h)
  have hS := pointsTo_split_subset (Ix := Unit) (Val := Elt F) (Name := ℕ) (U := UU) (Lvl := ℕ) (q := q)
    (ℓ := (c : Thread nD τ).loc main_arg0) (f := f) (Finset.subset_univ (Finset.univ.biUnion (rowsSet c)))
  rw [h] at hS
  rw [funext e, funext (xSl_set c)]
  exact hS

end Cert.Kernel.AR

end
-- ==== Proof.K.DevEqs.lean ====
import proofs.«900708_g7700000000000709_dist_ar_v7x_xyz2x2x4_x_m8192_n1024_f32_1_alg».proof.Proof.K.Base

namespace Cert.Kernel.AR

open Cert.Kernel Cert.Kernel.Gen Idealize.ShloMosaic

theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem dev3_eq (c : Dev nD) : (⟨k0_dev3 c, k0_dev3_lt c⟩ : Dev nD) = xp c := Fin.ext (k0_dev3_eq c)
theorem dev35_eq (c : Dev nD) : (⟨k0_dev35 c, k0_dev35_lt c⟩ : Dev nD) = yp c := Fin.ext (k0_dev35_eq c)

end Cert.Kernel.AR
-- ==== Proof.K.Frame.lean ====
import proofs.«900708_g7700000000000709_dist_ar_v7x_xyz2x2x4_x_m8192_n1024_f32_1_alg».proof.Proof.K.Bundle
import proofs.«900708_g7700000000000709_dist_ar_v7x_xyz2x2x4_x_m8192_n1024_f32_1_alg».proof.Proof.K.Pieces

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def semEquiv : Fin 32 × Fin 6 ≃ DmaSem sig where
  toFun p := ⟨32 * p.2.val + p.1.val, by have h1 := p.1.isLt; have h2 := p.2.isLt; show 32 * p.2.val + p.1.val < 192; omega⟩
  invFun s := (⟨s.val % 32, Nat.mod_lt _ (by decide)⟩, ⟨s.val / 32, by have h : s.val < 192 := s.isLt; omega⟩)
  left_inv p := by
    obtain ⟨⟨k, hk⟩, ⟨a, ha⟩⟩ := p
    exact Prod.ext (Fin.ext (by show (32 * a + k) % 32 = k; omega)) (Fin.ext (by show (32 * a + k) / 32 = a; omega))
  right_inv s := Fin.ext (by show 32 * (s.val / 32) + s.val % 32 = s.val; omega)

theorem semEquiv_xs (k : Fin 32) : semEquiv (k, 0) = xsSem k := Fin.ext (by rw [xs_val]; show 32 * 0 + k.val = k.val; omega)
theorem semEquiv_xr (k : Fin 32) : semEquiv (k, 1) = xrSem k := Fin.ext (by rw [xr_val]; show 32 * 1 + k.val = 32 + k.val; omega)
theorem semEquiv_ys (k : Fin 32) : semEquiv (k, 2) = ysSem k := Fin.ext (by rw [ys_val]; show 32 * 2 + k.val = 64 + k.val; omega)
theorem semEquiv_yr (k : Fin 32) : semEquiv (k, 3) = yrSem k := Fin.ext (by rw [yr_val]; show 32 * 3 + k.val = 96 + k.val; omega)
theorem semEquiv_ld (k : Fin 32) : semEquiv (k, 4) = ldSem k := Fin.ext (by rw [ld_val]; show 32 * 4 + k.val = 128 + k.val; omega)
theorem semEquiv_st (k : Fin 32) : semEquiv (k, 5) = stSem k := Fin.ext (by rw [st_val]; show 32 * 5 + k.val = 160 + k.val; omega)

theorem dma_by_chunk_eq (Φ : DmaSem sig → sProp 𝕄) :
    bigSep (Finset.univ : Finset (DmaSem sig)) Φ = bigSep Finset.univ fun k : Fin 32 =>
      iprop(Φ (xsSem k) ∗ Φ (xrSem k) ∗ Φ (ysSem k) ∗ Φ (yrSem k) ∗ Φ (ldSem k) ∗ Φ (stSem k)) := by
  rw [bigSep_univ_equiv semEquiv Φ, bigSep_univ_prod]
  refine bigSep_congr fun k _ => ?_
  rw [bigSep_univ_eq_bigSepL [0, 1, 2, 3, 4, 5] (by decide) (by decide)]
  simp only [bigSepL_cons_cons, bigSepL_singleton]
  rw [semEquiv_xs, semEquiv_xr, semEquiv_ys, semEquiv_yr, semEquiv_ld, semEquiv_st]
  rfl

theorem semloc_split_eq (Ψ : SemLoc sig → sProp 𝕄) :
    bigSep (Finset.univ : Finset (SemLoc sig)) Ψ
      = iprop(Ψ (.reg barS) ∗ bigSep (Finset.univ : Finset (DmaSem sig)) fun s => Ψ (.dma s)) := by
  haveI : Subsingleton (Sem sig) := inferInstanceAs (Subsingleton (Fin 1))
  rw [bigSep_univ_equiv (SemLoc.equivSum sig).symm Ψ, bigSep_univ_sum, bigSep_univ_of_subsingleton barS]
  rfl

theorem chunkInv_of (K : Dev nD × SemLoc sig → ℕ) (c : Dev nD) (k : Fin 32) :
    iprop(invs m K c ∗ reaches c) ⊢ chunkInv m K c k := by
  have eI : ∀ sm : SemLoc sig, bigSep Finset.univ (fun sm : SemLoc sig => cellInv ER (Rd m) (K (c, sm)) (kcell (c, sm)))
      ⊢ (cellInv ER (Rd m) (K (c, sm)) (kcell (c, sm)) : sProp 𝕄) := fun sm => bigSep_elim (Finset.mem_univ sm)
  have eIX : bigSep Finset.univ (fun k : Fin 32 => cellInv ER (Rd m) (K (xp c, .dma (xrSem k))) (xrCell (xp c) k))
      ⊢ (cellInv ER (Rd m) (K (xp c, .dma (xrSem k))) (xrCell (xp c) k) : sProp 𝕄) := bigSep_elim (Finset.mem_univ k)
  have eIY : bigSep Finset.univ (fun k : Fin 32 => cellInv ER (Rd m) (K (yp c, .dma (yrSem k))) (yrCell (yp c) k))
      ⊢ (cellInv ER (Rd m) (K (yp c, .dma (yrSem k))) (yrCell (yp c) k) : sProp 𝕄) := bigSep_elim (Finset.mem_univ k)
  have eR : ∀ sm : SemLoc sig, bigSep Finset.univ (fun sm : SemLoc sig => reached ER (kcell (c, sm)) 0)
      ⊢ (reached ER (kcell (c, sm)) 0 : sProp 𝕄) := fun sm => bigSep_elim (Finset.mem_univ sm)
  have eRX : bigSep Finset.univ (fun k : Fin 32 => reached ER (xrCell (xp c) k) 0)
      ⊢ (reached ER (xrCell (xp c) k) 0 : sProp 𝕄) := bigSep_elim (Finset.mem_univ k)
  have eRY : bigSep Finset.univ (fun k : Fin 32 => reached ER (yrCell (yp c) k) 0)
      ⊢ (reached ER (yrCell (yp c) k) 0 : sProp 𝕄) := bigSep_elim (Finset.mem_univ k)
  unfold invs reaches chunkInv
  iintro ⟨⟨#I, -, -, #IX, #IY⟩, ⟨#R, -, -, #RX, #RY⟩⟩
  isplitr; · iapply (eI (.dma (xsSem k))); iexact I
  isplitr; · iapply (eI (.dma (xrSem k))); iexact I
  isplitr; · iapply (eI (.dma (ysSem k))); iexact I
  isplitr; · iapply (eI (.dma (yrSem k))); iexact I
  isplitr; · iapply (eI (.dma (ldSem k))); iexact I
  isplitr; · iapply (eI (.dma (stSem k))); iexact I
  isplitr; · iapply eIX; iexact IX
  isplitr; · iapply eIY; iexact IY
  isplitr; · iapply (eR (.dma (xsSem k))); iexact R
  isplitr; · iapply (eR (.dma (xrSem k))); iexact R
  isplitr; · iapply (eR (.dma (ysSem k))); iexact R
  isplitr; · iapply (eR (.dma (yrSem k))); iexact R
  isplitr; · iapply (eR (.dma (ldSem k))); iexact R
  isplitr; · iapply (eR (.dma (stSem k))); iexact R
  isplitr; · iapply eRX; iexact RX
  iapply eRY; iexact RY

theorem chunk_start (c : Dev nD) (k : Fin 32) (f1 : Buf (Elt F) ((c : Thread nD τ).loc cc0_scratch1))
    (f2 : Buf (Elt F) ((c : Thread nD τ).loc main_v1)) :
    iprop((atPos ER (xsCell c k) 0 ∅ 0 ∗ atPos ER (xrCell c k) 0 ∅ 0 ∗ atPos ER (ysCell c k) 0 ∅ 0
          ∗ atPos ER (yrCell c k) 0 ∅ 0 ∗ atPos ER (ldCell c k) 0 ∅ 0 ∗ atPos ER (stCell c k) 0 ∅ 0)
      ∗ dutyTok ER (xrCell (xp c) k) 0 false
      ∗ dutyTok ER (yrCell (yp c) k) 0 false
      ∗ (dutyTok ER (xsCell c k) 0 false ∗ dutyTok ER (ysCell c k) 0 false ∗ dutyTok ER (ldCell c k) 0 false ∗ dutyTok ER (stCell c k) 0 false)
      ∗ cred (tallyAt (xrCell c k) () N)
      ∗ cred (tallyAt (yrCell c k) () N)
      ∗ ((xSl c k).view.loc (c : Thread nD τ) ↦[(xSl c k).view.set]{fullShare} argC m c)
      ∗ ((vxSl k).view.loc (c : Thread nD τ) ↦[(vxSl k).view.set]{fullShare} f1)
      ∗ ((oSl c k).view.loc (c : Thread nD τ) ↦[(oSl c k).view.set]{fullShare} f2)
      ∗ ((∃ f, ((vrSl k).view.loc (xp c : Thread nD τ) ↦[(vrSl k).view.set]{fullShare} f)) ∗ reached ER (xrCell (xp c) k) 0)
      ∗ ((∃ f, ((oSl c k).view.loc (yp c : Thread nD τ) ↦[(oSl c k).view.set]{fullShare} f)) ∗ reached ER (yrCell (yp c) k) 0))
    ⊢ (chunkSt m c k 0 : sProp 𝕄) := by
  show _ ⊢ iprop(aArg m c k ∗ aVxAny c k ∗ aVrPeer c k ∗ aOPeer c k ∗ aOOwnAny c k
      ∗ tLd c k ∗ tXs c k ∗ tXr c k ∗ tYs c k ∗ tYr c k ∗ tSt c k ∗ aPos c k 0 0 0 0 0 0 ∗ crXr c k ∗ crYr c k)
  unfold aArg aVxAny aVrPeer aOPeer aOOwnAny tLd tXs tXr tYs tYr tSt aPos crXr crYr
  iintro ⟨⟨Pxs, Pxr, Pys, Pyr, Pld, Pst⟩, TXr, TYr, ⟨TXs, TYs, TLd, TSt⟩, CXr, CYr, A, Vx, O, ⟨Vr, -⟩, ⟨Op, -⟩⟩
  isplitl [A]; · iexact A
  isplitl [Vx]; · iexists f1; iexact Vx
  isplitl [Vr]; · iexact Vr
  isplitl [Op]; · iexact Op
  isplitl [O]; · iexists f2; iexact O
  isplitl [TLd]; · iexact TLd
  isplitl [TXs]; · iexact TXs
  isplitl [TXr]; · iexact TXr
  isplitl [TYs]; · iexact TYs
  isplitl [TYr]; · iexact TYr
  isplitl [TSt]; · iexact TSt
  isplitl [Pxs Pxr Pys Pyr Pld Pst]
  · isplitl [Pld]; · iexact Pld
    isplitl [Pxs]; · iexact Pxs
    isplitl [Pxr]; · iexact Pxr
    isplitl [Pys]; · iexact Pys
    isplitl [Pyr]; · iexact Pyr
    iexact Pst
  isplitl [CXr]; · iexact CXr
  iexact CYr

theorem bundles_intro (K : Dev nD × SemLoc sig → ℕ) (c : Dev nD) (f1 : Buf (Elt F) ((c : Thread nD τ).loc cc0_scratch1))
    (f2 : Buf (Elt F) ((c : Thread nD τ).loc main_v1)) :
    iprop(invs m K c ∗ reaches c
      ∗ (bigSep Finset.univ fun s : DmaSem sig => atPos ER (kcell (c, .dma s)) 0 ∅ 0)
      ∗ (bigSep Finset.univ fun k : Fin 32 => dutyTok ER (xrCell (xp c) k) 0 false)
      ∗ (bigSep Finset.univ fun k : Fin 32 => dutyTok ER (yrCell (yp c) k) 0 false)
      ∗ (bigSep Finset.univ fun k : Fin 32 => iprop(dutyTok ER (xsCell c k) 0 false ∗ dutyTok ER (ysCell c k) 0 false ∗ dutyTok ER (ldCell c k) 0 false ∗ dutyTok ER (stCell c k) 0 false))
      ∗ (bigSep Finset.univ fun k : Fin 32 => cred (tallyAt (xrCell c k) () N))
      ∗ (bigSep Finset.univ fun k : Fin 32 => cred (tallyAt (yrCell c k) () N))
      ∗ (bigSep Finset.univ fun k : Fin 32 => ((xSl c k).view.loc (c : Thread nD τ) ↦[(xSl c k).view.set]{fullShare} argC m c))
      ∗ (bigSep Finset.univ fun k : Fin 32 => ((vxSl k).view.loc (c : Thread nD τ) ↦[(vxSl k).view.set]{fullShare} f1))
      ∗ (bigSep Finset.univ fun k : Fin 32 => ((oSl c k).view.loc (c : Thread nD τ) ↦[(oSl c k).view.set]{fullShare} f2))
      ∗ barPayX c ∗ barPayY c)
    ⊢ (bigSep Finset.univ fun k : Fin 32 => iprop(chunkInv m K c k ∗ chunkSt m c k 0) : sProp 𝕄) := by

  have hI : iprop(invs m K c ∗ reaches c) ⊢ (bigSep Finset.univ fun k : Fin 32 => chunkInv m K c k : sProp 𝕄) :=
    bigSep_intro_persistent fun k _ => chunkInv_of m K c k

  have hS : iprop((bigSep Finset.univ fun s : DmaSem sig => atPos ER (kcell (c, .dma s)) 0 ∅ 0)
      ∗ (bigSep Finset.univ fun k : Fin 32 => dutyTok ER (xrCell (xp c) k) 0 false)
      ∗ (bigSep Finset.univ fun k : Fin 32 => dutyTok ER (yrCell (yp c) k) 0 false)
      ∗ (bigSep Finset.univ fun k : Fin 32 => iprop(dutyTok ER (xsCell c k) 0 false ∗ dutyTok ER (ysCell c k) 0 false ∗ dutyTok ER (ldCell c k) 0 false ∗ dutyTok ER (stCell c k) 0 false))
      ∗ (bigSep Finset.univ fun k : Fin 32 => cred (tallyAt (xrCell c k) () N))
      ∗ (bigSep Finset.univ fun k : Fin 32 => cred (tallyAt (yrCell c k) () N))
      ∗ (bigSep Finset.univ fun k : Fin 32 => ((xSl c k).view.loc (c : Thread nD τ) ↦[(xSl c k).view.set]{fullShare} argC m c))
      ∗ (bigSep Finset.univ fun k : Fin 32 => ((vxSl k).view.loc (c : Thread nD τ) ↦[(vxSl k).view.set]{fullShare} f1))
      ∗ (bigSep Finset.univ fun k : Fin 32 => ((oSl c k).view.loc (c : Thread nD τ) ↦[(oSl c k).view.set]{fullShare} f2))
      ∗ barPayX c ∗ barPayY c)
      ⊢ (bigSep Finset.univ fun k : Fin 32 => chunkSt m c k 0 : sProp 𝕄) := by
    rw [dma_by_chunk_eq]
    unfold barPayX barPayY
    simp only [← bigSep_sep']
    exact bigSep_mono fun k _ => chunk_start m c k f1 f2
  rw [bigSep_sep' Finset.univ (fun k : Fin 32 => chunkInv m K c k) (fun k : Fin 32 => chunkSt m c k 0)]
  iintro ⟨HI, HR, HS⟩
  isplitl [HI HR]
  · iapply hI; isplitl [HI]; · iexact HI
    iexact HR
  · iapply hS; iexact HS

def closedChunk (c : Dev nD) (k : Fin 32) : sProp 𝕄 :=
  iprop(aArg m c k ∗ aVx m c k ∗ aVrSum m c k ∗ aOOther m c k ∗ aOOwn m c k
    ∗ semVal (xsCell c k) 0 ∗ semVal (xrCell c k) 0 ∗ semVal (ysCell c k) 0 ∗ semVal (yrCell c k) 0
    ∗ semVal (ldCell c k) 0 ∗ semVal (stCell c k) 0)

theorem chunk_closed (c : Dev nD) (k : Fin 32) :
    closedChunk m c k ⊢ iprop(((xSl c k).view.loc (c : Thread nD τ) ↦[(xSl c k).view.set]{fullShare} argC m c)
      ∗ ((vxSl k).view.loc (c : Thread nD τ) ↦[(vxSl k).view.set]{fullShare} (vxIn m c : Buf (Elt F) _))
      ∗ ((vrSl k).view.loc (c : Thread nD τ) ↦[(vrSl k).view.set]{fullShare} (vrSum m c : Buf (Elt F) _))
      ∗ (((oSl c k).view.loc (c : Thread nD τ) ↦[(oSl c k).view.set]{fullShare} outC m c)
        ∗ ((oSl (yp c) k).view.loc (c : Thread nD τ) ↦[(oSl (yp c) k).view.set]{fullShare} outC m c))
      ∗ (semVal (xsCell c k) 0 ∗ semVal (xrCell c k) 0 ∗ semVal (ysCell c k) 0 ∗ semVal (yrCell c k) 0
        ∗ semVal (ldCell c k) 0 ∗ semVal (stCell c k) 0)) := by
  unfold closedChunk aArg aVx aVrSum aOOther aOOwn
  iintro ⟨A, Vx, Vr, Oo, Ow, Sxs, Sxr, Sys, Syr, Sld, Sst⟩
  isplitl [A]; · iexact A
  isplitl [Vx]; · iexact Vx
  isplitl [Vr]; · iexact Vr
  isplitl [Oo Ow]
  · isplitl [Ow]; · iexact Ow
    iexact Oo
  isplitl [Sxs]; · iexact Sxs
  isplitl [Sxr]; · iexact Sxr
  isplitl [Sys]; · iexact Sys
  isplitl [Syr]; · iexact Syr
  isplitl [Sld]; · iexact Sld
  iexact Sst

theorem bundles_join (c : Dev nD) :
    (bigSep Finset.univ fun k : Fin 32 => closedChunk m c k)
    ⊢ iprop((bigSep Finset.univ fun k : Fin 32 => ((xSl c k).view.loc (c : Thread nD τ) ↦[(xSl c k).view.set]{fullShare} argC m c))
        ∗ (((c : Thread nD τ).loc cc0_scratch1) ↦{fullShare} (vxIn m c : Buf (Elt F) _))
        ∗ (((c : Thread nD τ).loc cc0_scratch0) ↦{fullShare} (vrSum m c : Buf (Elt F) _))
        ∗ (((c : Thread nD τ).loc main_v1) ↦{fullShare} outC m c)
        ∗ (bigSep Finset.univ fun s : DmaSem sig => semVal ((c : Thread nD τ), .dma s) 0)) := by
  have e1 := Entails.antisymm (scratch1_pieces (F := F) c (vxIn m c)).mp (scratch1_pieces (F := F) c (vxIn m c)).mpr
  have e0 := Entails.antisymm (scratch0_pieces (F := F) c (vrSum m c)).mp (scratch0_pieces (F := F) c (vrSum m c)).mpr
  have eo := Entails.antisymm (result_pieces (F := F) c (outC m c)).mp (result_pieces (F := F) c (outC m c)).mpr
  rw [e1, e0, eo, dma_by_chunk_eq]
  simp only [← bigSep_sep']
  exact bigSep_mono fun k _ => chunk_closed m c k

end Cert.Kernel.AR

end
-- ==== Proof.K.Close.lean ====
import proofs.«900708_g7700000000000709_dist_ar_v7x_xyz2x2x4_x_m8192_n1024_f32_1_alg».proof.Proof.K.Bundle
import proofs.«900708_g7700000000000709_dist_ar_v7x_xyz2x2x4_x_m8192_n1024_f32_1_alg».proof.Proof.K.Pieces
import proofs.«900708_g7700000000000709_dist_ar_v7x_xyz2x2x4_x_m8192_n1024_f32_1_alg».proof.Proof.K.StepsB
import proofs.«900708_g7700000000000709_dist_ar_v7x_xyz2x2x4_x_m8192_n1024_f32_1_alg».proof.Proof.K.Frame

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem body_close (K : Dev nD × SemLoc sig → ℕ) (c : Dev nD) :
    iprop((bigSep Finset.univ fun k : Fin 32 => iprop(chunkInv m K c k ∗ chunkSt m c k 11))
        ∗ (((c : Thread nD τ).loc main_arg0) ↦[Finset.univ \ (Finset.univ.biUnion fun k : Fin 32 => (xSl c k).view.set)]{fullShare} argC m c))
      ⊢ |={Set.univ}=> Φ₁ m c := by

  have h1 : (bigSep Finset.univ fun k : Fin 32 => iprop(chunkInv m K c k ∗ chunkSt m c k 11))
      ⊢ iprop(|={Set.univ}=> bigSep Finset.univ fun k : Fin 32 => closedChunk m c k) :=
    (bigSep_mono (Ψ := fun k : Fin 32 => iprop(|={Set.univ}=> closedChunk m c k)) fun k _ => chunk_close m K c k).trans
      (bigSep_fupd Finset.univ fun k : Fin 32 => closedChunk m c k)
  refine (sep_mono_left h1).trans (fupd_frame_right.trans (fupd_mono ?_))
  unfold Φ₁
  iintro ⟨Hc, Hrest⟩
  ihave H := (bundles_join m c) $$ Hc
  icases H with ⟨Hrows, Hs1, Hs0, Hout, Hsem⟩
  isplitl [Hrows Hrest]
  · iapply (arg_pieces c fullShare (argC m c)).2
    isplitl [Hrows]; · iexact Hrows
    iexact Hrest
  isplitl [Hout]; · iexact Hout
  isplitl [Hs0]; · iexists (vrSum m c : Buf (Elt F) _); iexact Hs0
  isplitl [Hs1]; · iexists (vxIn m c : Buf (Elt F) _); iexact Hs1
  iexact Hsem

end Cert.Kernel.AR

end
-- ==== Proof.K.Body.lean ====
import proofs.«900708_g7700000000000709_dist_ar_v7x_xyz2x2x4_x_m8192_n1024_f32_1_alg».proof.Proof.K.StepsA
import proofs.«900708_g7700000000000709_dist_ar_v7x_xyz2x2x4_x_m8192_n1024_f32_1_alg».proof.Proof.K.StepsB
import proofs.«900708_g7700000000000709_dist_ar_v7x_xyz2x2x4_x_m8192_n1024_f32_1_alg».proof.Proof.K.Fold
import proofs.«900708_g7700000000000709_dist_ar_v7x_xyz2x2x4_x_m8192_n1024_f32_1_alg».proof.Proof.K.Pieces
import proofs.«900708_g7700000000000709_dist_ar_v7x_xyz2x2x4_x_m8192_n1024_f32_1_alg».proof.Proof.K.DevEqs
import proofs.«900708_g7700000000000709_dist_ar_v7x_xyz2x2x4_x_m8192_n1024_f32_1_alg».proof.Proof.K.Frame
import proofs.«900708_g7700000000000709_dist_ar_v7x_xyz2x2x4_x_m8192_n1024_f32_1_alg».proof.Proof.K.Close
import Idealize.ShloMosaic.Lib.Tactic

noncomputable section

namespace Cert.Kernel.AR

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem owes_congr (c : Dev nD) {O O' : CellTallies nD τ sig Unit} (h : O = O') (W : Waits sig Unit) :
    (owes (c : Thread nD τ) O W : sProp 𝕄) ⊢ owes (c : Thread nD τ) O' W := by subst h; exact .rfl

theorem inv_own (K : Dev nD × SemLoc sig → ℕ) (c : Dev nD) (sm : SemLoc sig) :
    (bigSep Finset.univ fun sm : SemLoc sig => (cellInv ER (Rd m) (K (c, sm)) (kcell (c, sm)) : sProp 𝕄)) ⊢ cellInv ER (Rd m) (K (c, sm)) (kcell (c, sm)) :=
  bigSep_elim (Finset.mem_univ sm)

theorem bar_payloads (c : Dev nD) : bigSep ((Rd (F := F) m).duties (kcell (c, SemLoc.reg barS)) 0) (fun d => (Rd (F := F) m).payload (kcell (c, SemLoc.reg barS)) 0 d) = iprop(barPayX c ∗ barPayY c) := by
  rw [show kcell (c, SemLoc.reg barS) = barCell c from rfl, duties_bar, bigSep_univ_eq_bigSepL [false, true] (by decide) (by decide), bigSepL_cons_cons, bigSepL_singleton,
    payload_bar_false, payload_bar_true]
  rfl

def chunkAt (K : Dev nD × SemLoc sig → ℕ) (c : Dev nD) (p : Fin 32 × ℕ) : sProp 𝕄 := iprop(chunkInv m K c p.1 ∗ chunkSt m c p.1 p.2)

omit [FloatOps F] in
theorem bigSepL_snoc {I : Type} (l : List I) (a : I) (Φ : I → sProp 𝕄) : iprop(bigSepL l Φ ∗ Φ a) ⊢ bigSepL (l ++ [a]) Φ := by
  induction l with
  | nil => exact BI.emp_sep.1
  | cons i l ih =>
    rw [List.cons_append, bigSepL_cons, bigSepL_cons]
    exact BI.sep_assoc.trans (BI.sep_mono_r ih)

omit [FloatOps F] in
theorem bigSepL_map {I J : Type} (f : I → J) (l : List I) (Φ : J → sProp 𝕄) : bigSepL (l.map f) Φ = bigSepL l fun i => Φ (f i) := by
  induction l with
  | nil => rfl
  | cons i l ih => rw [List.map_cons, bigSepL_cons, bigSepL_cons, ih]

theorem chunks_all (K : Dev nD × SemLoc sig → ℕ) (c : Dev nD) (s : ℕ) :
    (bigSep Finset.univ fun k : Fin 32 => iprop(chunkInv m K c k ∗ chunkSt m c k s)) = bigSepL (([0, 1, 2, 3, 4, 5, 6, 7, 8, 9, 10, 11, 12, 13, 14, 15, 16, 17, 18, 19, 20, 21, 22, 23, 24, 25, 26, 27, 28, 29, 30, 31] : List (Fin 32)).map fun k => (k, s)) (chunkAt m K c) := by
  rw [bigSepL_map]
  exact bigSep_univ_eq_bigSepL _ (by decide) (by decide) _

theorem chunks_pop {K : Dev nD × SemLoc sig → ℕ} {c : Dev nD} {k : Fin 32} {s : ℕ} {l : List (Fin 32 × ℕ)} :
    bigSepL ((k, s) :: l) (chunkAt m K c) ⊢ iprop(chunkInv m K c k ∗ chunkSt m c k s ∗ bigSepL l (chunkAt m K c)) := by
  rw [bigSepL_cons]; exact BI.sep_assoc

theorem chunks_push {K : Dev nD × SemLoc sig → ℕ} {c : Dev nD} (s : ℕ) {k : Fin 32} {l : List (Fin 32 × ℕ)} :
    bigSepL l (chunkAt m K c) ⊢ iprop(chunkInv m K c k -∗ chunkSt m c k s -∗ bigSepL (l ++ [(k, s)]) (chunkAt m K c)) := by
  iintro Hq #Hi Hb
  iapply (bigSepL_snoc l (k, s) (chunkAt m K c))
  isplitl [Hq]; · iexact Hq
  unfold chunkAt
  isplitr; · iexact Hi
  iexact Hb

attribute [local sl_rounds] duties_bar duties_dma amount_bar amount_dma expect_bar expect_dma payload_bar_false payload_bar_true payload_dma rest_bar
attribute [local sl_canon] dev1_eq dev2_eq

set_option maxHeartbeats 0 in
theorem sound_body (c : Dev nD) (W₀ : Waits sig Unit) (Kt : PUnit → sProp 𝕄) :
    iprop(Φ₀ m c ∗ owes (c : Thread nD τ) (O₀ c) W₀ ∗ (iprop(Φ₁ m c ∗ ∃ W, owes (c : Thread nD τ) 0 W) -∗ Kt ⟨⟩))
      ⊢ wp frame (wpE (defs₀ (F := F)) 𝒱₀ (c : Thread nD τ) none) Set.univ
          (cc0_body (F := F) (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7) Kt := by
  unfold Φ₀ start ghost payToks creds
  iintro ⟨⟨⟨⟨%K, #Hinv, #Hreach, Hpos, Htx, Hty, Htxr, Htyr, Htown⟩, ⟨Hcb, Hcxr, Hcyr⟩, #Hlev⟩, Harg, ⟨%fo, Hout⟩, ⟨%f0, Hs0⟩, ⟨%f1, Hs1⟩⟩, HO, Hk⟩
  ihave Hs0' := (scratch0_pieces (F := F) c f0).1 $$ Hs0
  ihave Hs1' := (scratch1_pieces (F := F) c f1).1 $$ Hs1
  ihave Hout' := (result_pieces (F := F) c fo).1 $$ Hout
  icases Hout' with ⟨Hoown, Hooth⟩
  ihave Harg' := (arg_pieces (F := F) c fullShare (argC m c)).1 $$ Harg
  icases Harg' with ⟨Hargs, Hargrem⟩
  ihave Hpos' := (Entails.of_eq (semloc_split_eq (F := F) fun sm => atPos ER (kcell (c, sm)) 0 ∅ 0)) $$ Hpos
  icases Hpos' with ⟨Hposb, Hposd⟩
  ihave Hpx := (fold_payX (F := F) c f0) $$ [Hs0']
  · isplitr; · iexact Hreach
    iexact Hs0'
  ihave Hpy := (fold_payY (F := F) c fo) $$ [Hooth]
  · isplitr; · iexact Hreach
    iexact Hooth
  unfold invs
  icases Hinv with ⟨#HIown, #HIx, #HIy, #HIxr, #HIyr⟩
  ihave #HIb := (inv_own m K c (.reg barS)) $$ HIown
  unfold reaches
  icases Hreach with ⟨#Hrown, #Hrx, #Hry, #Hrxr, #Hryr⟩
  unfold O₀
  have hmw := mayWait_bar (F := F) c
  sl_exec
  ihave Hpays := (Entails.of_eq (bar_payloads m c)) $$ Hposb_pay1
  icases Hpays with ⟨HpX, HpY⟩
  ihave Hbs := (bundles_intro m K c f1 fo) $$ [Hposd Htxr Htyr Htown Hcxr Hcyr Hargs Hs1' Hoown HpX HpY]
  · isplitr
    · unfold invs
      isplitr; · iexact HIown
      isplitr; · iexact HIx
      isplitr; · iexact HIy
      isplitr; · iexact HIxr
      iexact HIyr
    isplitr
    · unfold reaches
      isplitr; · iexact Hrown
      isplitr; · iexact Hrx
      isplitr; · iexact Hry
      isplitr; · iexact Hrxr
      iexact Hryr
    isplitl [Hposd]; · iexact Hposd
    isplitl [Htxr]; · iexact Htxr
    isplitl [Htyr]; · iexact Htyr
    isplitl [Htown]; · iexact Htown
    isplitl [Hcxr]; · iexact Hcxr
    isplitl [Hcyr]; · iexact Hcyr
    isplitl [Hargs]; · iexact Hargs
    isplitl [Hs1']; · iexact Hs1'
    isplitl [Hoown]; · iexact Hoown
    isplitl [HpX]; · iexact HpX
    iexact HpY
  ihave Hq := (Entails.of_eq (chunks_all m K c 0)) $$ Hbs
  iterate 32
    icases (chunks_pop m) $$ [Hq] with ⟨#Hi, Hb, Hq⟩
    · iexact Hq
    first | sl_exec | skip
    iapply (step_fetch m) $$ Hi Hb
    iintro Hb
    ihave Hq := (chunks_push m 1) $$ Hq Hi Hb
    iclear Hi
  iterate 32
    icases (chunks_pop m) $$ [Hq] with ⟨#Hi, Hb, Hq⟩
    · iexact Hq
    first | sl_exec | skip
    iapply (step_fetch_wait m) $$ Hi Hlev Hb [HO]
    · iexact HO
    iintro ⟨Hb, HO⟩
    first | sl_exec | skip
    iapply (step_xsend m (dev3_eq c)) $$ Hi Hb HO
    iintro ⟨Hb, HO⟩
    ihave Hq := (chunks_push m 3) $$ Hq Hi Hb
    iclear Hi
  ihave HO := (owes_congr (F := F) c (show OY c 0 + OX c ((31 : Fin 32).val + 1) = OY c ((0 : Fin 32).val) by rw [show ((31 : Fin 32).val + 1) = 32 from rfl, OX_32, add_zero]; rfl) _) $$ [HO]
  · iexact HO
  iterate 32
    icases (chunks_pop m) $$ [Hq] with ⟨#Hi, Hb, Hq⟩
    · iexact Hq
    first | sl_exec | skip
    try simp only [Prog.lift, Prog.bind_op, Prog.bind_ret, Prog.pure_eq_ret]
    iapply (step_xr_wait m) $$ Hi Hlev Hb [HO]
    · iexact HO
    iintro ⟨Hb, HO⟩
    first | sl_exec | skip
    try simp only [Prog.lift, Prog.bind_op, Prog.bind_ret, Prog.pure_eq_ret]
    iapply (step_load_vr m) $$ Hi Hb
    iintro Hb
    first | sl_exec | skip
    try simp only [Prog.lift, Prog.bind_op, Prog.bind_ret, Prog.pure_eq_ret]
    iapply (step_load_vx m) $$ Hi Hb
    iintro Hb
    first | sl_exec | skip
    try simp only [Prog.lift, Prog.bind_op, Prog.bind_ret, Prog.pure_eq_ret]
    iapply (step_load_vr m) $$ Hi Hb
    iintro Hb
    first | sl_exec | skip
    try simp only [Prog.lift, Prog.bind_op, Prog.bind_ret, Prog.pure_eq_ret]
    iapply (step_store m _ rfl) $$ Hi Hb
    iintro Hb
    first | sl_exec | skip
    try simp only [Prog.lift, Prog.bind_op, Prog.bind_ret, Prog.pure_eq_ret]
    iapply (step_ysend m (dev35_eq c)) $$ Hi Hb HO
    iintro ⟨Hb, HO⟩
    first | sl_exec | skip
    try simp only [Prog.lift, Prog.bind_op, Prog.bind_ret, Prog.pure_eq_ret]
    iapply (step_stcopy m) $$ Hi Hb
    iintro Hb
    ihave Hq := (chunks_push m 7) $$ Hq Hi Hb
    iclear Hi
  ihave HO := (owes_congr (F := F) c (show OY c ((31 : Fin 32).val + 1) = 0 by rw [show ((31 : Fin 32).val + 1) = 32 from rfl, OY_32]) _) $$ [HO]
  · iexact HO
  iterate 32
    icases (chunks_pop m) $$ [Hq] with ⟨#Hi, Hb, Hq⟩
    · iexact Hq
    first | sl_exec | skip
    try simp only [Prog.lift, Prog.bind_op, Prog.bind_ret, Prog.pure_eq_ret]
    iapply (step_xs_wait m) $$ Hi Hb HO
    iintro ⟨Hb, HO⟩
    first | sl_exec | skip
    try simp only [Prog.lift, Prog.bind_op, Prog.bind_ret, Prog.pure_eq_ret]
    iapply (step_ys_wait m) $$ Hi Hb HO
    iintro ⟨Hb, HO⟩
    first | sl_exec | skip
    try simp only [Prog.lift, Prog.bind_op, Prog.bind_ret, Prog.pure_eq_ret]
    iapply (step_yr_wait m) $$ Hi Hb HO
    iintro ⟨Hb, HO⟩
    first | sl_exec | skip
    try simp only [Prog.lift, Prog.bind_op, Prog.bind_ret, Prog.pure_eq_ret]
    iapply (step_st_wait m) $$ Hi Hb HO
    iintro ⟨Hb, HO⟩
    ihave Hq := (chunks_push m 11) $$ Hq Hi Hb
    iclear Hi
  ihave Hall := (Entails.of_eq (chunks_all m K c 11).symm) $$ [Hq]
  · iexact Hq
  imod (body_close m K c) $$ [Hall Hargrem] with HΦ
  · isplitl [Hall]; · iexact Hall
    iexact Hargrem
  sl_step
  iapply Hk
  isplitl [HΦ]; · iexact HΦ
  iexists _; iexact HO

end Cert.Kernel.AR

end
-- ==== Proof.K.Launch.lean ====
import proofs.«900708_g7700000000000709_dist_ar_v7x_xyz2x2x4_x_m8192_n1024_f32_1_alg».proof.Proof.K.Inv
import Idealize.ShloMosaic.Lib.Pipeline.Launch
import Idealize.ShloMosaic.Lib.Pipeline.Kit

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : DmaSem sig → SemLoc sig := fun s => .dma s

theorem dma_scoped : ∀ s : DmaSem sig, (SemLoc.dma s : SemLoc sig).isScoped .tc = true := by decide

theorem ownSemFacts : Pipeline.OwnSemFacts cfg0.spec osem :=
  ⟨dma_scoped, fun a b h => SemLoc.dma.inj h, fun k w => w.elim0⟩

theorem kcell_injective : Function.Injective (kcell : Dev nD × SemLoc sig → GSem nD τ sig) := by
  rintro ⟨c, k⟩ ⟨c', k'⟩ h
  have h1 : c = c' := congrArg (fun g : GSem nD τ sig => g.1.1) h
  have h2 : k = k' := congrArg Prod.snd h
  subst h1; subst h2; rfl
def arCells : Finset (GSem nD τ sig) := Finset.univ.map ⟨kcell, kcell_injective⟩

abbrev tokOf (cj : Dev nD × (Bool ⊕ DmaSem sig)) : GSem nD τ sig × ℕ × Bool := match cj.2 with
  | .inl d => (barCell cj.1, 0, d)
  | .inr s => (((cj.1 : Thread nD τ), .dma s), 0, false)
theorem tokOf_injective : Function.Injective (tokOf : Dev nD × (Bool ⊕ DmaSem sig) → GSem nD τ sig × ℕ × Bool) := by
  rintro ⟨c, j⟩ ⟨c', j'⟩ h
  have h1 : c = c' := by
    have := congrArg (fun x : GSem nD τ sig × ℕ × Bool => x.1.1.1) h
    rcases j with d | s <;> rcases j' with d' | s' <;> exact this
  subst h1
  have : j = j' := by
    rcases j with d | s <;> rcases j' with d' | s'
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · exact congrArg Sum.inr (SemLoc.dma.inj (congrArg (fun x : GSem nD τ sig × ℕ × Bool => x.1.2) h))
  subst this; rfl
def arToks : Finset (GSem nD τ sig × ℕ × Bool) := Finset.univ.map ⟨tokOf, tokOf_injective⟩

def u₀ : UU :=
  (initOf (Pipeline.cells cfgs cellOf_inj) (Pipeline.launchToks cfgs cellOf_inj), initOf arCells arToks)

def toks (c : Dev nD) : sProp 𝕄 :=
  iprop((dutyTok ER (barCell c) 0 false ∗ dutyTok ER (barCell c) 0 true)
    ∗ bigSep Finset.univ fun s : DmaSem sig => dutyTok ER ((c : Thread nD τ), .dma s) 0 false)

def G (c : Dev nD) : sProp 𝕄 :=
  iprop((bigSep Finset.univ fun sm : SemLoc sig => roundState ER (Rd m) (kcell (c, sm)) 0)
    ∗ (bigSep Finset.univ fun sm : SemLoc sig => iprop(atPos ER (kcell (c, sm)) 0 ∅ 0 ∗ reached ER (kcell (c, sm)) 0)) ∗ toks c)

def G' (c : Dev nD) : sProp 𝕄 := iprop(∃ K, ghost m K c)

omit [FloatOps F] in
theorem bigSep_bool (Φ : Bool → sProp 𝕄) : bigSep Finset.univ Φ = iprop(Φ false ∗ Φ true) :=
  bigSep_univ_eq_bigSepL [false, true] (by decide) (by decide) Φ

theorem fund_ar : BI.own (ER (initOf arCells arToks)) ⊢ (|==> bigSep Finset.univ (G m) : sProp 𝕄) := by
  have hX (Φ : GSem nD τ sig → sProp 𝕄) : bigSep arCells Φ = bigSep Finset.univ fun c : Dev nD => bigSep Finset.univ fun sm : SemLoc sig => Φ (kcell (c, sm)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => by unfold toks; rw [bigSep_univ_sum, bigSep_bool]; rfl
  iintro HX
  imod (Rounds.fund ER (Rd m) arCells arToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownSems0_eq (c : Dev nD) : (Pipeline.ownSems0 (Ix := Unit) (Name := ℕ) (U := UU) (Lvl := ℕ) (Val := Elt F) (τ := τ) osem c : sProp 𝕄)
    = bigSep Finset.univ fun s : DmaSem sig => semVal ((c : Thread nD τ), .dma s) 0 := rfl

omit [FloatOps F] in

theorem unscopedSems0_eq (c : Dev nD) : (unscopedSems0 c : sProp 𝕄) = semVal (barCell c) 0 := by
  have h : (Finset.univ.filter fun sm : SemLoc sig => ¬ sm.isScoped .tc) = {SemLoc.reg barS} := by
    ext sm
    rw [Finset.mem_filter, Finset.mem_singleton]
    cases sm with
    | reg r =>
      have hr : r = barS := Subsingleton.elim (α := Fin 1) _ _
      subst hr
      exact ⟨fun _ => rfl, fun _ => ⟨Finset.mem_univ _, by decide⟩⟩
    | dma s =>
      exact ⟨fun h => absurd (dma_scoped s) h.2, fun h => by cases h⟩
  unfold unscopedSems0; rw [h, bigSep_singleton]

omit [FloatOps F] in
theorem bigSep_semLoc (Φ : SemLoc sig → sProp 𝕄) :
    bigSep Finset.univ Φ = iprop(Φ (.reg barS) ∗ bigSep Finset.univ fun s : DmaSem sig => Φ (.dma s)) := by
  rw [bigSep_univ_equiv (SemLoc.equivSum sig).symm Φ, bigSep_univ_sum, bigSep_univ_of_subsingleton (I := Sem sig) barS]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (kcell (c, sm)) 0 : sProp 𝕄) := by
  rw [ownSems0_eq, unscopedSems0_eq, bigSep_semLoc]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (Rd m) κ (kcell (c, sm))))
          ∗ (bigSep Finset.univ fun sm : SemLoc sig => iprop(atPos ER (kcell (c, sm)) 0 ∅ 0 ∗ reached ER (kcell (c, sm)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (kcell (c, sm)) 0) ∗ bigSep Finset.univ fun sm : SemLoc sig => roundState ER (Rd m) (kcell (c, sm)) 0)
      ⊢ (|={Set.univ}=> bigSep Finset.univ fun sm : SemLoc sig => iprop(∃ κ : ℕ, cellInv ER (Rd m) κ (kcell (c, sm))) : sProp 𝕄) from by
        rw [← bigSep_sep']
        exact (bigSep_mono fun sm _ => (Rounds.body_intro ER (Rd m) (kcell (c, sm))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × SemLoc sig → ℕ) : sProp 𝕄 :=
  iprop((bigSep Finset.univ fun ck : Dev nD × SemLoc sig => cellInv ER (Rd m) (K ck) (kcell ck))
    ∗ bigSep Finset.univ fun ck : Dev nD × SemLoc sig => reached ER (kcell ck) 0)

instance records_persistent (K : Dev nD × SemLoc sig → ℕ) : BI.Persistent (records m K) := by unfold records; infer_instance

theorem invs_at (K : Dev nD × SemLoc sig → ℕ) (ck : Dev nD × SemLoc sig) :
    (bigSep Finset.univ fun ck : Dev nD × SemLoc sig => (cellInv ER (Rd m) (K ck) (kcell ck) : sProp 𝕄)) ⊢ cellInv ER (Rd m) (K ck) (kcell ck) :=
  bigSep_elim (Finset.mem_univ ck)
omit [FloatOps F] in
theorem reacheds_at (ck : Dev nD × SemLoc sig) :
    (bigSep Finset.univ fun ck : Dev nD × SemLoc sig => (reached ER (kcell ck) 0 : sProp 𝕄)) ⊢ reached ER (kcell ck) 0 :=
  bigSep_elim (Finset.mem_univ ck)
theorem inv_at (K : Dev nD × SemLoc sig → ℕ) (ck : Dev nD × SemLoc sig) :
    records m K ⊢ cellInv ER (Rd m) (K ck) (kcell ck) := by
  unfold records; iintro ⟨H, -⟩; iapply (invs_at m K ck); iexact H
theorem reached_at (K : Dev nD × SemLoc sig → ℕ) (ck : Dev nD × SemLoc sig) :
    records m K ⊢ reached ER (kcell ck) 0 := by
  unfold records; iintro ⟨-, H⟩; iapply (reacheds_at (F := F) ck); iexact H

def linear (c : Dev nD) : sProp 𝕄 :=
  iprop((bigSep Finset.univ fun sm : SemLoc sig => atPos ER (kcell (c, sm)) 0 ∅ 0) ∗ payToks c)

theorem ghost_intro (K : Dev nD × SemLoc sig → ℕ) (c : Dev nD) : iprop(records m K ∗ linear c) ⊢ G' m c := by
  unfold linear G' ghost invs reaches
  iintro ⟨#HR, Hat, Htok⟩
  iexists K
  isplitr
  · isplitr; · iapply (bigSep_intro_persistent (R := records m K) fun sm _ => inv_at m K (c, sm)); iexact HR
    isplitr; · iapply (inv_at m K (xp c, .reg barS)); iexact HR
    isplitr; · iapply (inv_at m K (yp c, .reg barS)); iexact HR
    isplitr; · iapply (bigSep_intro_persistent (R := records m K) fun k _ => inv_at m K (xp c, .dma (xrSem k))); iexact HR
    iapply (bigSep_intro_persistent (R := records m K) fun k _ => inv_at m K (yp c, .dma (yrSem k))); iexact HR
  isplitr
  · isplitr; · iapply (bigSep_intro_persistent (R := records m K) fun sm _ => reached_at m K (c, sm)); iexact HR
    isplitr; · iapply (reached_at m K (xp c, .reg barS)); iexact HR
    isplitr; · iapply (reached_at m K (yp c, .reg barS)); iexact HR
    isplitr; · iapply (bigSep_intro_persistent (R := records m K) fun k _ => reached_at m K (xp c, .dma (xrSem k))); iexact HR
    iapply (bigSep_intro_persistent (R := records m K) fun k _ => reached_at m K (yp c, .dma (yrSem k))); iexact HR
  isplitl [Hat]; · iexact Hat
  iexact Htok

def famE : Fin 6 × Fin 32 ≃ DmaSem sig := finProdFinEquiv

theorem famE_xs : ∀ k : Fin 32, famE (0, k) = xsSem k := by decide
theorem famE_xr : ∀ k : Fin 32, famE (1, k) = xrSem k := by decide
theorem famE_ys : ∀ k : Fin 32, famE (2, k) = ysSem k := by decide
theorem famE_yr : ∀ k : Fin 32, famE (3, k) = yrSem k := by decide
theorem famE_ld : ∀ k : Fin 32, famE (4, k) = ldSem k := by decide
theorem famE_st : ∀ k : Fin 32, famE (5, k) = stSem k := by decide

omit [FloatOps F] in
theorem bigSep_dmaSem (Φ : DmaSem sig → sProp 𝕄) :
    bigSep Finset.univ Φ = iprop((bigSep Finset.univ fun k : Fin 32 => Φ (xsSem k)) ∗ (bigSep Finset.univ fun k : Fin 32 => Φ (xrSem k))
      ∗ (bigSep Finset.univ fun k : Fin 32 => Φ (ysSem k)) ∗ (bigSep Finset.univ fun k : Fin 32 => Φ (yrSem k))
      ∗ (bigSep Finset.univ fun k : Fin 32 => Φ (ldSem k)) ∗ (bigSep Finset.univ fun k : Fin 32 => Φ (stSem k))) := by
  rw [bigSep_univ_equiv famE Φ, bigSep_univ_prod, bigSep_univ_eq_bigSepL [0, 1, 2, 3, 4, 5] (by decide) (by decide)]
  simp only [bigSepL_cons_cons, bigSepL_singleton, famE_xs, famE_xr, famE_ys, famE_yr, famE_ld, famE_st]
  rfl

def xpE : Dev nD ≃ Dev nD := ⟨xp, xp, xp_xp, xp_xp⟩

def ypE : Dev nD ≃ Dev nD := ⟨yp, yp, yp_yp, yp_yp⟩

omit [FloatOps F] in

theorem toks_around : (bigSep Finset.univ fun c : Dev nD => (toks c : sProp 𝕄)) ⊢ bigSep Finset.univ fun c : Dev nD => payToks c := by
  unfold toks payToks
  simp only [bigSep_dmaSem, bigSep_sep']
  rw [bigSep_univ_equiv xpE (fun c : Dev nD => (dutyTok ER (barCell c) 0 false : sProp 𝕄)),
    bigSep_univ_equiv ypE (fun c : Dev nD => (dutyTok ER (barCell c) 0 true : sProp 𝕄)),
    bigSep_univ_equiv xpE (fun c : Dev nD => (bigSep Finset.univ fun k : Fin 32 => dutyTok ER ((c : Thread nD τ), SemLoc.dma (xrSem k)) 0 false : sProp 𝕄)),
    bigSep_univ_equiv ypE (fun c : Dev nD => (bigSep Finset.univ fun k : Fin 32 => dutyTok ER ((c : Thread nD τ), SemLoc.dma (yrSem k)) 0 false : sProp 𝕄))]
  iintro ⟨⟨HbF, HbT⟩, Hxs, Hxr, Hys, Hyr, Hld, Hst⟩
  isplitl [HbF]; · iexact HbF
  isplitl [HbT]; · iexact HbT
  isplitl [Hxr]; · iexact Hxr
  isplitl [Hyr]; · iexact Hyr
  isplitl [Hxs]; · iexact Hxs
  isplitl [Hys]; · iexact Hys
  isplitl [Hld]; · iexact Hld
  iexact Hst

theorem regroup :
    (bigSep Finset.univ fun c : Dev nD => iprop((bigSep Finset.univ fun sm : SemLoc sig => iprop(∃ κ : ℕ, cellInv ER (Rd m) κ (kcell (c, sm))))
          ∗ (bigSep Finset.univ fun sm : SemLoc sig => iprop(atPos ER (kcell (c, sm)) 0 ∅ 0 ∗ reached ER (kcell (c, sm)) 0)) ∗ toks c) : sProp 𝕄)
      ⊢ bigSep Finset.univ (G' m) := by
  rw [bigSep_sep', bigSep_sep', ← bigSep_univ_prod (fun ck : Dev nD × SemLoc sig => iprop(∃ κ : ℕ, cellInv ER (Rd m) κ (kcell ck))),
    bigSep_congr (s := Finset.univ) (fun (c : Dev nD) _ => bigSep_sep' Finset.univ (fun sm : SemLoc sig => (atPos ER (kcell (c, sm)) 0 ∅ 0 : sProp 𝕄)) (fun sm => reached ER (kcell (c, sm)) 0)),
    bigSep_sep', ← bigSep_univ_prod (fun ck : Dev nD × SemLoc sig => (reached ER (kcell ck) 0 : sProp 𝕄))]
  iintro ⟨HI, ⟨Hat, #HR⟩, Htok⟩
  ihave HK := (BI.bigSep_exists_pi Finset.univ (fun (ck : Dev nD × SemLoc sig) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => bigSep Finset.univ fun sm : SemLoc sig => (atPos ER (kcell (c, sm)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in

theorem creds_of (c : Dev nD) : (Pipeline.launchCred O₀ c : sProp 𝕄) ⊢ creds c := by
  have h1 : (Pipeline.launchCred O₀ c : sProp 𝕄)
      = iprop(Pipeline.launchCred (fun d => OY d 0 + OX d 0 + tallyAt (barCell (yp d)) () 1) c ∗ Pipeline.launchCred (fun d => tallyAt (barCell (xp d)) () 1) c) :=
    Pipeline.launchCred_add (fun d => OY d 0 + OX d 0 + tallyAt (barCell (yp d)) () 1) (fun d => tallyAt (barCell (xp d)) () 1) c
  have h2 : (Pipeline.launchCred (fun d => OY d 0 + OX d 0 + tallyAt (barCell (yp d)) () 1) c : sProp 𝕄)
      = iprop(Pipeline.launchCred (fun d => OY d 0 + OX d 0) c ∗ Pipeline.launchCred (fun d => tallyAt (barCell (yp d)) () 1) c) :=
    Pipeline.launchCred_add (fun d => OY d 0 + OX d 0) (fun d => tallyAt (barCell (yp d)) () 1) c
  have h3 : (Pipeline.launchCred (fun d => OY d 0 + OX d 0) c : sProp 𝕄)
      = iprop(Pipeline.launchCred (fun d => OY d 0) c ∗ Pipeline.launchCred (fun d => OX d 0) c) :=
    Pipeline.launchCred_add (fun d => OY d 0) (fun d => OX d 0) c
  have hY : (Pipeline.launchCred (fun d => OY d 0) c : sProp 𝕄)
      = bigSep Finset.univ fun k : Fin 32 => Pipeline.launchCred (fun d => tallyAt (yrCell (yp d) k) () N) c := by
    have h := Pipeline.launchCred_sum (Val := Elt F) (Name := ℕ) (U := UU) (Lvl := ℕ) (rem 0) (fun (k : Fin 32) (d : Dev nD) => (tallyAt (yrCell (yp d) k) () N : CellTallies nD τ sig Unit)) c
    rw [rem_zero] at h; exact h
  have hX : (Pipeline.launchCred (fun d => OX d 0) c : sProp 𝕄)
      = bigSep Finset.univ fun k : Fin 32 => Pipeline.launchCred (fun d => tallyAt (xrCell (xp d) k) () N) c := by
    have h := Pipeline.launchCred_sum (Val := Elt F) (Name := ℕ) (U := UU) (Lvl := ℕ) (rem 0) (fun (k : Fin 32) (d : Dev nD) => (tallyAt (xrCell (xp d) k) () N : CellTallies nD τ sig Unit)) c
    rw [rem_zero] at h; exact h
  have hXm : (bigSep Finset.univ fun k : Fin 32 => (Pipeline.launchCred (fun d => tallyAt (xrCell (xp d) k) () N) c : sProp 𝕄))
      ⊢ bigSep Finset.univ fun k : Fin 32 => cred (tallyAt (xrCell c k) () N) :=
    bigSep_mono fun k _ => Pipeline.launchCred_tallyAt (.dma (xrSem k)) xp xp xp_xp xp_xp () N c
  have hYm : (bigSep Finset.univ fun k : Fin 32 => (Pipeline.launchCred (fun d => tallyAt (yrCell (yp d) k) () N) c : sProp 𝕄))
      ⊢ bigSep Finset.univ fun k : Fin 32 => cred (tallyAt (yrCell c k) () N) :=
    bigSep_mono fun k _ => Pipeline.launchCred_tallyAt (.dma (yrSem k)) yp yp yp_yp yp_yp () N c
  rw [h1, h2, h3, hY, hX]
  unfold creds
  iintro ⟨⟨⟨HY, HX⟩, HbY⟩, HbX⟩
  isplitl [HbY HbX]
  · iapply (Entails.of_eq (congrArg cred (tallyAt_add (barCell c) () 1 1)))
    iapply (cred_add _ _).2
    isplitl [HbY]
    · iapply (Pipeline.launchCred_tallyAt (.reg barS) yp yp yp_yp yp_yp () 1 c); iexact HbY
    · iapply (Pipeline.launchCred_tallyAt (.reg barS) xp xp xp_xp xp_xp () 1 c); iexact HbX
  isplitl [HX]
  · iapply hXm; iexact HX
  · iapply hYm; iexact HY

def Xs (c : Dev nD) : sProp 𝕄 :=
  iprop(start m c ∗ (((c : Thread nD τ).loc main_arg0) ↦{fullShare} m ((c : Thread nD τ).loc main_arg0))
    ∗ (((c : Thread nD τ).loc main_v1) ↦{fullShare} m ((c : Thread nD τ).loc main_v1)))

def Ys (c : Dev nD) : sProp 𝕄 :=
  iprop((((c : Thread nD τ).loc main_arg0) ↦{fullShare} argC m c) ∗ (((c : Thread nD τ).loc main_v1) ↦{fullShare} outC m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Xs m c ∗ emp) := by
  rw [Pipeline.unscopedRestP_none, unscopedRest0_eq]
  iintro ⟨⟨Ha, Ho⟩, Hlev, Hcr, -, HG⟩
  ihave Hc := (creds_of (F := F) c) $$ Hcr
  imodintro
  unfold Xs start G'
  isplitl
  · isplitl [HG Hc Hlev]
    · isplitl [HG]; · iexact HG
      isplitl [Hc]; · iexact Hc
      iexact Hlev
    isplitl [Ha]; · iexact Ha
    iexact Ho
  · iempintro

theorem phi0_intro (c : Dev nD) :
    iprop(Xs m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Xs
  iintro ⟨⟨Hs, Ha, Ho⟩, -, ⟨H0, H1⟩⟩
  isplitl [Hs]; · iexact Hs
  isplitl [Ha]; · iexact Ha
  isplitl [Ho]; · iexists _; iexact Ho
  isplitl [H0]; · iexact H0
  iexact H1

theorem phi1_exit (c : Dev nD) :
    (dats m 0 c).Φ (Fin.last cfg0.N) ⊢ iprop(Ys m c ∗ Pipeline.ownSems0 osem c ∗ Pipeline.scopedRest cfg0.spec c) := by
  rw [show (dats m 0 c).Φ (Fin.last cfg0.N) = Φ₁ m c from rfl, scopedRest0_eq, ownSems0_eq]
  unfold Φ₁ Ys
  iintro ⟨Ha, Ho, H0, H1, Hz⟩
  isplitl [Ha Ho]
  · isplitl [Ha] <;> iassumption
  isplitl [Hz]; · iexact Hz
  isplitl [H0] <;> iassumption

theorem waits (c : Dev nD) : (levAts L lv : sProp 𝕄) ⊢ Pipeline.cellsWaits cfgs (dats m) () 0 c :=
  Pipeline.cellsWaits_intro cfgs (dats m) () 0 c fun w => w.elim0

set_option maxRecDepth 8000 in

theorem run_main (hbody : ∀ c : Dev nD, BodyObligation (dats (F := F) m 0 c) (defs₀ (F := F)) Variants.none () Set.univ) :
    θ_run defs (onTc (τ := τ) (main (F := F))) ⟨m, fun _ => 0, ρ⟩
      (fun r => ∀ c : Dev nD, r.2.mem ((c.tc : Thread nD τ).loc main_v1) = outVal m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ar m) $$ HX with HG
      imodintro
      isplitl [HP] <;> iassumption)
    (hglob := glob m)
    (hA := fun _ w => w.elim0) (hpf := fun _ k => k.elim0)
    (X := Xs m) (Y := Ys m) (Z := fun _ => iprop(emp))
    (hX := start_intro m ρ) (hin := phi0_intro m) (hout := phi1_exit m)
    (QY := fun c s => s.mem ((c.tc : Thread nD τ).loc main_v1) = outVal m c
      ∧ s.mem ((c.tc : Thread nD τ).loc main_arg0) = m ((c.tc : Thread nD τ).loc main_arg0))
    (hY := fun c s' => by
      unfold Ys
      iintro ⟨⟨Ha, Ho⟩, -, HSI⟩
      icombine HSI Ha gives %ha
      icombine HSI Ho gives %ho
      imodintro
      isplitr
      · ipureintro; exact ⟨Buf.eq_of_forall_mem_univ ho, Buf.eq_of_forall_mem_univ ha⟩
      iexact HSI)
    (hQ := fun _ h c => (h c).2.2)

end Cert.Kernel.AR

end
-- ==== Proof.K.Claims.lean ====
import proofs.«900708_g7700000000000709_dist_ar_v7x_xyz2x2x4_x_m8192_n1024_f32_1_alg».proof.Defs
import proofs.«900708_g7700000000000709_dist_ar_v7x_xyz2x2x4_x_m8192_n1024_f32_1_alg».proof.Proof.K.Launch
import proofs.«900708_g7700000000000709_dist_ar_v7x_xyz2x2x4_x_m8192_n1024_f32_1_alg».proof.Proof.Gen.Kernel.Points
import proofs.«900708_g7700000000000709_dist_ar_v7x_xyz2x2x4_x_m8192_n1024_f32_1_alg».proof.Proof.Gen.Pre_finite_inputs_Kernel

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev SB : Prop :=
  ∀ (c : Dev nD) (W₀ : Waits sig Unit) (Kt : PUnit → sProp 𝕄),
    iprop(Φ₀ m c ∗ owes (c : Thread nD τ) (O₀ c) W₀ ∗ (iprop(Φ₁ m c ∗ ∃ W, owes (c : Thread nD τ) 0 W) -∗ Kt ⟨⟩))
      ⊢ wp frame (wpE (defs₀ (F := F)) Variants.none (c : Thread nD τ) none) Set.univ
          (cc0_body (F := F) (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7) Kt

omit [FloatOps F] in

theorem bigSep_W (Φ : Fin cfg0.W → sProp 𝕄) : bigSep Finset.univ Φ = iprop(emp) := by
  rw [show (Finset.univ : Finset (Fin cfg0.W)) = ∅ from Finset.univ_eq_empty (α := Fin 0)]; exact bigSep_empty

theorem body_obligation_of (hsb : SB m) (c : Dev nD) :
    BodyObligation (dats (F := F) m 0 c) (defs₀ (F := F)) Variants.none () Set.univ := fun t => by
  rw [fin_N0 t]
  rw [bigSep_W, bigSep_W]
  rw [show (dats m 0 c).Φ t0_0.castSucc = Φ₀ m c from rfl, show (dats m 0 c).Φ t0_0.succ = Φ₁ m c from rfl]
  have hp : defs₀ (F := F) Proc.tc cfg0.body (cfg0.bodyArgs t0_0 (cfg0.slots t0_0)) = bodyAt0 (F := F) t0_0 := rfl
  rw [hp]
  unfold Dat.owesAt Pipeline.owesWithin
  iintro ⟨HΦ, ⟨%W, %hW, HO⟩, -⟩
  iapply (hsb c W _)
  isplitl [HΦ]; · iexact HΦ
  isplitl [HO]; · iexact HO
  iintro ⟨H1, ⟨%W', HO'⟩⟩
  isplitl [H1]; · iexact H1
  isplitl [HO']
  · iexists W'
    isplitr; · ipureintro; exact fun _ _ => Or.inl (Set.mem_univ _)
    iexact HO'
  · iempintro

theorem run_of (hsb : SB m) (ρ : Dev nD → PrngReg) :
    θ_run defs (onTc (τ := τ) (main (F := F))) ⟨m, fun _ => 0, ρ⟩
      (fun r => ∀ c : Dev nD, r.2.mem ((c.tc : Thread nD τ).loc main_v1) = outVal m c
        ∧ r.2.mem ((c.tc : Thread nD τ).loc main_arg0) = m ((c.tc : Thread nD τ).loc main_arg0)) :=
  run_main m ρ (body_obligation_of m hsb)

theorem run_frame (hsb : SB m) (ρ : Dev nD → PrngReg) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run defs _ _).mono (fun _ h c => (h c).2) (run_of m hsb ρ)

end Cert.Kernel.AR

namespace Cert.Kernel.ARClaims

open Cert.Kernel Cert.Kernel.AR
open Idealize.ShloMosaic Idealize.ShloMosaic.TcCoe Idealize.SL.Sem

theorem frame_k (hsb : ∀ m : (ℓ : Loc Cert.Kernel.nD Cert.Kernel.τ Cert.Kernel.sig) → Buf (Elt Bits) ℓ, SB (F := Bits) m) : Cert.frame_Kernel :=
  fun m ρ _ => run_frame m (hsb m) ρ

end Cert.Kernel.ARClaims

end
-- ==== Proof.lean ====
/- The five conjuncts. The kernel's two frames are the run of one device's body through the launch; the idealized kernel's named result is the reference's; the ideal pass rewrote nothing. -/
import proofs.«900708_g7700000000000709_dist_ar_v7x_xyz2x2x4_x_m8192_n1024_f32_1_alg».proof.Defs
import proofs.«900708_g7700000000000709_dist_ar_v7x_xyz2x2x4_x_m8192_n1024_f32_1_alg».proof.Proof.Gen.Kernel
import proofs.«900708_g7700000000000709_dist_ar_v7x_xyz2x2x4_x_m8192_n1024_f32_1_alg».proof.Proof.Gen.KernelIdeal
import proofs.«900708_g7700000000000709_dist_ar_v7x_xyz2x2x4_x_m8192_n1024_f32_1_alg».proof.Proof.Gen.ReferenceIdeal
import proofs.«900708_g7700000000000709_dist_ar_v7x_xyz2x2x4_x_m8192_n1024_f32_1_alg».proof.Proof.Gen.Pre_finite_inputs_Kernel
import proofs.«900708_g7700000000000709_dist_ar_v7x_xyz2x2x4_x_m8192_n1024_f32_1_alg».proof.Proof.Gen.Pre_finite_inputs_ReferenceIdeal
import proofs.«900708_g7700000000000709_dist_ar_v7x_xyz2x2x4_x_m8192_n1024_f32_1_alg».proof.Proof.KI.Body
import proofs.«900708_g7700000000000709_dist_ar_v7x_xyz2x2x4_x_m8192_n1024_f32_1_alg».proof.Proof.KI.Claims
import proofs.«900708_g7700000000000709_dist_ar_v7x_xyz2x2x4_x_m8192_n1024_f32_1_alg».proof.Proof.KI.RefSide
import proofs.«900708_g7700000000000709_dist_ar_v7x_xyz2x2x4_x_m8192_n1024_f32_1_alg».proof.Proof.K.Body
import proofs.«900708_g7700000000000709_dist_ar_v7x_xyz2x2x4_x_m8192_n1024_f32_1_alg».proof.Proof.K.Claims

noncomputable section

namespace Cert.Proof

open Idealize.ShloMosaic Idealize.SL.Sem

set_option maxRecDepth 100000 in

theorem frame_k : Cert.frame_Kernel := Cert.Kernel.ARClaims.frame_k fun m => Cert.Kernel.AR.sound_body m
set_option maxRecDepth 100000 in

theorem frame_ki : Cert.frame_KernelIdeal := Cert.KernelIdeal.ARClaims.frame_ki fun m => Cert.KernelIdeal.AR.sound_body m
set_option maxRecDepth 100000 in

theorem algebraic : Cert.algebraic_KernelIdeal_ReferenceIdeal := Cert.KernelIdeal.ARClaims.algebraic_ki fun m => Cert.KernelIdeal.AR.sound_body m

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_k, frame_ki, Cert.ReferenceIdeal.RefSide.frame, trivial, algebraic⟩

end Cert.Proof

end
